-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v209)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v209) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v356) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x23 : Shape := ⟨2, ![100000, 23]⟩
abbrev S5x800000 : Shape := ⟨2, ![5, 800000]⟩
abbrev S100000 : Shape := ⟨1, ![100000]⟩
abbrev S5x23x128 : Shape := ⟨3, ![5, 23, 128]⟩
abbrev S5x128 : Shape := ⟨2, ![5, 128]⟩
abbrev S5x128x64 : Shape := ⟨3, ![5, 128, 64]⟩
abbrev S5x64 : Shape := ⟨2, ![5, 64]⟩
abbrev S_ : Shape := ⟨0, ![]⟩

class Facts : Prop where
  bcast_S_S100000x23 : S_.BroadcastsInDim S100000x23 (![] : Fin 0 → Fin S100000x23.rank)
  reducesTo_S100000x23_S_d0_1 : S100000x23.ReducesTo [0, 1] S_
  h_S_ : 0 < S_.numel
  bcast_S_S5x23x128 : S_.BroadcastsInDim S5x23x128 (![] : Fin 0 → Fin S5x23x128.rank)
  reducesTo_S5x23x128_S_d0_1_2 : S5x23x128.ReducesTo [0, 1, 2] S_
  bcast_S_S5x128 : S_.BroadcastsInDim S5x128 (![] : Fin 0 → Fin S5x128.rank)
  reducesTo_S5x128_S_d0_1 : S5x128.ReducesTo [0, 1] S_
  bcast_S_S5x128x64 : S_.BroadcastsInDim S5x128x64 (![] : Fin 0 → Fin S5x128x64.rank)
  reducesTo_S5x128x64_S_d0_1_2 : S5x128x64.ReducesTo [0, 1, 2] S_
  bcast_S_S5x64 : S_.BroadcastsInDim S5x64 (![] : Fin 0 → Fin S5x64.rank)
  reducesTo_S5x64_S_d0_1 : S5x64.ReducesTo [0, 1] S_

variable [Facts]

def fn_part1 {F : FTy → Type} [FloatOps F] (main_arg7 : FVec F S5x64 .f32) (main_v13 : IVec S_ 1) (main_v16 : IVec S5x128x64 1) : IVec S_ 1 :=
  let main_c_5 : IVec S_ 1 := constantI S_ 1 1#1
  let main_v17 : IVec S_ 1 := (fun x v => Host.reduce IntOp.andi x v reducesTo_S5x128x64_S_d0_1_2 h_S_) main_v16 main_c_5
  let main_v18 : IVec S_ 1 := andi main_v13 main_v17
  let main_v19 : FVec F S5x64 .f32 := Host.absf main_arg7
  let main_cst_6 : FVec F S_ .f32 := constant S_ .f32 0x7F800000#32
  let main_v20 : FVec F S5x64 .f32 := broadcastInDim S5x64 ![] bcast_S_S5x64 main_cst_6
  let main_v21 : IVec S5x64 1 := cmpf .olt main_v19 main_v20
  let main_c_7 : IVec S_ 1 := constantI S_ 1 1#1
  let main_v22 : IVec S_ 1 := (fun x v => Host.reduce IntOp.andi x v reducesTo_S5x64_S_d0_1 h_S_) main_v21 main_c_7
  let main_v23 : IVec S_ 1 := andi main_v18 main_v22
  main_v23

def fn {F : FTy → Type} [FloatOps F] (main_arg0 : FVec F S100000x23 .f32) (main_arg1 : IVec S5x800000 32) (main_arg2 : IVec S5x800000 32) (main_arg3 : IVec S100000 32) (main_arg4 : FVec F S5x23x128 .f32) (main_arg5 : FVec F S5x128 .f32) (main_arg6 : FVec F S5x128x64 .f32) (main_arg7 : FVec F S5x64 .f32) : IVec S_ 1 :=
  let main_v0 : FVec F S100000x23 .f32 := Host.absf main_arg0
  let main_cst : FVec F S_ .f32 := constant S_ .f32 0x7F800000#32
  let main_v1 : FVec F S100000x23 .f32 := broadcastInDim S100000x23 ![] bcast_S_S100000x23 main_cst
  let main_v2 : IVec S100000x23 1 := cmpf .olt main_v0 main_v1
  let main_c : IVec S_ 1 := constantI S_ 1 1#1
  let main_v3 : IVec S_ 1 := (fun x v => Host.reduce IntOp.andi x v reducesTo_S100000x23_S_d0_1 h_S_) main_v2 main_c
  let main_v4 : FVec F S5x23x128 .f32 := Host.absf main_arg4
  let main_cst_0 : FVec F S_ .f32 := constant S_ .f32 0x7F800000#32
  let main_v5 : FVec F S5x23x128 .f32 := broadcastInDim S5x23x128 ![] bcast_S_S5x23x128 main_cst_0
  let main_v6 : IVec S5x23x128 1 := cmpf .olt main_v4 main_v5
  let main_c_1 : IVec S_ 1 := constantI S_ 1 1#1
  let main_v7 : IVec S_ 1 := (fun x v => Host.reduce IntOp.andi x v reducesTo_S5x23x128_S_d0_1_2 h_S_) main_v6 main_c_1
  let main_v8 : IVec S_ 1 := andi main_v3 main_v7
  let main_v9 : FVec F S5x128 .f32 := Host.absf main_arg5
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128x64 .f32 := Host.absf main_arg6
  let main_cst_4 : FVec F S_ .f32 := constant S_ .f32 0x7F800000#32
  let main_v15 : FVec F S5x128x64 .f32 := broadcastInDim S5x128x64 ![] bcast_S_S5x128x64 main_cst_4
  let main_v16 : IVec S5x128x64 1 := cmpf .olt main_v14 main_v15
  fn_part1 (F := F) main_arg7 main_v13 main_v16
-- ==== Kernel.lean ====
abbrev S100000x23 : Shape := ⟨2, ![100000, 23]⟩
abbrev S5x800000 : Shape := ⟨2, ![5, 800000]⟩
abbrev S100000 : Shape := ⟨1, ![100000]⟩
abbrev S5x23x128 : Shape := ⟨3, ![5, 23, 128]⟩
abbrev S5x128 : Shape := ⟨2, ![5, 128]⟩
abbrev S5x128x64 : Shape := ⟨3, ![5, 128, 64]⟩
abbrev S5x64 : Shape := ⟨2, ![5, 64]⟩
abbrev S_ : Shape := ⟨0, ![]⟩
abbrev S800000 : Shape := ⟨1, ![800000]⟩
abbrev S1x800000 : Shape := ⟨2, ![1, 800000]⟩
abbrev S800000x1 : Shape := ⟨2, ![800000, 1]⟩
abbrev S1x100000 : Shape := ⟨2, ![1, 100000]⟩
abbrev S5x100000 : Shape := ⟨2, ![5, 100000]⟩
abbrev S5x100000x1 : Shape := ⟨3, ![5, 100000, 1]⟩
abbrev S800000x23 : Shape := ⟨2, ![800000, 23]⟩
abbrev S1x100000x23 : Shape := ⟨3, ![1, 100000, 23]⟩
abbrev S5x100000x23 : Shape := ⟨3, ![5, 100000, 23]⟩
abbrev S5x1x128 : Shape := ⟨3, ![5, 1, 128]⟩
abbrev S100000x128 : Shape := ⟨2, ![100000, 128]⟩
abbrev S1x5000x23 : Shape := ⟨3, ![1, 5000, 23]⟩
abbrev S5000x23 : Shape := ⟨2, ![5000, 23]⟩
abbrev S1x5000x1 : Shape := ⟨3, ![1, 5000, 1]⟩
abbrev S1x23x128 : Shape := ⟨3, ![1, 23, 128]⟩
abbrev S1x1x128 : Shape := ⟨3, ![1, 1, 128]⟩
abbrev S5000x128 : Shape := ⟨2, ![5000, 128]⟩
abbrev S5000x1 : Shape := ⟨2, ![5000, 1]⟩
abbrev S23x128 : Shape := ⟨2, ![23, 128]⟩
abbrev S1x128 : Shape := ⟨2, ![1, 128]⟩
abbrev S5x100000x64 : Shape := ⟨3, ![5, 100000, 64]⟩
abbrev S1x128x64 : Shape := ⟨3, ![1, 128, 64]⟩
abbrev S1x5000x64 : Shape := ⟨3, ![1, 5000, 64]⟩
abbrev S128x64 : Shape := ⟨2, ![128, 64]⟩
abbrev S5000x64 : Shape := ⟨2, ![5000, 64]⟩
abbrev S1x100000x64 : Shape := ⟨3, ![1, 100000, 64]⟩
abbrev S100000x64 : Shape := ⟨2, ![100000, 64]⟩
abbrev S800000x64 : Shape := ⟨2, ![800000, 64]⟩
abbrev S5x1x64 : Shape := ⟨3, ![5, 1, 64]⟩
abbrev S1x1x64 : Shape := ⟨3, ![1, 1, 64]⟩
abbrev S1x64 : Shape := ⟨2, ![1, 64]⟩
abbrev S100000x1 : Shape := ⟨2, ![100000, 1]⟩
abbrev S64x64 : Shape := ⟨2, ![64, 64]⟩
abbrev S64x1 : Shape := ⟨2, ![64, 1]⟩

abbrev nBuf : Space → Nat
  | .hbm => 260
  | .vmem => 37
  | .smem => 0
  | _ => 0

abbrev hbmTy0_0 (i : Nat) : BufTy := match i % 128 with
  | 0 => ⟨S100000x23, .f32⟩
  | 1 => ⟨S5x800000, .i32⟩
  | 2 => ⟨S5x800000, .i32⟩
  | 3 => ⟨S100000, .i32⟩
  | 4 => ⟨S5x23x128, .f32⟩
  | 5 => ⟨S5x128, .f32⟩
  | 6 => ⟨S5x128x64, .f32⟩
  | 7 => ⟨S5x64, .f32⟩
  | 8 => ⟨S_, .f32⟩
  | 9 => ⟨S800000, .f32⟩
  | 10 => ⟨S1x800000, .i32⟩
  | 11 => ⟨S800000, .i32⟩
  | 12 => ⟨S_, .f32⟩
  | 13 => ⟨S100000, .f32⟩
  | 14 => ⟨S800000x1, .i32⟩
  | 15 => ⟨S100000, .f32⟩
  | 16 => ⟨S_, .f32⟩
  | 17 => ⟨S800000, .f32⟩
  | 18 => ⟨S1x800000, .i32⟩
  | 19 => ⟨S800000, .i32⟩
  | 20 => ⟨S_, .f32⟩
  | 21 => ⟨S100000, .f32⟩
  | 22 => ⟨S800000x1, .i32⟩
  | 23 => ⟨S100000, .f32⟩
  | 24 => ⟨S_, .f32⟩
  | 25 => ⟨S800000, .f32⟩
  | 26 => ⟨S1x800000, .i32⟩
  | 27 => ⟨S800000, .i32⟩
  | 28 => ⟨S_, .f32⟩
  | 29 => ⟨S100000, .f32⟩
  | 30 => ⟨S800000x1, .i32⟩
  | 31 => ⟨S100000, .f32⟩
  | 32 => ⟨S_, .f32⟩
  | 33 => ⟨S800000, .f32⟩
  | 34 => ⟨S1x800000, .i32⟩
  | 35 => ⟨S800000, .i32⟩
  | 36 => ⟨S_, .f32⟩
  | 37 => ⟨S100000, .f32⟩
  | 38 => ⟨S800000x1, .i32⟩
  | 39 => ⟨S100000, .f32⟩
  | 40 => ⟨S_, .f32⟩
  | 41 => ⟨S800000, .f32⟩
  | 42 => ⟨S1x800000, .i32⟩
  | 43 => ⟨S800000, .i32⟩
  | 44 => ⟨S_, .f32⟩
  | 45 => ⟨S100000, .f32⟩
  | 46 => ⟨S800000x1, .i32⟩
  | 47 => ⟨S100000, .f32⟩
  | 48 => ⟨S1x100000, .f32⟩
  | 49 => ⟨S1x100000, .f32⟩
  | 50 => ⟨S1x100000, .f32⟩
  | 51 => ⟨S1x100000, .f32⟩
  | 52 => ⟨S1x100000, .f32⟩
  | 53 => ⟨S5x100000, .f32⟩
  | 54 => ⟨S_, .f32⟩
  | 55 => ⟨S5x100000, .f32⟩
  | 56 => ⟨S5x100000, .f32⟩
  | 57 => ⟨S_, .f32⟩
  | 58 => ⟨S5x100000, .f32⟩
  | 59 => ⟨S5x100000, .f32⟩
  | 60 => ⟨S5x100000x1, .f32⟩
  | 61 => ⟨S1x800000, .i32⟩
  | 62 => ⟨S800000, .i32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x23, .f32⟩
  | 72 => ⟨S1x800000, .i32⟩
  | 73 => ⟨S800000, .i32⟩
  | 74 => ⟨S_, .f32⟩
  | 75 => ⟨S100000x23, .f32⟩
  | 76 => ⟨S800000x1, .i32⟩
  | 77 => ⟨S100000x23, .f32⟩
  | 78 => ⟨S1x800000, .i32⟩
  | 79 => ⟨S800000, .i32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x23, .f32⟩
  | 89 => ⟨S1x800000, .i32⟩
  | 90 => ⟨S800000, .i32⟩
  | 91 => ⟨S_, .f32⟩
  | 92 => ⟨S100000x23, .f32⟩
  | 93 => ⟨S800000x1, .i32⟩
  | 94 => ⟨S100000x23, .f32⟩
  | 95 => ⟨S1x800000, .i32⟩
  | 96 => ⟨S800000, .i32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x23, .f32⟩
  | 106 => ⟨S1x800000, .i32⟩
  | 107 => ⟨S800000, .i32⟩
  | 108 => ⟨S_, .f32⟩
  | 109 => ⟨S100000x23, .f32⟩
  | 110 => ⟨S800000x1, .i32⟩
  | 111 => ⟨S100000x23, .f32⟩
  | 112 => ⟨S1x800000, .i32⟩
  | 113 => ⟨S800000, .i32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x23, .f32⟩
  | 123 => ⟨S1x800000, .i32⟩
  | 124 => ⟨S800000, .i32⟩
  | 125 => ⟨S_, .f32⟩
  | 126 => ⟨S100000x23, .f32⟩
  | 127 => ⟨S800000x1, .i32⟩
  | _ => ⟨S100000x23, .f32⟩

abbrev hbmTy0_1 (i : Nat) : BufTy := match i % 128 with
  | 0 => ⟨S100000x23, .f32⟩
  | 1 => ⟨S1x800000, .i32⟩
  | 2 => ⟨S800000, .i32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x23, .f32⟩
  | 12 => ⟨S1x800000, .i32⟩
  | 13 => ⟨S800000, .i32⟩
  | 14 => ⟨S_, .f32⟩
  | 15 => ⟨S100000x23, .f32⟩
  | 16 => ⟨S800000x1, .i32⟩
  | 17 => ⟨S100000x23, .f32⟩
  | 18 => ⟨S1x100000x23, .f32⟩
  | 19 => ⟨S1x100000x23, .f32⟩
  | 20 => ⟨S1x100000x23, .f32⟩
  | 21 => ⟨S1x100000x23, .f32⟩
  | 22 => ⟨S1x100000x23, .f32⟩
  | 23 => ⟨S5x100000x23, .f32⟩
  | 24 => ⟨S5x1x128, .f32⟩
  | 25 => ⟨S100000x128, .f32⟩
  | 26 => ⟨S5x100000x64, .f32⟩
  | 27 => ⟨S1x100000x64, .f32⟩
  | 28 => ⟨S100000x64, .f32⟩
  | 29 => ⟨S1x800000, .i32⟩
  | 30 => ⟨S800000, .i32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S1x800000, .i32⟩
  | 41 => ⟨S800000, .i32⟩
  | 42 => ⟨S_, .f32⟩
  | 43 => ⟨S100000x64, .f32⟩
  | 44 => ⟨S800000x1, .i32⟩
  | 45 => ⟨S100000x64, .f32⟩
  | 46 => ⟨S1x100000x64, .f32⟩
  | 47 => ⟨S100000x64, .f32⟩
  | 48 => ⟨S1x800000, .i32⟩
  | 49 => ⟨S800000, .i32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x64, .f32⟩
  | 59 => ⟨S1x800000, .i32⟩
  | 60 => ⟨S800000, .i32⟩
  | 61 => ⟨S_, .f32⟩
  | 62 => ⟨S100000x64, .f32⟩
  | 63 => ⟨S800000x1, .i32⟩
  | 64 => ⟨S100000x64, .f32⟩
  | 65 => ⟨S1x100000x64, .f32⟩
  | 66 => ⟨S100000x64, .f32⟩
  | 67 => ⟨S1x800000, .i32⟩
  | 68 => ⟨S800000, .i32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S1x800000, .i32⟩
  | 79 => ⟨S800000, .i32⟩
  | 80 => ⟨S_, .f32⟩
  | 81 => ⟨S100000x64, .f32⟩
  | 82 => ⟨S800000x1, .i32⟩
  | 83 => ⟨S100000x64, .f32⟩
  | 84 => ⟨S1x100000x64, .f32⟩
  | 85 => ⟨S100000x64, .f32⟩
  | 86 => ⟨S1x800000, .i32⟩
  | 87 => ⟨S800000, .i32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S1x800000, .i32⟩
  | 98 => ⟨S800000, .i32⟩
  | 99 => ⟨S_, .f32⟩
  | 100 => ⟨S100000x64, .f32⟩
  | 101 => ⟨S800000x1, .i32⟩
  | 102 => ⟨S100000x64, .f32⟩
  | 103 => ⟨S1x100000x64, .f32⟩
  | 104 => ⟨S100000x64, .f32⟩
  | 105 => ⟨S1x800000, .i32⟩
  | 106 => ⟨S800000, .i32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x64, .f32⟩
  | 116 => ⟨S1x800000, .i32⟩
  | 117 => ⟨S800000, .i32⟩
  | 118 => ⟨S_, .f32⟩
  | 119 => ⟨S100000x64, .f32⟩
  | 120 => ⟨S800000x1, .i32⟩
  | 121 => ⟨S100000x64, .f32⟩
  | 122 => ⟨S1x100000x64, .f32⟩
  | 123 => ⟨S1x100000x64, .f32⟩
  | 124 => ⟨S1x100000x64, .f32⟩
  | 125 => ⟨S1x100000x64, .f32⟩
  | 126 => ⟨S1x100000x64, .f32⟩
  | 127 => ⟨S5x100000x64, .f32⟩
  | _ => ⟨S100000x23, .f32⟩

abbrev hbmTy0_2 (i : Nat) : BufTy := match i % 128 with
  | 0 => ⟨S5x1x64, .f32⟩
  | 1 => ⟨S100000x64, .f32⟩
  | 2 => ⟨S100000x1, .i32⟩
  | 3 => ⟨S64x64, .f32⟩
  | _ => ⟨S100000x23, .f32⟩

abbrev hbmTy (i : Nat) : BufTy := match i / 128 with
  | 0 => hbmTy0_0 i
  | 1 => hbmTy0_1 i
  | 2 => hbmTy0_2 i
  | _ => ⟨S100000x23, .f32⟩

abbrev bufTy : (tb : Table) → Fin (tcTables nBuf tb) → BufTy
  | .hbm, ⟨i, _⟩ => hbmTy i
  | .local _ .vmem, ⟨0, _⟩ => ⟨S1x5000x23, .f32⟩
  | .local _ .vmem, ⟨1, _⟩ => ⟨S1x5000x23, .f32⟩
  | .local _ .vmem, ⟨2, _⟩ => ⟨S5000x23, .f32⟩
  | .local _ .vmem, ⟨3, _⟩ => ⟨S5000x23, .f32⟩
  | .local _ .vmem, ⟨4, _⟩ => ⟨S1x5000x1, .f32⟩
  | .local _ .vmem, ⟨5, _⟩ => ⟨S1x5000x1, .f32⟩
  | .local _ .vmem, ⟨6, _⟩ => ⟨S1x23x128, .f32⟩
  | .local _ .vmem, ⟨7, _⟩ => ⟨S1x23x128, .f32⟩
  | .local _ .vmem, ⟨8, _⟩ => ⟨S1x1x128, .f32⟩
  | .local _ .vmem, ⟨9, _⟩ => ⟨S1x1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128x64, .f32⟩
  | .local _ .vmem, ⟨16, _⟩ => ⟨S1x128x64, .f32⟩
  | .local _ .vmem, ⟨17, _⟩ => ⟨S1x5000x64, .f32⟩
  | .local _ .vmem, ⟨18, _⟩ => ⟨S1x5000x64, .f32⟩
  | .local _ .vmem, ⟨19, _⟩ => ⟨S1x5000x64, .f32⟩
  | .local _ .vmem, ⟨20, _⟩ => ⟨S1x5000x64, .f32⟩
  | .local _ .vmem, ⟨21, _⟩ => ⟨S1x5000x64, .f32⟩
  | .local _ .vmem, ⟨22, _⟩ => ⟨S1x5000x64, .f32⟩
  | .local _ .vmem, ⟨23, _⟩ => ⟨S1x5000x1, .f32⟩
  | .local _ .vmem, ⟨24, _⟩ => ⟨S1x5000x1, .f32⟩
  | .local _ .vmem, ⟨25, _⟩ => ⟨S1x1x64, .f32⟩
  | .local _ .vmem, ⟨26, _⟩ => ⟨S1x1x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x1, .i32⟩
  | .local _ .vmem, ⟨33, _⟩ => ⟨S5000x1, .i32⟩
  | .local _ .vmem, ⟨34, _⟩ => ⟨S64x64, .f32⟩
  | .local _ .vmem, ⟨35, _⟩ => ⟨S64x64, .f32⟩
  | .local _ .vmem, ⟨36, _⟩ => ⟨S64x1, .f32⟩
  | _, _ => ⟨S100000x23, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_c_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_c_17 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_18 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_19 : Ref sig .tc := ⟨.hbm, 114, rfl⟩
abbrev main_v85 : Ref sig .tc := ⟨.hbm, 115, rfl⟩
abbrev main_v86 : Ref sig .tc := ⟨.hbm, 116, rfl⟩
abbrev main_c_20 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_21 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_22 : Ref sig .tc := ⟨.hbm, 131, rfl⟩
abbrev main_v99 : Ref sig .tc := ⟨.hbm, 132, rfl⟩
abbrev main_v100 : Ref sig .tc := ⟨.hbm, 133, rfl⟩
abbrev main_c_23 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_24 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_c_25 : Ref sig .tc := ⟨.hbm, 159, rfl⟩
abbrev main_v124 : Ref sig .tc := ⟨.hbm, 160, rfl⟩
abbrev main_v125 : Ref sig .tc := ⟨.hbm, 161, rfl⟩
abbrev main_c_26 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_27 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_c_28 : Ref sig .tc := ⟨.hbm, 178, rfl⟩
abbrev main_v140 : Ref sig .tc := ⟨.hbm, 179, rfl⟩
abbrev main_v141 : Ref sig .tc := ⟨.hbm, 180, rfl⟩
abbrev main_c_29 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_cst_30 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_c_31 : Ref sig .tc := ⟨.hbm, 197, rfl⟩
abbrev main_v156 : Ref sig .tc := ⟨.hbm, 198, rfl⟩
abbrev main_v157 : Ref sig .tc := ⟨.hbm, 199, rfl⟩
abbrev main_c_32 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_cst_33 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_c_34 : Ref sig .tc := ⟨.hbm, 216, rfl⟩
abbrev main_v172 : Ref sig .tc := ⟨.hbm, 217, rfl⟩
abbrev main_v173 : Ref sig .tc := ⟨.hbm, 218, rfl⟩
abbrev main_c_35 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_36 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_c_37 : Ref sig .tc := ⟨.hbm, 235, rfl⟩
abbrev main_v188 : Ref sig .tc := ⟨.hbm, 236, rfl⟩
abbrev main_v189 : Ref sig .tc := ⟨.hbm, 237, rfl⟩
abbrev main_c_38 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_cst_39 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_scratch0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_scratch0 : Ref sig .tc := ⟨.vmem, 35, rfl⟩
abbrev cc3_scratch1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32

abbrev nD : Nat := 1
abbrev τ : Topo := Topo.v7x

variable {F : FTy → Type} [FloatOps F]

abbrev grid0 : Pipeline.Grid := ⟨2, ![20, 5], ![false, false]⟩

def k0_cond2 (i : grid0.Coords) : BitVec 1 :=
  let arg1 : BitVec 32 := BitVec.ofNat 32 (i 1).val
  let c4_i32 : BitVec 32 := 4#32
  let v25 : BitVec 1 := Scalar.cmpi .eq arg1 c4_i32
  let v26 : BitVec 32 := Scalar.extui v25
  let c0_i32_18 : BitVec 32 := 0#32
  let v27 : BitVec 1 := Scalar.cmpi .ne v26 c0_i32_18
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x5000x23 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x23 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x23x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![20, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![20, 5], ![false, false]⟩

def k2_cond2 (i : grid2.Coords) : BitVec 1 :=
  let arg1 : BitVec 32 := BitVec.ofNat 32 (i 1).val
  let c4_i32 : BitVec 32 := 4#32
  let v21 : BitVec 1 := Scalar.cmpi .eq arg1 c4_i32
  let v22 : BitVec 32 := Scalar.extui v21
  let c0_i32_16 : BitVec 32 := 0#32
  let v23 : BitVec 1 := Scalar.cmpi .ne v22 c0_i32_16
  v23

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v26 : BitVec 1 := Scalar.cmpi .eq arg0 c19_i32
  let v27 : BitVec 32 := Scalar.extui v26
  let c0_i32_14 : BitVec 32 := 0#32
  let v28 : BitVec 1 := Scalar.cmpi .ne v27 c0_i32_14
  v28

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  bcast_S_S800000 : S_.BroadcastsInDim S800000 (![] : Fin 0 → Fin S800000.rank)
  slices_S5x800000_S1x800000_0_0 : S5x800000.Slices ![0, 0] S1x800000
  shapeCasts_S1x800000_S800000 : S1x800000.ShapeCasts S800000
  bcast_S_S100000 : S_.BroadcastsInDim S100000 (![] : Fin 0 → Fin S100000.rank)
  bcast_S800000_S800000x1_0 : S800000.BroadcastsInDim S800000x1 (![0] : Fin 1 → Fin S800000x1.rank)
  slices_S5x800000_S1x800000_1_0 : S5x800000.Slices ![1, 0] S1x800000
  slices_S5x800000_S1x800000_2_0 : S5x800000.Slices ![2, 0] S1x800000
  slices_S5x800000_S1x800000_3_0 : S5x800000.Slices ![3, 0] S1x800000
  slices_S5x800000_S1x800000_4_0 : S5x800000.Slices ![4, 0] S1x800000
  bcast_S100000_S1x100000_1 : S100000.BroadcastsInDim S1x100000 (![1] : Fin 1 → Fin S1x100000.rank)
  concatenates_S1x100000_S1x100000_S1x100000_S1x100000_S1x100000_S5x100000_d0 : Shape.Concatenates [S1x100000, S1x100000, S1x100000, S1x100000, S1x100000] S5x100000 0
  bcast_S_S5x100000 : S_.BroadcastsInDim S5x100000 (![] : Fin 0 → Fin S5x100000.rank)
  shapeCasts_S5x100000_S5x100000x1 : S5x100000.ShapeCasts S5x100000x1
  bcast_S_S100000x23 : S_.BroadcastsInDim S100000x23 (![] : Fin 0 → Fin S100000x23.rank)
  bcast_S100000x23_S1x100000x23_1_2 : S100000x23.BroadcastsInDim S1x100000x23 (![1, 2] : Fin 2 → Fin S1x100000x23.rank)
  concatenates_S1x100000x23_S1x100000x23_S1x100000x23_S1x100000x23_S1x100000x23_S5x100000x23_d0 : Shape.Concatenates [S1x100000x23, S1x100000x23, S1x100000x23, S1x100000x23, S1x100000x23] S5x100000x23 0
  shapeCasts_S5x128_S5x1x128 : S5x128.ShapeCasts S5x1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x5000x23_S1x5000x23_0_0_0 : ∀ a, (![0, 0, 0] : Fin 3 → Nat) a + S1x5000x23.size a ≤ S1x5000x23.size a
  h_S1x5000x23 : 0 < S1x5000x23.numel
  shapeCasts_S1x5000x23_S5000x23 : S1x5000x23.ShapeCasts S5000x23
  inb_S5000x23_S5000x23_0_0 : ∀ a, (![0, 0] : Fin 2 → Nat) a + S5000x23.size a ≤ S5000x23.size a
  h_S5000x23 : 0 < S5000x23.numel
  inb_S1x5000x1_S1x5000x1_0_0_0 : ∀ a, (![0, 0, 0] : Fin 3 → Nat) a + S1x5000x1.size a ≤ S1x5000x1.size a
  h_S1x5000x1 : 0 < S1x5000x1.numel
  shapeCasts_S1x5000x1_S5000x1 : S1x5000x1.ShapeCasts S5000x1
  broadcasts_S5000x1_S5000x23 : S5000x1.Broadcasts S5000x23
  inb_S1x23x128_S1x23x128_0_0_0 : ∀ a, (![0, 0, 0] : Fin 3 → Nat) a + S1x23x128.size a ≤ S1x23x128.size a
  h_S1x23x128 : 0 < S1x23x128.numel
  shapeCasts_S1x23x128_S23x128 : S1x23x128.ShapeCasts S23x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  bitsLt_bf16_f32 : FTy.bits .bf16 < FTy.bits .f32
  broadcasts_S1x128_S5000x128 : S1x128.Broadcasts S5000x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x5000x64_S1x5000x64_0_0_0 : ∀ a, (![0, 0, 0] : Fin 3 → Nat) a + S1x5000x64.size a ≤ S1x5000x64.size a
  h_S1x5000x64 : 0 < S1x5000x64.numel
  shapeCasts_S1x5000x64_S5000x64 : S1x5000x64.ShapeCasts S5000x64
  shapeCasts_S5000x64_S1x5000x64 : S5000x64.ShapeCasts S1x5000x64
  slices_S5x100000x64_S1x100000x64_0_0_0 : S5x100000x64.Slices ![0, 0, 0] S1x100000x64
  shapeCasts_S1x100000x64_S100000x64 : S1x100000x64.ShapeCasts S100000x64
  bcast_S_S100000x64 : S_.BroadcastsInDim S100000x64 (![] : Fin 0 → Fin S100000x64.rank)
  slices_S5x100000x64_S1x100000x64_1_0_0 : S5x100000x64.Slices ![1, 0, 0] S1x100000x64
  slices_S5x100000x64_S1x100000x64_2_0_0 : S5x100000x64.Slices ![2, 0, 0] S1x100000x64
  slices_S5x100000x64_S1x100000x64_3_0_0 : S5x100000x64.Slices ![3, 0, 0] S1x100000x64
  slices_S5x100000x64_S1x100000x64_4_0_0 : S5x100000x64.Slices ![4, 0, 0] S1x100000x64
  bcast_S100000x64_S1x100000x64_1_2 : S100000x64.BroadcastsInDim S1x100000x64 (![1, 2] : Fin 2 → Fin S1x100000x64.rank)
  concatenates_S1x100000x64_S1x100000x64_S1x100000x64_S1x100000x64_S1x100000x64_S5x100000x64_d0 : Shape.Concatenates [S1x100000x64, S1x100000x64, S1x100000x64, S1x100000x64, S1x100000x64] S5x100000x64 0
  shapeCasts_S5x64_S5x1x64 : S5x64.ShapeCasts S5x1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S5000x1_S5000x64 : S5000x1.Broadcasts S5000x64
  broadcasts_S1x64_S5000x64 : S1x64.Broadcasts S5000x64
  shapeCasts_S100000_S100000x1 : S100000.ShapeCasts S100000x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x64_d1_w32 : S1x64.Iotas .tc 32 [1]
  natLt_1_32 : 1 < 32
  broadcasts_S64x1_S64x64 : S64x1.Broadcasts S64x64
  scatter_S100000_S800000x1_S800000_n_0_0_1_wf : ScatterDims.WF S100000 S800000x1 S800000 [] [0] [0] 1
  gather_S100000x23_S800000x1_S800000x23_1_0_n_n_0_1_123_wf : GatherDims.WF S100000x23 S800000x1 S800000x23 [1] [0] [] [0] [] 1 ![1, 23]
  scatter_S100000x23_S800000x1_S800000x23_1_0_0_1_wf : ScatterDims.WF S100000x23 S800000x1 S800000x23 [1] [0] [0] 1
  dot_S5000x23_S23x128_S5000x128_1_0_0_1_n_n_wf : DotDims.WF S5000x23 S23x128 S5000x128 [1] [0] [0] [1] [] []
  dot_S5000x128_S128x64_S5000x64_1_0_0_1_n_n_wf : DotDims.WF S5000x128 S128x64 S5000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S5000x64_S5000x64_S64x64_0_0_1_1_n_n_wf : DotDims.WF S5000x64 S5000x64 S64x64 [0] [0] [1] [1] [] []
  dot_S5000x64_S5000x1_S64x1_0_0_1_1_n_n_wf : DotDims.WF S5000x64 S5000x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x23.size a ≤ S5x100000x23.size a
  hwx0_0 : ∀ i : grid0.Coords, EltTy.bits .f32 = 32 ∨ (Rect.block (s := S5x100000x23) S1x5000x23.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x23.size a ≤ S100000x23.size a
  hwx0_1 : ∀ i : grid0.Coords, EltTy.bits .f32 = 32 ∨ (Rect.block (s := S100000x23) S5000x23.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x1.size a ≤ S5x100000x1.size a
  hwx0_2 : ∀ i : grid0.Coords, EltTy.bits .f32 = 32 ∨ (Rect.block (s := S5x100000x1) S1x5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x23x128.size a ≤ S5x23x128.size a
  hwx0_3 : ∀ i : grid0.Coords, EltTy.bits .f32 = 32 ∨ (Rect.block (s := S5x23x128) S1x23x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S5x1x128.size a
  hwx0_4 : ∀ i : grid0.Coords, EltTy.bits .f32 = 32 ∨ (Rect.block (s := S5x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S5x128x64.size a
  hwx1_1 : ∀ i : grid1.Coords, EltTy.bits .f32 = 32 ∨ (Rect.block (s := S5x128x64) S1x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x5000x64.size a ≤ S5x100000x64.size a
  hwx1_2 : ∀ i : grid1.Coords, EltTy.bits .f32 = 32 ∨ (Rect.block (s := S5x100000x64) S1x5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x5000x64.size a ≤ S5x100000x64.size a
  hwx2_0 : ∀ i : grid2.Coords, EltTy.bits .f32 = 32 ∨ (Rect.block (s := S5x100000x64) S1x5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x5000x64.size a ≤ S5x100000x64.size a
  hwx2_1 : ∀ i : grid2.Coords, EltTy.bits .f32 = 32 ∨ (Rect.block (s := S5x100000x64) S1x5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x5000x1.size a ≤ S5x100000x1.size a
  hwx2_2 : ∀ i : grid2.Coords, EltTy.bits .f32 = 32 ∨ (Rect.block (s := S5x100000x1) S1x5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x64.size a ≤ S5x1x64.size a
  hwx2_3 : ∀ i : grid2.Coords, EltTy.bits .f32 = 32 ∨ (Rect.block (s := S5x1x64) S1x1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x23_S800000x1_S800000x23_1_0_n_n_0_1_123 : GatherDims S100000x23 S800000x1 S800000x23 where
  offsetDims := [1]
  collapsedSliceDims := [0]
  operandBatchingDims := []
  startIndicesBatchingDims := []
  startIndexMap := [0]
  indexVectorDim := 1
  sliceSizes := ![1, 23]
  wf := gather_S100000x23_S800000x1_S800000x23_1_0_n_n_0_1_123_wf
def scatter_S100000x23_S800000x1_S800000x23_1_0_0_1 : ScatterDims S100000x23 S800000x1 S800000x23 where
  updateWindowDims := [1]
  insertedWindowDims := [0]
  scatterDimsToOperandDims := [0]
  indexVectorDim := 1
  wf := scatter_S100000x23_S800000x1_S800000x23_1_0_0_1_wf
def dot_S5000x23_S23x128_S5000x128_1_0_0_1_n_n : DotDims S5000x23 S23x128 S5000x128 where
  lhsContracting := [1]
  rhsContracting := [0]
  lhsNonContracting := [0]
  rhsNonContracting := [1]
  lhsBatch := []
  rhsBatch := []
  wf := dot_S5000x23_S23x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf

abbrev win0_0 : Pipeline.Window sig grid0 :=
  Pipeline.Window.ofSpec (Memref.whole main_v116) S1x5000x23.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x23.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x23x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v117) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v118) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v118) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v119) S1x5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v205) S1x5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v119) S1x5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v206) S1x1x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v207) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v207) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v208) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v209) S64x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S100000x23 : Shape := ⟨2, ![100000, 23]⟩
abbrev S5x800000 : Shape := ⟨2, ![5, 800000]⟩
abbrev S100000 : Shape := ⟨1, ![100000]⟩
abbrev S5x23x128 : Shape := ⟨3, ![5, 23, 128]⟩
abbrev S5x128 : Shape := ⟨2, ![5, 128]⟩
abbrev S5x128x64 : Shape := ⟨3, ![5, 128, 64]⟩
abbrev S5x64 : Shape := ⟨2, ![5, 64]⟩
abbrev S_ : Shape := ⟨0, ![]⟩
abbrev S100000x128 : Shape := ⟨2, ![100000, 128]⟩
abbrev S800000 : Shape := ⟨1, ![800000]⟩
abbrev S1x800000 : Shape := ⟨2, ![1, 800000]⟩
abbrev S800000x1 : Shape := ⟨2, ![800000, 1]⟩
abbrev S800000x23 : Shape := ⟨2, ![800000, 23]⟩
abbrev S100000x1 : Shape := ⟨2, ![100000, 1]⟩
abbrev S1x23x128 : Shape := ⟨3, ![1, 23, 128]⟩
abbrev S23x128 : Shape := ⟨2, ![23, 128]⟩
abbrev S1x128 : Shape := ⟨2, ![1, 128]⟩
abbrev S128 : Shape := ⟨1, ![128]⟩
abbrev S100000x64 : Shape := ⟨2, ![100000, 64]⟩
abbrev S800000x128 : Shape := ⟨2, ![800000, 128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S64x64 : Shape := ⟨2, ![64, 64]⟩
abbrev S64x1 : Shape := ⟨2, ![64, 1]⟩

abbrev nBuf : Space → Nat
  | .hbm => 425
  | .vmem => 0
  | .smem => 0
  | _ => 0

abbrev hbmTy0_0 (i : Nat) : BufTy := match i % 128 with
  | 0 => ⟨S100000x23, .f32⟩
  | 1 => ⟨S5x800000, .i32⟩
  | 2 => ⟨S5x800000, .i32⟩
  | 3 => ⟨S100000, .i32⟩
  | 4 => ⟨S5x23x128, .f32⟩
  | 5 => ⟨S5x128, .f32⟩
  | 6 => ⟨S5x128x64, .f32⟩
  | 7 => ⟨S5x64, .f32⟩
  | 8 => ⟨S_, .f32⟩
  | 9 => ⟨S100000x128, .f32⟩
  | 10 => ⟨S_, .f32⟩
  | 11 => ⟨S800000, .f32⟩
  | 12 => ⟨S1x800000, .i32⟩
  | 13 => ⟨S800000, .i32⟩
  | 14 => ⟨S_, .f32⟩
  | 15 => ⟨S100000, .f32⟩
  | 16 => ⟨S800000x1, .i32⟩
  | 17 => ⟨S100000, .f32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x23, .f32⟩
  | 29 => ⟨S1x800000, .i32⟩
  | 30 => ⟨S800000, .i32⟩
  | 31 => ⟨S_, .f32⟩
  | 32 => ⟨S100000x23, .f32⟩
  | 33 => ⟨S800000x1, .i32⟩
  | 34 => ⟨S100000x23, .f32⟩
  | 35 => ⟨S100000x23, .f32⟩
  | 36 => ⟨S_, .f32⟩
  | 37 => ⟨S100000, .f32⟩
  | 38 => ⟨S100000, .f32⟩
  | 39 => ⟨S100000x1, .f32⟩
  | 40 => ⟨S100000x23, .f32⟩
  | 41 => ⟨S100000x23, .f32⟩
  | 42 => ⟨S1x23x128, .f32⟩
  | 43 => ⟨S23x128, .f32⟩
  | 44 => ⟨S100000x128, .f32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S1x800000, .i32⟩
  | 52 => ⟨S800000, .i32⟩
  | 53 => ⟨S_, .f32⟩
  | 54 => ⟨S100000, .f32⟩
  | 55 => ⟨S800000x1, .i32⟩
  | 56 => ⟨S100000, .f32⟩
  | 57 => ⟨S1x800000, .i32⟩
  | 58 => ⟨S800000, .i32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x23, .f32⟩
  | 68 => ⟨S1x800000, .i32⟩
  | 69 => ⟨S800000, .i32⟩
  | 70 => ⟨S_, .f32⟩
  | 71 => ⟨S100000x23, .f32⟩
  | 72 => ⟨S800000x1, .i32⟩
  | 73 => ⟨S100000x23, .f32⟩
  | 74 => ⟨S100000x23, .f32⟩
  | 75 => ⟨S_, .f32⟩
  | 76 => ⟨S100000, .f32⟩
  | 77 => ⟨S100000, .f32⟩
  | 78 => ⟨S100000x1, .f32⟩
  | 79 => ⟨S100000x23, .f32⟩
  | 80 => ⟨S100000x23, .f32⟩
  | 81 => ⟨S1x23x128, .f32⟩
  | 82 => ⟨S23x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S1x800000, .i32⟩
  | 91 => ⟨S800000, .i32⟩
  | 92 => ⟨S_, .f32⟩
  | 93 => ⟨S100000, .f32⟩
  | 94 => ⟨S800000x1, .i32⟩
  | 95 => ⟨S100000, .f32⟩
  | 96 => ⟨S1x800000, .i32⟩
  | 97 => ⟨S800000, .i32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x23, .f32⟩
  | 107 => ⟨S1x800000, .i32⟩
  | 108 => ⟨S800000, .i32⟩
  | 109 => ⟨S_, .f32⟩
  | 110 => ⟨S100000x23, .f32⟩
  | 111 => ⟨S800000x1, .i32⟩
  | 112 => ⟨S100000x23, .f32⟩
  | 113 => ⟨S100000x23, .f32⟩
  | 114 => ⟨S_, .f32⟩
  | 115 => ⟨S100000, .f32⟩
  | 116 => ⟨S100000, .f32⟩
  | 117 => ⟨S100000x1, .f32⟩
  | 118 => ⟨S100000x23, .f32⟩
  | 119 => ⟨S100000x23, .f32⟩
  | 120 => ⟨S1x23x128, .f32⟩
  | 121 => ⟨S23x128, .f32⟩
  | 122 => ⟨S100000x128, .f32⟩
  | 123 => ⟨S100000x128, .f32⟩
  | 124 => ⟨S1x128, .f32⟩
  | 125 => ⟨S128, .f32⟩
  | 126 => ⟨S1x128, .f32⟩
  | 127 => ⟨S100000x128, .f32⟩
  | _ => ⟨S100000x23, .f32⟩

abbrev hbmTy0_1 (i : Nat) : BufTy := match i % 128 with
  | 0 => ⟨S100000x128, .f32⟩
  | 1 => ⟨S1x800000, .i32⟩
  | 2 => ⟨S800000, .i32⟩
  | 3 => ⟨S_, .f32⟩
  | 4 => ⟨S100000, .f32⟩
  | 5 => ⟨S800000x1, .i32⟩
  | 6 => ⟨S100000, .f32⟩
  | 7 => ⟨S1x800000, .i32⟩
  | 8 => ⟨S800000, .i32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x23, .f32⟩
  | 18 => ⟨S1x800000, .i32⟩
  | 19 => ⟨S800000, .i32⟩
  | 20 => ⟨S_, .f32⟩
  | 21 => ⟨S100000x23, .f32⟩
  | 22 => ⟨S800000x1, .i32⟩
  | 23 => ⟨S100000x23, .f32⟩
  | 24 => ⟨S100000x23, .f32⟩
  | 25 => ⟨S_, .f32⟩
  | 26 => ⟨S100000, .f32⟩
  | 27 => ⟨S100000, .f32⟩
  | 28 => ⟨S100000x1, .f32⟩
  | 29 => ⟨S100000x23, .f32⟩
  | 30 => ⟨S100000x23, .f32⟩
  | 31 => ⟨S1x23x128, .f32⟩
  | 32 => ⟨S23x128, .f32⟩
  | 33 => ⟨S100000x128, .f32⟩
  | 34 => ⟨S100000x128, .f32⟩
  | 35 => ⟨S1x128, .f32⟩
  | 36 => ⟨S128, .f32⟩
  | 37 => ⟨S1x128, .f32⟩
  | 38 => ⟨S100000x128, .f32⟩
  | 39 => ⟨S100000x128, .f32⟩
  | 40 => ⟨S1x800000, .i32⟩
  | 41 => ⟨S800000, .i32⟩
  | 42 => ⟨S_, .f32⟩
  | 43 => ⟨S100000, .f32⟩
  | 44 => ⟨S800000x1, .i32⟩
  | 45 => ⟨S100000, .f32⟩
  | 46 => ⟨S1x800000, .i32⟩
  | 47 => ⟨S800000, .i32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x23, .f32⟩
  | 57 => ⟨S1x800000, .i32⟩
  | 58 => ⟨S800000, .i32⟩
  | 59 => ⟨S_, .f32⟩
  | 60 => ⟨S100000x23, .f32⟩
  | 61 => ⟨S800000x1, .i32⟩
  | 62 => ⟨S100000x23, .f32⟩
  | 63 => ⟨S100000x23, .f32⟩
  | 64 => ⟨S_, .f32⟩
  | 65 => ⟨S100000, .f32⟩
  | 66 => ⟨S100000, .f32⟩
  | 67 => ⟨S100000x1, .f32⟩
  | 68 => ⟨S100000x23, .f32⟩
  | 69 => ⟨S100000x23, .f32⟩
  | 70 => ⟨S1x23x128, .f32⟩
  | 71 => ⟨S23x128, .f32⟩
  | 72 => ⟨S100000x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S_, .f32⟩
  | 83 => ⟨S100000x64, .f32⟩
  | 84 => ⟨S_, .f32⟩
  | 85 => ⟨S800000, .f32⟩
  | 86 => ⟨S1x800000, .i32⟩
  | 87 => ⟨S800000, .i32⟩
  | 88 => ⟨S_, .f32⟩
  | 89 => ⟨S100000, .f32⟩
  | 90 => ⟨S800000x1, .i32⟩
  | 91 => ⟨S100000, .f32⟩
  | 92 => ⟨S1x800000, .i32⟩
  | 93 => ⟨S800000, .i32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S1x800000, .i32⟩
  | 104 => ⟨S800000, .i32⟩
  | 105 => ⟨S_, .f32⟩
  | 106 => ⟨S100000x128, .f32⟩
  | 107 => ⟨S800000x1, .i32⟩
  | 108 => ⟨S100000x128, .f32⟩
  | 109 => ⟨S100000x128, .f32⟩
  | 110 => ⟨S_, .f32⟩
  | 111 => ⟨S100000, .f32⟩
  | 112 => ⟨S100000, .f32⟩
  | 113 => ⟨S100000x1, .f32⟩
  | 114 => ⟨S100000x128, .f32⟩
  | 115 => ⟨S100000x128, .f32⟩
  | 116 => ⟨S1x128x64, .f32⟩
  | 117 => ⟨S128x64, .f32⟩
  | 118 => ⟨S100000x64, .f32⟩
  | 119 => ⟨S100000x64, .f32⟩
  | 120 => ⟨S1x64, .f32⟩
  | 121 => ⟨S64, .f32⟩
  | 122 => ⟨S1x64, .f32⟩
  | 123 => ⟨S100000x64, .f32⟩
  | 124 => ⟨S100000x64, .f32⟩
  | 125 => ⟨S1x800000, .i32⟩
  | 126 => ⟨S800000, .i32⟩
  | 127 => ⟨S_, .f32⟩
  | _ => ⟨S100000x23, .f32⟩

abbrev hbmTy0_2 (i : Nat) : BufTy := match i % 128 with
  | 0 => ⟨S100000, .f32⟩
  | 1 => ⟨S800000x1, .i32⟩
  | 2 => ⟨S100000, .f32⟩
  | 3 => ⟨S1x800000, .i32⟩
  | 4 => ⟨S800000, .i32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x128, .f32⟩
  | 14 => ⟨S1x800000, .i32⟩
  | 15 => ⟨S800000, .i32⟩
  | 16 => ⟨S_, .f32⟩
  | 17 => ⟨S100000x128, .f32⟩
  | 18 => ⟨S800000x1, .i32⟩
  | 19 => ⟨S100000x128, .f32⟩
  | 20 => ⟨S100000x128, .f32⟩
  | 21 => ⟨S_, .f32⟩
  | 22 => ⟨S100000, .f32⟩
  | 23 => ⟨S100000, .f32⟩
  | 24 => ⟨S100000x1, .f32⟩
  | 25 => ⟨S100000x128, .f32⟩
  | 26 => ⟨S100000x128, .f32⟩
  | 27 => ⟨S1x128x64, .f32⟩
  | 28 => ⟨S128x64, .f32⟩
  | 29 => ⟨S100000x64, .f32⟩
  | 30 => ⟨S100000x64, .f32⟩
  | 31 => ⟨S1x64, .f32⟩
  | 32 => ⟨S64, .f32⟩
  | 33 => ⟨S1x64, .f32⟩
  | 34 => ⟨S100000x64, .f32⟩
  | 35 => ⟨S100000x64, .f32⟩
  | 36 => ⟨S1x800000, .i32⟩
  | 37 => ⟨S800000, .i32⟩
  | 38 => ⟨S_, .f32⟩
  | 39 => ⟨S100000, .f32⟩
  | 40 => ⟨S800000x1, .i32⟩
  | 41 => ⟨S100000, .f32⟩
  | 42 => ⟨S1x800000, .i32⟩
  | 43 => ⟨S800000, .i32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S1x800000, .i32⟩
  | 54 => ⟨S800000, .i32⟩
  | 55 => ⟨S_, .f32⟩
  | 56 => ⟨S100000x128, .f32⟩
  | 57 => ⟨S800000x1, .i32⟩
  | 58 => ⟨S100000x128, .f32⟩
  | 59 => ⟨S100000x128, .f32⟩
  | 60 => ⟨S_, .f32⟩
  | 61 => ⟨S100000, .f32⟩
  | 62 => ⟨S100000, .f32⟩
  | 63 => ⟨S100000x1, .f32⟩
  | 64 => ⟨S100000x128, .f32⟩
  | 65 => ⟨S100000x128, .f32⟩
  | 66 => ⟨S1x128x64, .f32⟩
  | 67 => ⟨S128x64, .f32⟩
  | 68 => ⟨S100000x64, .f32⟩
  | 69 => ⟨S100000x64, .f32⟩
  | 70 => ⟨S1x64, .f32⟩
  | 71 => ⟨S64, .f32⟩
  | 72 => ⟨S1x64, .f32⟩
  | 73 => ⟨S100000x64, .f32⟩
  | 74 => ⟨S100000x64, .f32⟩
  | 75 => ⟨S1x800000, .i32⟩
  | 76 => ⟨S800000, .i32⟩
  | 77 => ⟨S_, .f32⟩
  | 78 => ⟨S100000, .f32⟩
  | 79 => ⟨S800000x1, .i32⟩
  | 80 => ⟨S100000, .f32⟩
  | 81 => ⟨S1x800000, .i32⟩
  | 82 => ⟨S800000, .i32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S1x800000, .i32⟩
  | 93 => ⟨S800000, .i32⟩
  | 94 => ⟨S_, .f32⟩
  | 95 => ⟨S100000x128, .f32⟩
  | 96 => ⟨S800000x1, .i32⟩
  | 97 => ⟨S100000x128, .f32⟩
  | 98 => ⟨S100000x128, .f32⟩
  | 99 => ⟨S_, .f32⟩
  | 100 => ⟨S100000, .f32⟩
  | 101 => ⟨S100000, .f32⟩
  | 102 => ⟨S100000x1, .f32⟩
  | 103 => ⟨S100000x128, .f32⟩
  | 104 => ⟨S100000x128, .f32⟩
  | 105 => ⟨S1x128x64, .f32⟩
  | 106 => ⟨S128x64, .f32⟩
  | 107 => ⟨S100000x64, .f32⟩
  | 108 => ⟨S100000x64, .f32⟩
  | 109 => ⟨S1x64, .f32⟩
  | 110 => ⟨S64, .f32⟩
  | 111 => ⟨S1x64, .f32⟩
  | 112 => ⟨S100000x64, .f32⟩
  | 113 => ⟨S100000x64, .f32⟩
  | 114 => ⟨S1x800000, .i32⟩
  | 115 => ⟨S800000, .i32⟩
  | 116 => ⟨S_, .f32⟩
  | 117 => ⟨S100000, .f32⟩
  | 118 => ⟨S800000x1, .i32⟩
  | 119 => ⟨S100000, .f32⟩
  | 120 => ⟨S1x800000, .i32⟩
  | 121 => ⟨S800000, .i32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S100000x23, .f32⟩

abbrev hbmTy0_3 (i : Nat) : BufTy := match i % 128 with
  | 0 => ⟨S800000, .i32⟩
  | 1 => ⟨S800000x1, .i32⟩
  | 2 => ⟨S800000x128, .f32⟩
  | 3 => ⟨S1x800000, .i32⟩
  | 4 => ⟨S800000, .i32⟩
  | 5 => ⟨S_, .f32⟩
  | 6 => ⟨S100000x128, .f32⟩
  | 7 => ⟨S800000x1, .i32⟩
  | 8 => ⟨S100000x128, .f32⟩
  | 9 => ⟨S100000x128, .f32⟩
  | 10 => ⟨S_, .f32⟩
  | 11 => ⟨S100000, .f32⟩
  | 12 => ⟨S100000, .f32⟩
  | 13 => ⟨S100000x1, .f32⟩
  | 14 => ⟨S100000x128, .f32⟩
  | 15 => ⟨S100000x128, .f32⟩
  | 16 => ⟨S1x128x64, .f32⟩
  | 17 => ⟨S128x64, .f32⟩
  | 18 => ⟨S100000x64, .f32⟩
  | 19 => ⟨S100000x64, .f32⟩
  | 20 => ⟨S1x64, .f32⟩
  | 21 => ⟨S64, .f32⟩
  | 22 => ⟨S1x64, .f32⟩
  | 23 => ⟨S100000x64, .f32⟩
  | 24 => ⟨S100000x64, .f32⟩
  | 25 => ⟨S_, .f32⟩
  | 26 => ⟨S100000, .f32⟩
  | 27 => ⟨S_, .f32⟩
  | 28 => ⟨S64, .f32⟩
  | 29 => ⟨S100000x1, .i32⟩
  | 30 => ⟨S64, .f32⟩
  | 31 => ⟨S_, .f32⟩
  | 32 => ⟨S64x64, .f32⟩
  | 33 => ⟨S100000x1, .i32⟩
  | 34 => ⟨S64x64, .f32⟩
  | 35 => ⟨S_, .f32⟩
  | 36 => ⟨S64, .f32⟩
  | 37 => ⟨S64, .f32⟩
  | 38 => ⟨S64x1, .f32⟩
  | 39 => ⟨S64x64, .f32⟩
  | 40 => ⟨S64x64, .f32⟩
  | _ => ⟨S100000x23, .f32⟩

abbrev hbmTy (i : Nat) : BufTy := match i / 128 with
  | 0 => hbmTy0_0 i
  | 1 => hbmTy0_1 i
  | 2 => hbmTy0_2 i
  | 3 => hbmTy0_3 i
  | _ => ⟨S100000x23, .f32⟩

abbrev bufTy : (tb : Table) → Fin (tcTables nBuf tb) → BufTy
  | .hbm, ⟨i, _⟩ => hbmTy i
  | _, _ => ⟨S100000x23, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_10 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_11 : Ref sig .tc := ⟨.hbm, 98, rfl⟩
abbrev main_v77 : Ref sig .tc := ⟨.hbm, 99, rfl⟩
abbrev main_v78 : Ref sig .tc := ⟨.hbm, 100, rfl⟩
abbrev main_c_12 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_13 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_14 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_15 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_c_16 : Ref sig .tc := ⟨.hbm, 137, rfl⟩
abbrev main_v111 : Ref sig .tc := ⟨.hbm, 138, rfl⟩
abbrev main_v112 : Ref sig .tc := ⟨.hbm, 139, rfl⟩
abbrev main_c_17 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_18 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_19 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_20 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_c_21 : Ref sig .tc := ⟨.hbm, 176, rfl⟩
abbrev main_v145 : Ref sig .tc := ⟨.hbm, 177, rfl⟩
abbrev main_v146 : Ref sig .tc := ⟨.hbm, 178, rfl⟩
abbrev main_c_22 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_cst_23 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_cst_24 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_call0_cst : Ref sig .tc := ⟨.hbm, 207, rfl⟩
abbrev main_call0_v0 : Ref sig .tc := ⟨.hbm, 208, rfl⟩
abbrev main_v172 : Ref sig .tc := ⟨.hbm, 209, rfl⟩
abbrev main_cst_25 : Ref sig .tc := ⟨.hbm, 210, rfl⟩
abbrev main_v173 : Ref sig .tc := ⟨.hbm, 211, rfl⟩
abbrev main_cst_26 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_cst_27 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_c_28 : Ref sig .tc := ⟨.hbm, 222, rfl⟩
abbrev main_v182 : Ref sig .tc := ⟨.hbm, 223, rfl⟩
abbrev main_v183 : Ref sig .tc := ⟨.hbm, 224, rfl⟩
abbrev main_c_29 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_cst_30 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_cst_31 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_cst_32 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_c_33 : Ref sig .tc := ⟨.hbm, 261, rfl⟩
abbrev main_v216 : Ref sig .tc := ⟨.hbm, 262, rfl⟩
abbrev main_v217 : Ref sig .tc := ⟨.hbm, 263, rfl⟩
abbrev main_c_34 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_cst_35 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_cst_36 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_cst_37 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_c_38 : Ref sig .tc := ⟨.hbm, 300, rfl⟩
abbrev main_v250 : Ref sig .tc := ⟨.hbm, 301, rfl⟩
abbrev main_v251 : Ref sig .tc := ⟨.hbm, 302, rfl⟩
abbrev main_c_39 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_cst_40 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_cst_41 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_cst_42 : Ref sig .tc := ⟨.hbm, 333, rfl⟩
abbrev main_v279 : Ref sig .tc := ⟨.hbm, 334, rfl⟩
abbrev main_v280 : Ref sig .tc := ⟨.hbm, 335, rfl⟩
abbrev main_v281 : Ref sig .tc := ⟨.hbm, 336, rfl⟩
abbrev main_v282 : Ref sig .tc := ⟨.hbm, 337, rfl⟩
abbrev main_v283 : Ref sig .tc := ⟨.hbm, 338, rfl⟩
abbrev main_c_43 : Ref sig .tc := ⟨.hbm, 339, rfl⟩
abbrev main_v284 : Ref sig .tc := ⟨.hbm, 340, rfl⟩
abbrev main_v285 : Ref sig .tc := ⟨.hbm, 341, rfl⟩
abbrev main_c_44 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_cst_45 : Ref sig .tc := ⟨.hbm, 350, rfl⟩
abbrev main_v293 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩
abbrev main_cst_46 : Ref sig .tc := ⟨.hbm, 355, rfl⟩
abbrev main_v297 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_v305 : Ref sig .tc := ⟨.hbm, 364, rfl⟩
abbrev main_v306 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_cst_47 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_c_48 : Ref sig .tc := ⟨.hbm, 378, rfl⟩
abbrev main_v318 : Ref sig .tc := ⟨.hbm, 379, rfl⟩
abbrev main_v319 : Ref sig .tc := ⟨.hbm, 380, rfl⟩
abbrev main_c_49 : Ref sig .tc := ⟨.hbm, 381, rfl⟩
abbrev main_v320 : Ref sig .tc := ⟨.hbm, 382, rfl⟩
abbrev main_v321 : Ref sig .tc := ⟨.hbm, 383, rfl⟩
abbrev main_v322 : Ref sig .tc := ⟨.hbm, 384, rfl⟩
abbrev main_v323 : Ref sig .tc := ⟨.hbm, 385, rfl⟩
abbrev main_v324 : Ref sig .tc := ⟨.hbm, 386, rfl⟩
abbrev main_v325 : Ref sig .tc := ⟨.hbm, 387, rfl⟩
abbrev main_v326 : Ref sig .tc := ⟨.hbm, 388, rfl⟩
abbrev main_cst_50 : Ref sig .tc := ⟨.hbm, 389, rfl⟩
abbrev main_v327 : Ref sig .tc := ⟨.hbm, 390, rfl⟩
abbrev main_v328 : Ref sig .tc := ⟨.hbm, 391, rfl⟩
abbrev main_v329 : Ref sig .tc := ⟨.hbm, 392, rfl⟩
abbrev main_v330 : Ref sig .tc := ⟨.hbm, 393, rfl⟩
abbrev main_cst_51 : Ref sig .tc := ⟨.hbm, 394, rfl⟩
abbrev main_v331 : Ref sig .tc := ⟨.hbm, 395, rfl⟩
abbrev main_v332 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_v336 : Ref sig .tc := ⟨.hbm, 400, rfl⟩
abbrev main_v337 : Ref sig .tc := ⟨.hbm, 401, rfl⟩
abbrev main_v338 : Ref sig .tc := ⟨.hbm, 402, rfl⟩
abbrev main_v339 : Ref sig .tc := ⟨.hbm, 403, rfl⟩
abbrev main_v340 : Ref sig .tc := ⟨.hbm, 404, rfl⟩
abbrev main_v341 : Ref sig .tc := ⟨.hbm, 405, rfl⟩
abbrev main_v342 : Ref sig .tc := ⟨.hbm, 406, rfl⟩
abbrev main_v343 : Ref sig .tc := ⟨.hbm, 407, rfl⟩
abbrev main_v344 : Ref sig .tc := ⟨.hbm, 408, rfl⟩
abbrev main_cst_52 : Ref sig .tc := ⟨.hbm, 409, rfl⟩
abbrev main_v345 : Ref sig .tc := ⟨.hbm, 410, rfl⟩
abbrev main_cst_53 : Ref sig .tc := ⟨.hbm, 411, rfl⟩
abbrev main_v346 : Ref sig .tc := ⟨.hbm, 412, rfl⟩
abbrev main_v347 : Ref sig .tc := ⟨.hbm, 413, rfl⟩
abbrev main_v348 : Ref sig .tc := ⟨.hbm, 414, rfl⟩
abbrev main_cst_54 : Ref sig .tc := ⟨.hbm, 415, rfl⟩
abbrev main_v349 : Ref sig .tc := ⟨.hbm, 416, rfl⟩
abbrev main_v350 : Ref sig .tc := ⟨.hbm, 417, rfl⟩
abbrev main_v351 : Ref sig .tc := ⟨.hbm, 418, rfl⟩
abbrev main_cst_55 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S_S800000 : S_.BroadcastsInDim S800000 (![] : Fin 0 → Fin S800000.rank)
  slices_S5x800000_S1x800000_0_0 : S5x800000.Slices ![0, 0] S1x800000
  shapeCasts_S1x800000_S800000 : S1x800000.ShapeCasts S800000
  bcast_S_S100000 : S_.BroadcastsInDim S100000 (![] : Fin 0 → Fin S100000.rank)
  bcast_S800000_S800000x1_0 : S800000.BroadcastsInDim S800000x1 (![0] : Fin 1 → Fin S800000x1.rank)
  bcast_S_S100000x23 : S_.BroadcastsInDim S100000x23 (![] : Fin 0 → Fin S100000x23.rank)
  bcast_S100000_S100000x1_0 : S100000.BroadcastsInDim S100000x1 (![0] : Fin 1 → Fin S100000x1.rank)
  bcast_S100000x1_S100000x23_0_1 : S100000x1.BroadcastsInDim S100000x23 (![0, 1] : Fin 2 → Fin S100000x23.rank)
  slices_S5x23x128_S1x23x128_0_0_0 : S5x23x128.Slices ![0, 0, 0] S1x23x128
  shapeCasts_S1x23x128_S23x128 : S1x23x128.ShapeCasts S23x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S5x800000_S1x800000_1_0 : S5x800000.Slices ![1, 0] S1x800000
  slices_S5x23x128_S1x23x128_1_0_0 : S5x23x128.Slices ![1, 0, 0] S1x23x128
  slices_S5x128_S1x128_1_0 : S5x128.Slices ![1, 0] S1x128
  slices_S5x800000_S1x800000_2_0 : S5x800000.Slices ![2, 0] S1x800000
  slices_S5x23x128_S1x23x128_2_0_0 : S5x23x128.Slices ![2, 0, 0] S1x23x128
  slices_S5x128_S1x128_2_0 : S5x128.Slices ![2, 0] S1x128
  slices_S5x800000_S1x800000_3_0 : S5x800000.Slices ![3, 0] S1x800000
  slices_S5x23x128_S1x23x128_3_0_0 : S5x23x128.Slices ![3, 0, 0] S1x23x128
  slices_S5x128_S1x128_3_0 : S5x128.Slices ![3, 0] S1x128
  slices_S5x800000_S1x800000_4_0 : S5x800000.Slices ![4, 0] S1x800000
  slices_S5x23x128_S1x23x128_4_0_0 : S5x23x128.Slices ![4, 0, 0] S1x23x128
  slices_S5x128_S1x128_4_0 : S5x128.Slices ![4, 0] S1x128
  bcast_S_S100000x64 : S_.BroadcastsInDim S100000x64 (![] : Fin 0 → Fin S100000x64.rank)
  bcast_S100000x1_S100000x128_0_1 : S100000x1.BroadcastsInDim S100000x128 (![0, 1] : Fin 2 → Fin S100000x128.rank)
  slices_S5x128x64_S1x128x64_0_0_0 : S5x128x64.Slices ![0, 0, 0] S1x128x64
  shapeCasts_S1x128x64_S128x64 : S1x128x64.ShapeCasts S128x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S5x128x64_S1x128x64_1_0_0 : S5x128x64.Slices ![1, 0, 0] S1x128x64
  slices_S5x64_S1x64_1_0 : S5x64.Slices ![1, 0] S1x64
  slices_S5x128x64_S1x128x64_2_0_0 : S5x128x64.Slices ![2, 0, 0] S1x128x64
  slices_S5x64_S1x64_2_0 : S5x64.Slices ![2, 0] S1x64
  slices_S5x128x64_S1x128x64_3_0_0 : S5x128x64.Slices ![3, 0, 0] S1x128x64
  slices_S5x64_S1x64_3_0 : S5x64.Slices ![3, 0] S1x64
  slices_S5x128x64_S1x128x64_4_0_0 : S5x128x64.Slices ![4, 0, 0] S1x128x64
  slices_S5x64_S1x64_4_0 : S5x64.Slices ![4, 0] S1x64
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S800000x1_S800000_n_0_0_1_wf : ScatterDims.WF S100000 S800000x1 S800000 [] [0] [0] 1
  gather_S100000x23_S800000x1_S800000x23_1_0_n_n_0_1_123_wf : GatherDims.WF S100000x23 S800000x1 S800000x23 [1] [0] [] [0] [] 1 ![1, 23]
  scatter_S100000x23_S800000x1_S800000x23_1_0_0_1_wf : ScatterDims.WF S100000x23 S800000x1 S800000x23 [1] [0] [0] 1
  dot_S100000x23_S23x128_S100000x128_1_0_0_1_n_n_wf : DotDims.WF S100000x23 S23x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x64_S100000x64_1_0_0_1_n_n_wf : DotDims.WF S100000x128 S128x64 S100000x64 [1] [0] [0] [1] [] []
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x23_S800000x1_S800000x23_1_0_n_n_0_1_123 : GatherDims S100000x23 S800000x1 S800000x23 where
  offsetDims := [1]
  collapsedSliceDims := [0]
  operandBatchingDims := []
  startIndicesBatchingDims := []
  startIndexMap := [0]
  indexVectorDim := 1
  sliceSizes := ![1, 23]
  wf := gather_S100000x23_S800000x1_S800000x23_1_0_n_n_0_1_123_wf
def scatter_S100000x23_S800000x1_S800000x23_1_0_0_1 : ScatterDims S100000x23 S800000x1 S800000x23 where
  updateWindowDims := [1]
  insertedWindowDims := [0]
  scatterDimsToOperandDims := [0]
  indexVectorDim := 1
  wf := scatter_S100000x23_S800000x1_S800000x23_1_0_0_1_wf
def dot_S100000x23_S23x128_S100000x128_1_0_0_1_n_n : DotDims S100000x23 S23x128 S100000x128 where
  lhsContracting := [1]
  rhsContracting := [0]
  lhsNonContracting := [0]
  rhsNonContracting := [1]
  lhsBatch := []
  rhsBatch := []
  wf := dot_S100000x23_S23x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf

class Facts : Prop extends Facts₀ where

variable [Facts]
-- ==== Proof.K.Data.lean ====
import proofs.«424244_j62423054680132_3_alg».proof.Proof.Gen.Kernel.Launch
import proofs.«424244_j62423054680132_3_alg».proof.Proof.Gen.Kernel.Skeleton
import proofs.«424244_j62423054680132_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scM0 : Memref sig .tc .vmem S5000x128 .f32 := Memref.whole cc0_scratch0

def acc0 (c : Dev nD) : (n : ℕ) → n < cfg0.N → Vec F S5000x128 .f32
  | 0, hn => k0_pay2 (iblk0 V c 0 ⟨0, hn⟩) (iblk0 V c 1 ⟨0, hn⟩) (iblk0 V c 2 ⟨0, hn⟩) (iblk0 V c 3 ⟨0, hn⟩) (iblk0 V c 4 ⟨0, hn⟩) k0_pay1
  | n + 1, hn => k0_pay2 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
      (if (n + 1) % 5 = 0 then k0_pay1 else acc0 c n (Nat.lt_of_succ_lt hn))

def out0 (c : Dev nD) (t : Fin cfg0.N) : Vec F S5000x128 .f32 := k0_pay3 (acc0 V c t.val t.isLt)

def PhiS0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1 (c : Dev nD) (t : Fin cfg1.N) : Vec F S1x5000x64 .f32 := k1_pay1 (iblk1 V c 0 t) (iblk1 V c 1 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S5000x64 .f32 := Memref.whole cc2_scratch0

def acc2 (c : Dev nD) : (n : ℕ) → n < cfg2.N → Vec F S5000x64 .f32
  | 0, hn => k2_pay2 (iblk2 V c 0 ⟨0, hn⟩) (iblk2 V c 1 ⟨0, hn⟩) (iblk2 V c 2 ⟨0, hn⟩) (iblk2 V c 3 ⟨0, hn⟩) k2_pay1
  | n + 1, hn => k2_pay2 (iblk2 V c 0 ⟨n + 1, hn⟩) (iblk2 V c 1 ⟨n + 1, hn⟩) (iblk2 V c 2 ⟨n + 1, hn⟩) (iblk2 V c 3 ⟨n + 1, hn⟩)
      (if (n + 1) % 5 = 0 then k2_pay1 else acc2 c n (Nat.lt_of_succ_lt hn))

def out2 (c : Dev nD) (t : Fin cfg2.N) : Vec F S5000x64 .f32 := acc2 V c t.val t.isLt

def PhiS2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3_0 : Memref sig .tc .vmem S64x64 .f32 := Memref.whole cc3_scratch0
abbrev scM3_1 : Memref sig .tc .vmem S64x1 .f32 := Memref.whole cc3_scratch1

def sums3 (c : Dev nD) : (n : ℕ) → n < cfg3.N → Vec F S64x64 .f32
  | 0, hn => k3_pay4 (iblk3 V c 0 ⟨0, hn⟩) (iblk3 V c 1 ⟨0, hn⟩) k3_pay1
  | n + 1, hn => k3_pay4 (iblk3 V c 0 ⟨n + 1, hn⟩) (iblk3 V c 1 ⟨n + 1, hn⟩) (sums3 c n (Nat.lt_of_succ_lt hn))

def cnt3 (c : Dev nD) : (n : ℕ) → n < cfg3.N → Vec F S64x1 .f32
  | 0, hn => k3_pay5 (iblk3 V c 1 ⟨0, hn⟩) k3_pay2
  | n + 1, hn => k3_pay5 (iblk3 V c 1 ⟨n + 1, hn⟩) (cnt3 c n (Nat.lt_of_succ_lt hn))

def out3 (c : Dev nD) (t : Fin cfg3.N) : Vec F S64x64 .f32 := k3_pay6 (sums3 V c t.val t.isLt) (cnt3 V c t.val t.isLt)

def PhiS3 (c : Dev nD) : (n : ℕ) → n ≤ cfg3.N → sProp 𝕄
  | 0, _ => Pipeline.ΦA spec3 c
  | n + 1, hn => iprop(owns (c : Thread nD τ) scM3_0 fullShare (sums3 V c n hn)
      ∗ owns (c : Thread nD τ) scM3_1 fullShare (cnt3 V c n hn)
      ∗ Pipeline.scopedRestBut (Ix := Unit) (Name := ℕ) (U := UR sig nD τ) (Lvl := ℕ) (Val := Elt F) spec3 c [cc3_scratch0, cc3_scratch1]
      ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

end Cert.Kernel.Hand

end
-- ==== Proof.K.Folds.lean ====
import proofs.«424244_j62423054680132_3_alg».proof.Proof.K.Data

noncomputable section

namespace Cert.Kernel.Hand

open Idealize.ShloMosaic Idealize.ShloMosaic.TcCoe Idealize.SL.Sem
open Idealize.ShloMosaic.Pipeline (Dat Cfg)
open Cert.Kernel Cert.Kernel.Gen

variable {F : FTy → Type} [FloatOps F]
variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (dat1 (V2 m ρ) c).arrAt w cfg1.N
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
def W7 (c : Dev nD) : Valuation τ sig (Elt F) :=
  Pipeline.withArrays spec3 c (W6 m ρ c) fun w => (dat3 (V6 m ρ) c).arrAt w cfg3.N

theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W3_arr (c : Dev nD) (w : Fin cfg1.W) :
    W3 m ρ c (Proc.devRef .tc (Pipeline.arrRef spec1 w)) = (dat1 (V2 m ρ) c).arrAt w cfg1.N :=
  Pipeline.withArrays_arr spec1 launch1.win.arr_inj c _ _ w
theorem W5_arr (c : Dev nD) (w : Fin cfg2.W) :
    W5 m ρ c (Proc.devRef .tc (Pipeline.arrRef spec2 w)) = (dat2 (V4 m ρ) c).arrAt w cfg2.N :=
  Pipeline.withArrays_arr spec2 launch2.win.arr_inj c _ _ w
theorem W7_arr (c : Dev nD) (w : Fin cfg3.W) :
    W7 m ρ c (Proc.devRef .tc (Pipeline.arrRef spec3 w)) = (dat3 (V6 m ρ) c).arrAt w cfg3.N :=
  Pipeline.withArrays_arr spec3 launch3.win.arr_inj c _ _ w

theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W3_of_ne (c : Dev nD) (b : Ref sig .tc) (hb : ∀ w, Pipeline.arrRef spec1 w ≠ b) :
    W3 m ρ c (Proc.devRef .tc b) = W2 m ρ c (Proc.devRef .tc b) :=
  Pipeline.withArrays_of_ne spec1 c _ _ b hb
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb

theorem keeps (ops : List (HloOp τ sig (Elt F))) (W : Valuation τ sig (Elt F)) (b : Ref sig .tc)
    (h : ops.Forall fun op => Proc.devRef .tc b ∉ op.writes) :
    StableHlo.after ops W (Proc.devRef .tc b) = W (Proc.devRef .tc b) :=
  StableHlo.after_of_forall_not_mem _ _ (List.forall_iff_forall_mem.mp h)
theorem keeps_hostOps0 (W : Valuation τ sig (Elt F)) (b : Ref sig .tc)
    (h : (hostOps0 (F := F)).Forall fun op => Proc.devRef .tc b ∉ op.writes) :
    StableHlo.after hostOps0 W (Proc.devRef .tc b) = W (Proc.devRef .tc b) := keeps _ W b h
theorem keeps_hostOps2 (W : Valuation τ sig (Elt F)) (b : Ref sig .tc)
    (h : (hostOps2 (F := F)).Forall fun op => Proc.devRef .tc b ∉ op.writes) :
    StableHlo.after hostOps2 W (Proc.devRef .tc b) = W (Proc.devRef .tc b) := keeps _ W b h
theorem keeps_hostOps3 (W : Valuation τ sig (Elt F)) (b : Ref sig .tc)
    (h : (hostOps3 (F := F)).Forall fun op => Proc.devRef .tc b ∉ op.writes) :
    StableHlo.after hostOps3 W (Proc.devRef .tc b) = W (Proc.devRef .tc b) := keeps _ W b h

theorem keeps_call {cfg : Cfg sig Λ₀} {c : Dev nD} (d : Dat τ (Elt F) Unit ℕ (UR sig nD τ) ℕ cfg c)
    (hinj : Function.Injective (Pipeline.arrRef cfg.spec)) (W : Valuation τ sig (Elt F))
    (hA : ∀ w, d.A w = W (Proc.devRef .tc (Pipeline.arrRef cfg.spec w))) (b : Ref sig .tc)
    (hb : ∀ w, Pipeline.arrRef cfg.spec w = b → (cfg.win w).isOut = false) :
    Pipeline.withArrays cfg.spec c W (d.arrAt · cfg.N) (Proc.devRef .tc b) = W (Proc.devRef .tc b) := by
  by_cases h : ∃ w, Pipeline.arrRef cfg.spec w = b
  · obtain ⟨w, rfl⟩ := h
    rw [Pipeline.withArrays_arr _ hinj, d.arrAt_in w (hb w rfl), hA]
  · exact Pipeline.withArrays_of_ne _ c W _ b fun w e => h ⟨w, e⟩

-- What singles out the eight arguments among the references; no operation's result and no call's output array satisfies it.
abbrev IsArg (b : Ref sig .tc) : Prop := b.space = .hbm ∧ b.idx.val < 8

theorem arg_kept (b : Ref sig .tc) (hb : IsArg b) (W : Valuation τ sig (Elt F)) :
    StableHlo.after hostOps0 W (Proc.devRef .tc b) = W (Proc.devRef .tc b)
    ∧ StableHlo.after hostOps2 W (Proc.devRef .tc b) = W (Proc.devRef .tc b)
    ∧ StableHlo.after hostOps3 W (Proc.devRef .tc b) = W (Proc.devRef .tc b) := by
  refine ⟨keeps _ W _ ?_, keeps _ W _ ?_, keeps _ W _ ?_⟩ <;>
  · simp only [hostOps0, hostOps2, hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne fun e => absurd (e ▸ hb) (by decide)

theorem W7_arg (c : Dev nD) (b : Ref sig .tc) (hb : IsArg b) :
    W7 m ρ c (Proc.devRef .tc b) = m ((c : Thread nD τ).loc b) :=
  (keeps_call (dat3 (V6 m ρ) c) launch3.win.arr_inj (W6 m ρ c) (fun _ => rfl) _ fun w e => (by decide : ∀ w, IsArg (Pipeline.arrRef cfg3.spec w) → (cfg3.win w).isOut = false) w (e ▸ hb)).trans <|
  (arg_kept b hb (W5 m ρ c)).2.2.trans <|
  (keeps_call (dat2 (V4 m ρ) c) launch2.win.arr_inj (W4 m ρ c) (fun _ => rfl) _ fun w e => (by decide : ∀ w, IsArg (Pipeline.arrRef cfg2.spec w) → (cfg2.win w).isOut = false) w (e ▸ hb)).trans <|
  (arg_kept b hb (W3 m ρ c)).2.1.trans <|
  (keeps_call (dat1 (V2 m ρ) c) launch1.win.arr_inj (W2 m ρ c) (fun _ => rfl) _ fun w e => (by decide : ∀ w, IsArg (Pipeline.arrRef cfg1.spec w) → (cfg1.win w).isOut = false) w (e ▸ hb)).trans <|
  (keeps_call (dat0 (V1 m ρ) c) launch0.win.arr_inj (W1 m ρ c) (fun _ => rfl) _ fun w e => (by decide : ∀ w, IsArg (Pipeline.arrRef cfg0.spec w) → (cfg0.win w).isOut = false) w (e ▸ hb)).trans <|
  (arg_kept b hb (W0 m ρ c)).1

end Cert.Kernel.Hand

end
-- ==== Proof.BodyLib.lean ====
import Idealize.ShloMosaic.Lib.Pipeline.FrameBody

namespace Cert

open Idealize.ShloMosaic

variable {sig : RefSig} {κ : Kind} {sp : Space} {s : Shape} {e : EltTy} {Val : EltTy → Type}
  (v : View sig κ sp s e) (f : v.ty.Contents Val) {off : Fin s.rank → ℕ} (inb : ∀ a, off a + s.size a ≤ s.size a)

-- A rectangle as large as the shape can only start at zero, so it sends every index to itself.
theorem emb_whole (x : s.Idx) : (Rect.unit off s.size inb).emb x = x :=
  funext fun a => Fin.ext (by
    show off a + 1 * (x a).val = (x a).val
    have := inb a
    omega)

theorem readAt_whole : v.readAt Val (Rect.unit off s.size inb).toLoadRect f = v.read Val f := by
  funext x
  rw [View.readAt_apply]
  exact congrArg (v.read Val f) (emb_whole inb x)

-- The newest write wins wherever it lands, and a whole rectangle lands everywhere.
theorem read_writes_whole (w : (Rect.unit off s.size inb).shape.Idx → Val e) (L : List (View.Piece Val s e)) :
    v.read Val (v.writes Val f ((⟨Rect.unit off s.size inb, w⟩ : View.Piece Val s e) :: L)) = w := by
  funext y
  exact (congrArg (v.read Val (v.writes Val f ((⟨Rect.unit off s.size inb, w⟩ : View.Piece Val s e) :: L))) (emb_whole inb y).symm).trans
    (View.read_writes_cons_emb v f (Rect.unit off s.size inb) w L y)

end Cert
-- ==== Proof.K.Body0.lean ====
import proofs.«424244_j62423054680132_3_alg».proof.Proof.K.Data
import proofs.«424244_j62423054680132_3_alg».proof.Proof.BodyLib

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_reset (i : grid0.Coords) : Prop :=
  Scalar.cmpi .ne (Scalar.extui (Scalar.cmpi .eq (BitVec.ofNat 32 (i 1).val) 0#32)) 0#32 = 1#1

abbrev cond0_last (i : grid0.Coords) : Prop := k0_cond2 i = 1#1

theorem hcond0_reset : ∀ t : Fin cfg0.N, cond0_reset (grid0.coords t) ↔ t.val % 5 = 0 :=
  (by decide +kernel : ∀ t : Fin grid0.N, cond0_reset (grid0.coords t) ↔ t.val % 5 = 0)

-- One statement for every edge type: the seed of the update and what the output buffer ends at are chosen by the two conditions.
theorem run0 (c : Dev nD) (i : grid0.Coords) (arg2 : Memref sig .tc .vmem S1x5000x23 .f32) (harg2 : arg2.IsWhole) (arg3 : Memref sig .tc .vmem S5000x23 .f32) (harg3 : arg3.IsWhole) (arg4 : Memref sig .tc .vmem S1x5000x1 .f32) (harg4 : arg4.IsWhole) (arg5 : Memref sig .tc .vmem S1x23x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S5000x128 .f32) (harg8 : arg8.IsWhole)
    (x0 : Vec F S1x5000x23 .f32) (x1 : Vec F S5000x23 .f32) (x2 : Vec F S1x5000x1 .f32) (x3 : Vec F S1x23x128 .f32) (x4 : Vec F S1x1x128 .f32) (y xs a : Vec F S5000x128 .f32)
    (ha : a = k0_pay2 x0 x1 x2 x3 x4 (if cond0_reset i then k0_pay1 else xs)) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if cond0_last i then k0_pay3 a else y)
            ∗ owns (c : Thread nD τ) arg8 fullShare a) -∗ K ⟨⟩))
      ⊢ wp frame (wpE (defs₀ (F := F)) Variants.none c none) Set.univ
          (cc0__sage_combine1_kernel i arg2 harg2 arg3 harg3 arg4 harg4 arg5 harg5 arg6 harg6 arg7 harg7 arg8 harg8) K := by
  subst ha
  simp only [cc0__sage_combine1_kernel_eq_skeleton]; unfold cc0__sage_combine1_kernel_skel
  unfold owns
  by_cases h1 : cond0_reset i <;> by_cases h2 : cond0_last i <;>
    (first | rw [if_pos h1] | rw [if_neg h1]) <;> (first | rw [if_pos h2] | rw [if_neg h2])
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    subst hf0 hf1 hf2 hf3 hf4 hf5 hfs
    sl_exec (disch := first | exact h1 | exact h2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr
      swap; · iexact H5
      ipureintro
      first
        | rfl
        | refine (read_writes_whole _ _ _ _ _).trans ?_
          sl_unfold_run_names
          repeat (first | rw [readAt_whole] | rw [View.readCov_cons_toLoadRect])
    iexists _; isplitr
    swap; · iexact HS
    ipureintro
    refine (read_writes_whole _ _ _ _ _).trans ?_
    sl_unfold_run_names
    repeat (first | rw [readAt_whole] | rw [View.readCov_cons_toLoadRect])

theorem before0 (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t)
      ∧ (∀ d, (dat0 V c).before 4 t d = iblk0 V c 4 t) := by
  refine ⟨?_, ?_, ?_, ?_, ?_⟩ <;> intro d <;>
    exact ((dat0 V c).before_in_eq_fetched _ rfl (fun _ => rfl) (fun _ _ _ => rfl) (fun _ => rfl) t d).trans rfl

-- The accumulator's recursion unfolded once, with the seed spelt as the body's run spells it.
theorem acc0_eq (c : Dev nD) (t : Fin cfg0.N) (xs : Vec F S5000x128 .f32)
    (hxs : ¬t.val % 5 = 0 → xs = acc0 V c (t.val - 1) (Nat.lt_of_le_of_lt (Nat.sub_le _ _) t.isLt)) :
    acc0 V c t.val t.isLt = k0_pay2 (iblk0 V c 0 t) (iblk0 V c 1 t) (iblk0 V c 2 t) (iblk0 V c 3 t) (iblk0 V c 4 t)
      (if cond0_reset (grid0.coords t) then k0_pay1 else xs) := by
  by_cases h : t.val % 5 = 0
  · rw [if_pos ((hcond0_reset t).mpr h)]
    obtain ⟨n, hn⟩ := t
    cases n with
    | zero => rw [acc0]
    | succ n => rw [acc0, if_pos h]
  · rw [if_neg (mt (hcond0_reset t).mp h), hxs h]
    obtain ⟨n, hn⟩ := t
    cases n with
    | zero => exact absurd (Nat.zero_mod _) h
    | succ n => rw [acc0, if_neg h]; rfl

abbrev rest0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

theorem PhiA0_split (c : Dev nD) :
    (Pipeline.ΦA spec0 c : sProp 𝕄) = iprop(((∃ d, owns (c : Thread nD τ) scM0 fullShare d)
      ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

-- Opening the invariant before a point: the scratch at some contents, known unless the point resets it.
theorem PhiS0_open (c : Dev nD) (t : Fin cfg0.N) :
    (dat0 V c).Φ t.castSucc ⊢ iprop(∃ xs, ⌜¬t.val % 5 = 0 → xs = acc0 V c (t.val - 1) (Nat.lt_of_le_of_lt (Nat.sub_le _ _) t.isLt)⌝
      ∗ owns (c : Thread nD τ) scM0 fullShare xs ∗ rest0 c) := by
  obtain ⟨n, hn⟩ := t
  cases n with
  | zero =>
    rw [show (dat0 V c).Φ (Fin.castSucc ⟨0, hn⟩) = Pipeline.ΦA spec0 c from rfl, PhiA0_split]
    iintro ⟨⟨⟨%d, HS⟩, HR⟩, Hg⟩
    iexists d; isplitr; · ipureintro; exact fun h => absurd (Nat.zero_mod 5) h
    unfold rest0; iframe
  | succ n =>
    rw [show (dat0 V c).Φ (Fin.castSucc ⟨n + 1, hn⟩)
      = iprop(owns (c : Thread nD τ) scM0 fullShare (acc0 V c n (Nat.lt_of_succ_lt hn)) ∗ rest0 c) from rfl]
    iintro ⟨HS, HR⟩
    iexists acc0 V c n (Nat.lt_of_succ_lt hn); isplitr; · ipureintro; exact fun _ => rfl
    iframe

-- Forgetting the accumulator's value gives back the invariant the region started from.
theorem PhiS0_close (c : Dev nD) : ∀ (n : ℕ) (h : n ≤ cfg0.N), n ≠ 0 → PhiS0 V c n h ⊢ Pipeline.ΦA spec0 c
  | 0, _, hz => absurd rfl hz
  | n + 1, h, _ => by
    rw [PhiA0_split]; unfold PhiS0
    iintro ⟨HS, HR, Hg⟩
    iframe HR Hg
    iexists _; iexact HS

theorem idleAt0_5 : ∀ t : Fin cfg0.N, ¬cond0_last (grid0.coords t) → cfg0.idle 5 (grid0.coords t) = true := by decide +kernel
theorem noFlush0_5 : ∀ t : Fin cfg0.N, ¬cond0_last (grid0.coords t) → (cfg0.win 5).flush t = false := by decide +kernel
theorem liveAt0_5 : ∀ t : Fin cfg0.N, cond0_last (grid0.coords t) → cfg0.idle 5 (grid0.coords t) = false := by decide +kernel

abbrev ms0_0 (t : Fin cfg0.N) : Memref sig .tc .vmem S1x5000x23 .f32 := win0_0.stage (cfg0.slots t 0)
abbrev ms0_1 (t : Fin cfg0.N) : Memref sig .tc .vmem S5000x23 .f32 := win0_1.stage (cfg0.slots t 1)
abbrev ms0_2 (t : Fin cfg0.N) : Memref sig .tc .vmem S1x5000x1 .f32 := win0_2.stage (cfg0.slots t 2)
abbrev ms0_3 (t : Fin cfg0.N) : Memref sig .tc .vmem S1x23x128 .f32 := win0_3.stage (cfg0.slots t 3)
abbrev ms0_4 (t : Fin cfg0.N) : Memref sig .tc .vmem S1x1x128 .f32 := win0_4.stage (cfg0.slots t 4)
abbrev ms0_5 (t : Fin cfg0.N) : Memref sig .tc .vmem S5000x128 .f32 := win0_5.stage (cfg0.slots t 5)

-- Both cases of the output buffer's postcondition, chosen by the same condition as the store.
theorem leaves0_5 (c : Dev nD) (t : Fin cfg0.N) (d) :
    owns (c : Thread nD τ) (ms0_5 t) fullShare
        (if cond0_last (grid0.coords t) then k0_pay3 (acc0 V c t.val t.isLt) else (dat0 V c).before 5 t d)
      ⊢ (dat0 V c).leavesExact 5 t := by
  by_cases h : cond0_last (grid0.coords t)
  · exact Entails.of_eq (by rw [if_pos h]; unfold Dat.leavesExact; rw [liveAt0_5 t h]; rfl)
  · rw [if_neg h, Dat.leavesExact_idle (dat0 V c) 5 t (idleAt0_5 t h) (noFlush0_5 t h)]
    iintro H; iexists d; iexact H

theorem sound_body0 (c : Dev nD) (t : Fin cfg0.N) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))
      ∗ (∃ d, owns (c : Thread nD τ) (ms0_4 t) fullShare ((dat0 V c).before 4 t d))
      ∗ (∃ d, owns (c : Thread nD τ) (ms0_5 t) fullShare ((dat0 V c).before 5 t d)))
    ⊢ wp frame (wpE (defs₀ (F := F)) Variants.none c none) Set.univ (bodyAt0 t) (fun _ =>
      iprop((owns (c : Thread nD τ) scM0 fullShare (acc0 V c t.val t.isLt) ∗ rest0 c) ∗ (dat0 V c).owesAt () t.castSucc
        ∗ owns (c : Thread nD τ) (ms0_0 t) fullShare (iblk0 V c 0 t)
        ∗ owns (c : Thread nD τ) (ms0_1 t) fullShare (iblk0 V c 1 t)
        ∗ owns (c : Thread nD τ) (ms0_2 t) fullShare (iblk0 V c 2 t)
        ∗ owns (c : Thread nD τ) (ms0_3 t) fullShare (iblk0 V c 3 t)
        ∗ owns (c : Thread nD τ) (ms0_4 t) fullShare (iblk0 V c 4 t)
        ∗ (dat0 V c).leavesExact 5 t)) := by
  obtain ⟨b0, b1, b2, b3, b4⟩ := before0 V c t
  simp only [b0, b1, b2, b3, b4]
  refine (sep_mono (PhiS0_open V c t) .rfl).trans ?_
  iintro ⟨⟨%xs, %hxs, HS, HR⟩, Ho, ⟨%d0, H0⟩, ⟨%d1, H1⟩, ⟨%d2, H2⟩, ⟨%d3, H3⟩, ⟨%d4, H4⟩, ⟨%d5, H5⟩⟩
  iapply (run0 c (grid0.coords t) _ _ _ _ _ _ _ _ _ _ _ _ _ _ (iblk0 V c 0 t) (iblk0 V c 1 t) (iblk0 V c 2 t) (iblk0 V c 3 t)
    (iblk0 V c 4 t) ((dat0 V c).before 5 t d5) xs _ (acc0_eq V c t xs hxs) _)
  iframe H0 H1 H2 H3 H4 H5 HS
  iintro ⟨H0, H1, H2, H3, H4, H5, HS⟩
  isplitl [HS HR]; · iframe
  iframe Ho H0 H1 H2 H3 H4
  iapply (leaves0_5 V c t d5)
  iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c :=
  PhiS0_close V c cfg0.N (Nat.le_refl _) (by rw [show cfg0.N = 100 from N_0]; decide)

end Cert.Kernel.Hand

end
-- ==== Proof.K.Body1.lean ====
import proofs.«424244_j62423054680132_3_alg».proof.Proof.K.Data
import proofs.«424244_j62423054680132_3_alg».proof.Proof.BodyLib

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The output block is the product of the two input blocks, which are left unchanged.
theorem sound_kernel1 (c : Dev nD) (E : Set ℕ) (i : grid1.Coords)
    (arg2 : Memref sig .tc .vmem S5000x128 .f32) (harg2 : arg2.IsWhole) (arg3 : Memref sig .tc .vmem S1x128x64 .f32) (harg3 : arg3.IsWhole)
    (arg4 : Memref sig .tc .vmem S1x5000x64 .f32) (harg4 : arg4.IsWhole)
    (x0 : Vec F S5000x128 .f32) (x1 : Vec F S1x128x64 .f32) (d : Vec F S1x5000x64 .f32) (K : PUnit → sProp 𝕄) :
    iprop(owns (c : Thread nD τ) arg2 fullShare x0 ∗ owns (c : Thread nD τ) arg3 fullShare x1 ∗ owns (c : Thread nD τ) arg4 fullShare d
        ∗ (iprop(owns (c : Thread nD τ) arg2 fullShare x0 ∗ owns (c : Thread nD τ) arg3 fullShare x1
            ∗ owns (c : Thread nD τ) arg4 fullShare (k1_pay1 x0 x1)) -∗ K ⟨⟩))
      ⊢ wp frame (wpE (defs₀ (F := F)) Variants.none c none) E (cc1__pretransform_kernel i arg2 harg2 arg3 harg3 arg4 harg4) K := by
  simp only [cc1__pretransform_kernel_eq_skeleton]; unfold cc1__pretransform_kernel_skel owns
  iintro ⟨⟨%f0, %hf0, H0⟩, ⟨%f1, %hf1, H1⟩, ⟨%f2, -, H2⟩, Hk⟩
  sl_exec
  sl_step
  iapply Hk
  isplitl [H0]
  · iexists _; iframe H0; ipureintro; exact hf0
  isplitl [H1]
  · iexists _; iframe H1; ipureintro; exact hf1
  iexists _; iframe H2; ipureintro
  rw [read_writes_whole, readAt_whole, readAt_whole, hf0, hf1]

theorem before1 (c : Dev nD) (t : Fin cfg1.N) :
    (∀ d, (dat1 V c).before 0 t d = iblk1 V c 0 t) ∧ ∀ d, (dat1 V c).before 1 t d = iblk1 V c 1 t := by
  constructor <;> intro d <;>
    exact (dat1 V c).before_in_eq_fetched _ rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [(before1 V c t).1, (before1 V c t).2]
  rw [show (dat1 V c).Φ t.succ = (dat1 V c).Φ t.castSucc from rfl,
    show (dat1 V c).owesAt () t.succ = (dat1 V c).owesAt () t.castSucc from rfl,
    show (dat1 V c).after 0 t = iblk1 V c 0 t from rfl, show (dat1 V c).after 1 t = iblk1 V c 1 t from rfl,
    show (dat1 V c).after 2 t = out1 V c t from rfl, out1]
  iintro ⟨HΦ, Ho, ⟨%d0, H0⟩, ⟨%d1, H1⟩, ⟨%d2, H2⟩⟩
  iapply (sound_kernel1 c Set.univ (grid1.coords t) _ (stage_whole1 0 _) _ (stage_whole1 1 _) _ (stage_whole1 2 _) _ _ _ _)
  iframe H0 H1 H2
  iintro ⟨H0, H1, H2⟩
  iframe HΦ Ho H0 H1 H2

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.Kernel.Hand

end
-- ==== Proof.K.Body2.lean ====
import proofs.«424244_j62423054680132_3_alg».proof.Proof.K.Data
import proofs.«424244_j62423054680132_3_alg».proof.Proof.BodyLib

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_reset (i : grid2.Coords) : Prop :=
  Scalar.cmpi .ne (Scalar.extui (Scalar.cmpi .eq (BitVec.ofNat 32 (i 1).val) 0#32)) 0#32 = 1#1

abbrev cond2_last (i : grid2.Coords) : Prop := k2_cond2 i = 1#1

theorem hcond2_reset : ∀ t : Fin cfg2.N, cond2_reset (grid2.coords t) ↔ t.val % 5 = 0 :=
  (by decide +kernel : ∀ t : Fin grid2.N, cond2_reset (grid2.coords t) ↔ t.val % 5 = 0)

-- One statement for every edge type: the seed of the update and what the output buffer ends at are chosen by the two conditions.
theorem run2 (c : Dev nD) (i : grid2.Coords) (arg2 : Memref sig .tc .vmem S1x5000x64 .f32) (harg2 : arg2.IsWhole) (arg3 : Memref sig .tc .vmem S1x5000x64 .f32) (harg3 : arg3.IsWhole) (arg4 : Memref sig .tc .vmem S1x5000x1 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole)
    (x0 : Vec F S1x5000x64 .f32) (x1 : Vec F S1x5000x64 .f32) (x2 : Vec F S1x5000x1 .f32) (x3 : Vec F S1x1x64 .f32) (y xs a : Vec F S5000x64 .f32)
    (ha : a = k2_pay2 x0 x1 x2 x3 (if cond2_reset i then k2_pay1 else xs)) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (if cond2_last i then a else y)
            ∗ owns (c : Thread nD τ) arg7 fullShare a) -∗ K ⟨⟩))
      ⊢ wp frame (wpE (defs₀ (F := F)) Variants.none c none) Set.univ
          (cc2__sage_combine2_kernel i arg2 harg2 arg3 harg3 arg4 harg4 arg5 harg5 arg6 harg6 arg7 harg7) K := by
  subst ha
  simp only [cc2__sage_combine2_kernel_eq_skeleton]; unfold cc2__sage_combine2_kernel_skel
  unfold owns
  by_cases h1 : cond2_reset i <;> by_cases h2 : cond2_last i <;>
    (first | rw [if_pos h1] | rw [if_neg h1]) <;> (first | rw [if_pos h2] | rw [if_neg h2])
  all_goals
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    subst hf0 hf1 hf2 hf3 hf4 hfs
    sl_exec (disch := first | exact h1 | exact h2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr
      swap; · iexact H4
      ipureintro
      first
        | rfl
        | refine (read_writes_whole _ _ _ _ _).trans ?_
          sl_unfold_run_names
          repeat (first | rw [readAt_whole] | rw [View.readCov_cons_toLoadRect])
    iexists _; isplitr
    swap; · iexact HS
    ipureintro
    refine (read_writes_whole _ _ _ _ _).trans ?_
    sl_unfold_run_names
    repeat (first | rw [readAt_whole] | rw [View.readCov_cons_toLoadRect])

theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ (∀ d, (dat2 V c).before 3 t d = iblk2 V c 3 t) := by
  refine ⟨?_, ?_, ?_, ?_⟩ <;> intro d <;>
    exact ((dat2 V c).before_in_eq_fetched _ rfl (fun _ => rfl) (fun _ _ _ => rfl) (fun _ => rfl) t d).trans rfl

-- The accumulator's recursion unfolded once, with the seed spelt as the body's run spells it.
theorem acc2_eq (c : Dev nD) (t : Fin cfg2.N) (xs : Vec F S5000x64 .f32)
    (hxs : ¬t.val % 5 = 0 → xs = acc2 V c (t.val - 1) (Nat.lt_of_le_of_lt (Nat.sub_le _ _) t.isLt)) :
    acc2 V c t.val t.isLt = k2_pay2 (iblk2 V c 0 t) (iblk2 V c 1 t) (iblk2 V c 2 t) (iblk2 V c 3 t)
      (if cond2_reset (grid2.coords t) then k2_pay1 else xs) := by
  by_cases h : t.val % 5 = 0
  · rw [if_pos ((hcond2_reset t).mpr h)]
    obtain ⟨n, hn⟩ := t
    cases n with
    | zero => rfl
    | succ n => exact congrArg (k2_pay2 _ _ _ _) (if_pos h)
  · rw [if_neg (mt (hcond2_reset t).mp h), hxs h]
    obtain ⟨n, hn⟩ := t
    cases n with
    | zero => exact absurd (Nat.zero_mod _) h
    | succ n => exact congrArg (k2_pay2 _ _ _ _) (if_neg h)

abbrev rest2 (c : Dev nD) : sProp 𝕄 :=
  iprop(Pipeline.scopedRestBut (Ix := Unit) (Name := ℕ) (U := UR sig nD τ) (Lvl := ℕ) (Val := Elt F) spec2 c [cc2_scratch0] ∗ (∃ r, prngReg c r))

theorem PhiA2_split (c : Dev nD) :
    (Pipeline.ΦA spec2 c : sProp 𝕄) = iprop(((∃ d, owns (c : Thread nD τ) scM2 fullShare d)
      ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

-- Opening the invariant before a point: the scratch at some contents, known unless the point resets it.
theorem PhiS2_open (c : Dev nD) (t : Fin cfg2.N) :
    (dat2 V c).Φ t.castSucc ⊢ iprop(∃ xs, ⌜¬t.val % 5 = 0 → xs = acc2 V c (t.val - 1) (Nat.lt_of_le_of_lt (Nat.sub_le _ _) t.isLt)⌝
      ∗ owns (c : Thread nD τ) scM2 fullShare xs ∗ rest2 c) := by
  obtain ⟨n, hn⟩ := t
  cases n with
  | zero =>
    rw [show (dat2 V c).Φ (Fin.castSucc ⟨0, hn⟩) = Pipeline.ΦA spec2 c from rfl, PhiA2_split]
    iintro ⟨⟨⟨%d, HS⟩, HR⟩, Hg⟩
    iexists d; isplitr; · ipureintro; exact fun h => absurd (Nat.zero_mod 5) h
    unfold rest2; iframe
  | succ n =>
    rw [show (dat2 V c).Φ (Fin.castSucc ⟨n + 1, hn⟩)
      = iprop(owns (c : Thread nD τ) scM2 fullShare (acc2 V c n (Nat.lt_of_succ_lt hn)) ∗ rest2 c) from rfl]
    iintro ⟨HS, HR⟩
    iexists acc2 V c n (Nat.lt_of_succ_lt hn); isplitr; · ipureintro; exact fun _ => rfl
    iframe

-- Forgetting the accumulator's value gives back the invariant the region started from.
theorem PhiS2_close (c : Dev nD) : ∀ (n : ℕ) (h : n ≤ cfg2.N), n ≠ 0 → PhiS2 V c n h ⊢ Pipeline.ΦA spec2 c
  | 0, _, hz => absurd rfl hz
  | n + 1, h, _ => by
    rw [PhiA2_split]; unfold PhiS2
    iintro ⟨HS, HR, Hg⟩
    iframe HR Hg
    iexists _; iexact HS

theorem idleAt2_4 : ∀ t : Fin cfg2.N, ¬cond2_last (grid2.coords t) → cfg2.idle 4 (grid2.coords t) = true := by decide +kernel
theorem noFlush2_4 : ∀ t : Fin cfg2.N, ¬cond2_last (grid2.coords t) → (cfg2.win 4).flush t = false := by decide +kernel
theorem liveAt2_4 : ∀ t : Fin cfg2.N, cond2_last (grid2.coords t) → cfg2.idle 4 (grid2.coords t) = false := by decide +kernel

abbrev ms2_0 (t : Fin cfg2.N) : Memref sig .tc .vmem S1x5000x64 .f32 := win2_0.stage (cfg2.slots t 0)
abbrev ms2_1 (t : Fin cfg2.N) : Memref sig .tc .vmem S1x5000x64 .f32 := win2_1.stage (cfg2.slots t 1)
abbrev ms2_2 (t : Fin cfg2.N) : Memref sig .tc .vmem S1x5000x1 .f32 := win2_2.stage (cfg2.slots t 2)
abbrev ms2_3 (t : Fin cfg2.N) : Memref sig .tc .vmem S1x1x64 .f32 := win2_3.stage (cfg2.slots t 3)
abbrev ms2_4 (t : Fin cfg2.N) : Memref sig .tc .vmem S5000x64 .f32 := win2_4.stage (cfg2.slots t 4)

-- Both cases of the output buffer's postcondition, chosen by the same condition as the store.
theorem leaves2_4 (c : Dev nD) (t : Fin cfg2.N) (d) :
    owns (c : Thread nD τ) (ms2_4 t) fullShare
        (if cond2_last (grid2.coords t) then acc2 V c t.val t.isLt else (dat2 V c).before 4 t d)
      ⊢ (dat2 V c).leavesExact 4 t := by
  by_cases h : cond2_last (grid2.coords t)
  · exact Entails.of_eq (by rw [if_pos h]; unfold Dat.leavesExact; rw [liveAt2_4 t h]; rfl)
  · rw [if_neg h, Dat.leavesExact_idle (dat2 V c) 4 t (idleAt2_4 t h) (noFlush2_4 t h)]
    iintro H; iexists d; iexact H

theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d))
      ∗ (∃ d, owns (c : Thread nD τ) (ms2_4 t) fullShare ((dat2 V c).before 4 t d)))
    ⊢ wp frame (wpE (defs₀ (F := F)) Variants.none c none) Set.univ (bodyAt2 t) (fun _ =>
      iprop((owns (c : Thread nD τ) scM2 fullShare (acc2 V c t.val t.isLt) ∗ rest2 c) ∗ (dat2 V c).owesAt () t.castSucc
        ∗ owns (c : Thread nD τ) (ms2_0 t) fullShare (iblk2 V c 0 t)
        ∗ owns (c : Thread nD τ) (ms2_1 t) fullShare (iblk2 V c 1 t)
        ∗ owns (c : Thread nD τ) (ms2_2 t) fullShare (iblk2 V c 2 t)
        ∗ owns (c : Thread nD τ) (ms2_3 t) fullShare (iblk2 V c 3 t)
        ∗ (dat2 V c).leavesExact 4 t)) := by
  obtain ⟨b0, b1, b2, b3⟩ := before2 V c t
  simp only [b0, b1, b2, b3]
  refine (sep_mono (PhiS2_open V c t) .rfl).trans ?_
  iintro ⟨⟨%xs, %hxs, HS, HR⟩, Ho, ⟨%d0, H0⟩, ⟨%d1, H1⟩, ⟨%d2, H2⟩, ⟨%d3, H3⟩, ⟨%d4, H4⟩⟩
  iapply (run2 c (grid2.coords t) _ _ _ _ _ _ _ _ _ _ _ _ (iblk2 V c 0 t) (iblk2 V c 1 t) (iblk2 V c 2 t) (iblk2 V c 3 t)
    ((dat2 V c).before 4 t d4) xs _ (acc2_eq V c t xs hxs) _)
  iframe H0 H1 H2 H3 H4 HS
  iintro ⟨H0, H1, H2, H3, H4, HS⟩
  isplitl [HS HR]; · iframe
  iframe Ho H0 H1 H2 H3
  iapply (leaves2_4 V c t d4)
  iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c :=
  PhiS2_close V c cfg2.N (Nat.le_refl _) (by rw [show cfg2.N = 100 from N_2]; decide)

end Cert.Kernel.Hand

end
-- ==== Proof.K.Body3.lean ====
import proofs.«424244_j62423054680132_3_alg».proof.Proof.K.Data
import proofs.«424244_j62423054680132_3_alg».proof.Proof.BodyLib

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

theorem hcond3_0 : ∀ t : Fin cfg3.N, cond3_0 (grid3.coords t) ↔ t.val = 0 := by decide +kernel
theorem hcond3_1 : ∀ t : Fin cfg3.N, cond3_1 (grid3.coords t) ↔ t.val = 19 := by decide +kernel
theorem idleAt3_2 : ∀ t : Fin cfg3.N, ¬cond3_1 (grid3.coords t) → idle3 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → idle3 2 (grid3.coords t) = false := by decide +kernel

-- Sums and counts restart from zero where the first test holds and absorb the block; their quotient is written where the second holds.
theorem run3 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole)
    (x0 : Vec F S5000x64 .f32) (x1 : Vec F S5000x1 .i32) (o s : Vec F S64x64 .f32) (n : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare o
        ∗ owns (c : Thread nD τ) arg4 fullShare s ∗ owns (c : Thread nD τ) arg5 fullShare n
        ∗ (iprop(owns (c : Thread nD τ) arg1 fullShare x0 ∗ owns (c : Thread nD τ) arg2 fullShare x1
            ∗ owns (c : Thread nD τ) arg3 fullShare (if cond3_1 i then k3_pay6 (k3_pay4 x0 x1 (if cond3_0 i then k3_pay1 else s)) (k3_pay5 x1 (if cond3_0 i then k3_pay2 else n)) else o)
            ∗ owns (c : Thread nD τ) arg4 fullShare (k3_pay4 x0 x1 (if cond3_0 i then k3_pay1 else s))
            ∗ owns (c : Thread nD τ) arg5 fullShare (k3_pay5 x1 (if cond3_0 i then k3_pay2 else n))) -∗ K ⟨⟩))
      ⊢ wp frame (wpE (defs₀ (F := F)) Variants.none c none) E (cc3__meanpool_kernel i arg1 harg1 arg2 harg2 arg3 harg3 arg4 harg4 arg5 harg5) K := by
  by_cases hc0 : cond3_0 i <;> by_cases hc1 : cond3_1 i <;>
    (first | rw [if_pos hc0, if_pos hc0] | rw [if_neg hc0, if_neg hc0]) <;> (first | rw [if_pos hc1] | rw [if_neg hc1]) <;>
    (simp only [cc3__meanpool_kernel_eq_skeleton]; unfold cc3__meanpool_kernel_skel owns
     iintro ⟨⟨%f1, %hf1, H1⟩, ⟨%f2, %hf2, H2⟩, ⟨%f3, %hf3, H3⟩, ⟨%f4, %hf4, H4⟩, ⟨%f5, %hf5, H5⟩, Hk⟩
     sl_exec (disch := first | exact hc0 | exact hc1)
     sl_step
     iapply Hk
     isplitl [H1]
     · iexists _; iframe H1; ipureintro; exact hf1
     isplitl [H2]
     · iexists _; iframe H2; ipureintro; exact hf2
     isplitl [H3]
     · iexists _; iframe H3; ipureintro; sl_unfold_run_names
       repeat first | rw [read_writes_whole] | rw [readAt_whole] | rw [View.readCov_cons_toLoadRect] | rw [hf1] | rw [hf2] | rw [hf3] | rw [hf4] | rw [hf5]
     isplitl [H4]
     · iexists _; iframe H4; ipureintro; sl_unfold_run_names
       repeat first | rw [read_writes_whole] | rw [readAt_whole] | rw [View.readCov_cons_toLoadRect] | rw [hf1] | rw [hf2] | rw [hf4]
     · iexists _; iframe H5; ipureintro; sl_unfold_run_names
       repeat first | rw [read_writes_whole] | rw [readAt_whole] | rw [View.readCov_cons_toLoadRect] | rw [hf2] | rw [hf5])

theorem before3 (c : Dev nD) (t : Fin cfg3.N) :
    (∀ d, (dat3 V c).before 0 t d = iblk3 V c 0 t) ∧ ∀ d, (dat3 V c).before 1 t d = iblk3 V c 1 t := by
  constructor <;> intro d <;>
    exact (dat3 V c).before_in_eq_fetched _ rfl (fun _ => rfl) (fun _ _ _ => rfl) (fun _ => rfl) t d

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

theorem after3 (c : Dev nD) (t : Fin cfg3.N) : (dat3 V c).after 0 t = iblk3 V c 0 t ∧ (dat3 V c).after 1 t = iblk3 V c 1 t
    ∧ (dat3 V c).after 2 t = out3 V c t := ⟨rfl, rfl, rfl⟩

theorem body_obligation3 (c : Dev nD) : BodyObligation (dat3 (F := F) V c) (defs₀ (F := F)) Variants.none () Set.univ := fun t => by
  rw [bigSep_W3, bigSep_W3]
  simp only [(before3 V c t).1, (before3 V c t).2]
  rw [show (dat3 V c).owesAt () t.succ = (dat3 V c).owesAt () t.castSucc from rfl,
    show (dat3 V c).Φ t.succ = PhiS3 V c (t.val + 1) t.isLt from rfl, PhiS3, (after3 V c t).1, (after3 V c t).2.1]
  obtain ⟨n, hn⟩ := t
  have h0 := hcond3_0 ⟨n, hn⟩
  have h1 := hcond3_1 ⟨n, hn⟩
  rcases n with _ | n
  · have hc1 : ¬cond3_1 (grid3.coords ⟨0, hn⟩) := fun h => absurd (h1.mp h) (by decide : (0 : ℕ) ≠ 19)
    simp only [idleAt3_2 _ hc1, noFlush3_2 _ hc1]
    rw [show (dat3 V c).Φ (Fin.castSucc ⟨0, hn⟩) = Pipeline.ΦA spec3 c from rfl, PhiA3_eq, sums3, cnt3]
    iintro ⟨⟨⟨⟨⟨%d4, HS0⟩, ⟨%d5, HS1⟩⟩, Hrest⟩, Hg⟩, Ho, ⟨%e0, H0⟩, ⟨%e1, H1⟩, ⟨%e2, H2⟩⟩
    iapply (run3 c (grid3.coords ⟨0, hn⟩) _ (stage_whole3 0 _) _ (stage_whole3 1 _) _ (stage_whole3 2 _) scM3_0 (Memref.isWhole_whole _) scM3_1 (Memref.isWhole_whole _) _ _ _ d4 d5 Set.univ _)
    rw [if_pos (h0.mpr rfl), if_pos (h0.mpr rfl), if_neg hc1]
    iframe H0 H1 H2 HS0 HS1
    iintro ⟨H0, H1, H2, HS0, HS1⟩
    iframe Ho H0 H1 Hrest Hg HS0 HS1
    iexists _; iexact H2
  · have hc0 : ¬cond3_0 (grid3.coords ⟨n + 1, hn⟩) := fun h => absurd (h0.mp h) (Nat.succ_ne_zero n)
    rw [show (dat3 V c).Φ (Fin.castSucc ⟨n + 1, hn⟩) = PhiS3 V c (n + 1) (Nat.le_of_lt hn) from rfl, PhiS3, sums3, cnt3]
    iintro ⟨⟨HS0, HS1, Hrest, Hg⟩, Ho, ⟨%e0, H0⟩, ⟨%e1, H1⟩, ⟨%e2, H2⟩⟩
    iapply (run3 c (grid3.coords ⟨n + 1, hn⟩) _ (stage_whole3 0 _) _ (stage_whole3 1 _) _ (stage_whole3 2 _) scM3_0 (Memref.isWhole_whole _) scM3_1 (Memref.isWhole_whole _) _ _ _ _ _ Set.univ _)
    rw [if_neg hc0, if_neg hc0]
    iframe H0 H1 H2 HS0 HS1
    iintro ⟨H0, H1, H2, HS0, HS1⟩
    iframe Ho H0 H1 Hrest Hg HS0 HS1
    by_cases h19 : n + 1 = 19
    · have hc1 := h1.mpr h19
      simp only [liveAt3_2 _ hc1]
      rw [if_pos hc1, (after3 V c _).2.2, out3, sums3, cnt3]
      iexact H2
    · have hc1 : ¬cond3_1 (grid3.coords ⟨n + 1, hn⟩) := fun h => h19 (h1.mp h)
      simp only [idleAt3_2 _ hc1, noFlush3_2 _ hc1]
      rw [if_neg hc1]
      iexists _; iexact H2

theorem hin3 (c : Dev nD) : Pipeline.ΦA spec3 c ⊢ (dat3 V c).Φ 0 := .rfl

theorem hout3 (c : Dev nD) : (dat3 V c).Φ (Fin.last cfg3.N) ⊢ Pipeline.ΦA spec3 c := by
  have (n : ℕ) (hn : n + 1 ≤ cfg3.N) : PhiS3 V c (n + 1) hn ⊢ Pipeline.ΦA spec3 c := by
    rw [PhiS3, PhiA3_eq]
    iintro ⟨HS0, HS1, Hrest, Hg⟩
    iframe Hrest Hg
    isplitl [HS0]
    · iexists _; iexact HS0
    iexists _; iexact HS1
  exact this 19 (Nat.le_refl _)

end Cert.Kernel.Hand

end
-- ==== Proof.K.Run.lean ====
import proofs.«424244_j62423054680132_3_alg».proof.Proof.K.Folds
import proofs.«424244_j62423054680132_3_alg».proof.Proof.K.Body0
import proofs.«424244_j62423054680132_3_alg».proof.Proof.K.Body1
import proofs.«424244_j62423054680132_3_alg».proof.Proof.K.Body2
import proofs.«424244_j62423054680132_3_alg».proof.Proof.K.Body3

set_option backward.isDefEq.respectTransparency.types false

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem Idealize.ShloMosaic.Rounds
open scoped Idealize.SL.BI
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev TW (W : Dev nD → Valuation τ sig (Elt F)) (c : Dev nD) : sProp 𝕄 :=
  iprop(StableHlo.held (c : Thread nD τ) (Pipeline.ucRefs τ sig) (W c) ∗ R c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Wout (p : Fin 4) (Wi : Dev nD → Valuation τ sig (Elt F)) (c : Dev nD) : Valuation τ sig (Elt F) :=
  Pipeline.withArrays (cfgs p).spec c (Wi c) ((pdats m ρ p c).arrAt · (cfgs p).N)

def regAt (p : Fin 4) (lf : Pipeline.LaunchFacts (nD := nD) (τ := τ) cfgs p) (Wi : Dev nD → Valuation τ sig (Elt F))
    (hq : ∀ c w, (pdats m ρ p c).q w = fullShare) (ho : ∀ c t, (pdats m ρ p c).owed t = 0)
    (hr : ∀ c x, x ∈ (pdats m ρ p c).recorded 0)
    (hA : ∀ c w, (pdats m ρ p c).A w = Wi c (Proc.devRef .tc (Pipeline.arrRef (cfgs p).spec w)))
    (hbody : ∀ c, BodyObligation (pdats m ρ p c) (defs₀ (F := F)) Variants.none () Set.univ)
    (hin : ∀ c, Pipeline.ΦA (cfgs p).spec c ⊢ (pdats m ρ p c).Φ 0)
    (hout : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p ho
  pre := TW Wi
  post := TW (Wout m ρ p Wi)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    unfold Pipeline.Dat.owesAt Pipeline.owesWithin
    rw [Pipeline.ownSems0_none, ho c]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hr c x)
      iexact HO
    isplitl [Hp]; · iexact Hp
    iexact Hrest
  hin c := by
    refine BIBase.Entails.trans ?_ (hin c)
    unfold Pipeline.ΦA
    iintro ⟨Hp, -, Hr⟩
    isplitl [Hr] <;> iassumption
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    unfold Pipeline.Dat.owesAt Pipeline.owesWithin
    rw [ho c]
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wout m ρ p Wi c b) _ (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := regAt m ρ 0 launch0 (W1 m ρ) (fun _ _ => rfl) (fun _ _ => rfl) (fun _ _ => trivial) (A_eq0 (V1 m ρ))
  (body_obligation0 (V1 m ρ)) (hin0 (V1 m ρ)) (hout0 (V1 m ρ))
def reg1 := regAt m ρ 1 launch1 (W2 m ρ) (fun _ _ => rfl) (fun _ _ => rfl) (fun _ _ => trivial) (A_eq1 (V2 m ρ))
  (body_obligation1 (V2 m ρ)) (hin1 (V2 m ρ)) (hout1 (V2 m ρ))
def reg2 := regAt m ρ 2 launch2 (W4 m ρ) (fun _ _ => rfl) (fun _ _ => rfl) (fun _ _ => trivial) (A_eq2 (V4 m ρ))
  (body_obligation2 (V4 m ρ)) (hin2 (V4 m ρ)) (hout2 (V4 m ρ))
def reg3 := regAt m ρ 3 launch3 (W6 m ρ) (fun _ _ => rfl) (fun _ _ => rfl) (fun _ _ => trivial) (A_eq3 (V6 m ρ))
  (body_obligation3 (V6 m ρ)) (hin3 (V6 m ρ)) (hout3 (V6 m ρ))

abbrev segs : List (Pipeline.Seg (pcfgs (F := F)) adm (pdats m ρ) () defs₀ 𝒱₀ L lv) :=
  [ .host (hseg hostOps0 hostOps0_sub (by simp only [List.Forall]; repeat' constructor) (W0 m ρ)),
    .region (reg0 m ρ),
    .region (reg1 m ρ),
    .host (hseg hostOps2 hostOps2_sub (by simp only [List.Forall]; repeat' constructor) (W3 m ρ)),
    .region (reg2 m ρ),
    .host (hseg hostOps3 hostOps3_sub (by simp only [List.Forall]; repeat' constructor) (W5 m ρ)),
    .region (reg3 m ρ) ]

abbrev uInit := initOf (Pipeline.cells cfgs cellOf_inj) (Pipeline.launchToks cfgs cellOf_inj)
abbrev Tₙ (c : Dev nD) : sProp 𝕄 := iprop(StableHlo.held (c : Thread nD τ) (Pipeline.ucRefs τ sig) (W7 m ρ c) ∗ ∃ r, prngReg c r)

theorem run_final : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [(main_chain c).trans (by chain_rfl : _ = Pipeline.Seg.run (segs m ρ))])
    (by simp only [segs, Pipeline.Seg.pipes_host, Pipeline.Seg.pipes_region, Pipeline.Seg.pipes_nil]; decide)
    (O₀ := 0) (hL := fun _ _ => rfl) (G := fun _ => BI.emp)
    (u₀ := uInit)
    (hu₀ := by
      rw [BI.bigSep_emp_const]
      iintro Hu; imodintro
      isplitl [Hu]
      · iapply (show (ownU uInit : sProp 𝕄) ⊢ BI.own (emb₁ uInit) from .rfl)
        iexact Hu
      iempintro)
    (T₀ := TW (W0 m ρ)) (Tₙ := Tₙ m ρ)
    (hch := ⟨fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c => by
    have key (b : Ref sig .tc) (hs : ¬(Proc.devRef .tc b : DevRef τ sig).isScoped) (hb : IsArg b) :=
      (h c _ (mem_uc b hs)).trans (W7_arg m ρ c b hb)
    exact ⟨key main_arg0 (by decide) (by decide), key main_arg1 (by decide) (by decide), key main_arg2 (by decide) (by decide),
      key main_arg3 (by decide) (by decide), key main_arg4 (by decide) (by decide), key main_arg5 (by decide) (by decide),
      key main_arg6 (by decide) (by decide), key main_arg7 (by decide) (by decide)⟩) (run_final m ρ)

end Cert.Kernel.Hand

end
-- ==== Proof.KI.Data.lean ====
import proofs.«424244_j62423054680132_3_alg».proof.Proof.Gen.KernelIdeal.Launch
import proofs.«424244_j62423054680132_3_alg».proof.Proof.Gen.KernelIdeal.Skeleton
import proofs.«424244_j62423054680132_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scM0 : Memref sig .tc .vmem S5000x128 .f32 := Memref.whole cc0_scratch0

def acc0 (c : Dev nD) : (n : ℕ) → n < cfg0.N → Vec F S5000x128 .f32
  | 0, hn => k0_pay2 (iblk0 V c 0 ⟨0, hn⟩) (iblk0 V c 1 ⟨0, hn⟩) (iblk0 V c 2 ⟨0, hn⟩) (iblk0 V c 3 ⟨0, hn⟩) (iblk0 V c 4 ⟨0, hn⟩) k0_pay1
  | n + 1, hn => k0_pay2 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
      (if (n + 1) % 5 = 0 then k0_pay1 else acc0 c n (Nat.lt_of_succ_lt hn))

def out0 (c : Dev nD) (t : Fin cfg0.N) : Vec F S5000x128 .f32 := k0_pay3 (acc0 V c t.val t.isLt)

def PhiS0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1 (c : Dev nD) (t : Fin cfg1.N) : Vec F S1x5000x64 .f32 := k1_pay1 (iblk1 V c 0 t) (iblk1 V c 1 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S5000x64 .f32 := Memref.whole cc2_scratch0

def acc2 (c : Dev nD) : (n : ℕ) → n < cfg2.N → Vec F S5000x64 .f32
  | 0, hn => k2_pay2 (iblk2 V c 0 ⟨0, hn⟩) (iblk2 V c 1 ⟨0, hn⟩) (iblk2 V c 2 ⟨0, hn⟩) (iblk2 V c 3 ⟨0, hn⟩) k2_pay1
  | n + 1, hn => k2_pay2 (iblk2 V c 0 ⟨n + 1, hn⟩) (iblk2 V c 1 ⟨n + 1, hn⟩) (iblk2 V c 2 ⟨n + 1, hn⟩) (iblk2 V c 3 ⟨n + 1, hn⟩)
      (if (n + 1) % 5 = 0 then k2_pay1 else acc2 c n (Nat.lt_of_succ_lt hn))

def out2 (c : Dev nD) (t : Fin cfg2.N) : Vec F S5000x64 .f32 := acc2 V c t.val t.isLt

def PhiS2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3_0 : Memref sig .tc .vmem S64x64 .f32 := Memref.whole cc3_scratch0
abbrev scM3_1 : Memref sig .tc .vmem S64x1 .f32 := Memref.whole cc3_scratch1

def sums3 (c : Dev nD) : (n : ℕ) → n < cfg3.N → Vec F S64x64 .f32
  | 0, hn => k3_pay4 (iblk3 V c 0 ⟨0, hn⟩) (iblk3 V c 1 ⟨0, hn⟩) k3_pay1
  | n + 1, hn => k3_pay4 (iblk3 V c 0 ⟨n + 1, hn⟩) (iblk3 V c 1 ⟨n + 1, hn⟩) (sums3 c n (Nat.lt_of_succ_lt hn))

def cnt3 (c : Dev nD) : (n : ℕ) → n < cfg3.N → Vec F S64x1 .f32
  | 0, hn => k3_pay5 (iblk3 V c 1 ⟨0, hn⟩) k3_pay2
  | n + 1, hn => k3_pay5 (iblk3 V c 1 ⟨n + 1, hn⟩) (cnt3 c n (Nat.lt_of_succ_lt hn))

def out3 (c : Dev nD) (t : Fin cfg3.N) : Vec F S64x64 .f32 := k3_pay6 (sums3 V c t.val t.isLt) (cnt3 V c t.val t.isLt)

def PhiS3 (c : Dev nD) : (n : ℕ) → n ≤ cfg3.N → sProp 𝕄
  | 0, _ => Pipeline.ΦA spec3 c
  | n + 1, hn => iprop(owns (c : Thread nD τ) scM3_0 fullShare (sums3 V c n hn)
      ∗ owns (c : Thread nD τ) scM3_1 fullShare (cnt3 V c n hn)
      ∗ Pipeline.scopedRestBut (Ix := Unit) (Name := ℕ) (U := UR sig nD τ) (Lvl := ℕ) (Val := Elt F) spec3 c [cc3_scratch0, cc3_scratch1]
      ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

end Cert.KernelIdeal.Hand

end
-- ==== Proof.KI.Folds.lean ====
import proofs.«424244_j62423054680132_3_alg».proof.Proof.KI.Data

noncomputable section

namespace Cert.KernelIdeal.Hand

open Idealize.ShloMosaic Idealize.ShloMosaic.TcCoe Idealize.SL.Sem
open Idealize.ShloMosaic.Pipeline (Dat Cfg)
open Cert.KernelIdeal Cert.KernelIdeal.Gen

variable {F : FTy → Type} [FloatOps F]
variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (dat1 (V2 m ρ) c).arrAt w cfg1.N
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
def W7 (c : Dev nD) : Valuation τ sig (Elt F) :=
  Pipeline.withArrays spec3 c (W6 m ρ c) fun w => (dat3 (V6 m ρ) c).arrAt w cfg3.N

theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W3_arr (c : Dev nD) (w : Fin cfg1.W) :
    W3 m ρ c (Proc.devRef .tc (Pipeline.arrRef spec1 w)) = (dat1 (V2 m ρ) c).arrAt w cfg1.N :=
  Pipeline.withArrays_arr spec1 launch1.win.arr_inj c _ _ w
theorem W5_arr (c : Dev nD) (w : Fin cfg2.W) :
    W5 m ρ c (Proc.devRef .tc (Pipeline.arrRef spec2 w)) = (dat2 (V4 m ρ) c).arrAt w cfg2.N :=
  Pipeline.withArrays_arr spec2 launch2.win.arr_inj c _ _ w
theorem W7_arr (c : Dev nD) (w : Fin cfg3.W) :
    W7 m ρ c (Proc.devRef .tc (Pipeline.arrRef spec3 w)) = (dat3 (V6 m ρ) c).arrAt w cfg3.N :=
  Pipeline.withArrays_arr spec3 launch3.win.arr_inj c _ _ w

theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W3_of_ne (c : Dev nD) (b : Ref sig .tc) (hb : ∀ w, Pipeline.arrRef spec1 w ≠ b) :
    W3 m ρ c (Proc.devRef .tc b) = W2 m ρ c (Proc.devRef .tc b) :=
  Pipeline.withArrays_of_ne spec1 c _ _ b hb
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb

theorem keeps (ops : List (HloOp τ sig (Elt F))) (W : Valuation τ sig (Elt F)) (b : Ref sig .tc)
    (h : ops.Forall fun op => Proc.devRef .tc b ∉ op.writes) :
    StableHlo.after ops W (Proc.devRef .tc b) = W (Proc.devRef .tc b) :=
  StableHlo.after_of_forall_not_mem _ _ (List.forall_iff_forall_mem.mp h)
theorem keeps_hostOps0 (W : Valuation τ sig (Elt F)) (b : Ref sig .tc)
    (h : (hostOps0 (F := F)).Forall fun op => Proc.devRef .tc b ∉ op.writes) :
    StableHlo.after hostOps0 W (Proc.devRef .tc b) = W (Proc.devRef .tc b) := keeps _ W b h
theorem keeps_hostOps2 (W : Valuation τ sig (Elt F)) (b : Ref sig .tc)
    (h : (hostOps2 (F := F)).Forall fun op => Proc.devRef .tc b ∉ op.writes) :
    StableHlo.after hostOps2 W (Proc.devRef .tc b) = W (Proc.devRef .tc b) := keeps _ W b h
theorem keeps_hostOps3 (W : Valuation τ sig (Elt F)) (b : Ref sig .tc)
    (h : (hostOps3 (F := F)).Forall fun op => Proc.devRef .tc b ∉ op.writes) :
    StableHlo.after hostOps3 W (Proc.devRef .tc b) = W (Proc.devRef .tc b) := keeps _ W b h

theorem keeps_call {cfg : Cfg sig Λ₀} {c : Dev nD} (d : Dat τ (Elt F) Unit ℕ (UR sig nD τ) ℕ cfg c)
    (hinj : Function.Injective (Pipeline.arrRef cfg.spec)) (W : Valuation τ sig (Elt F))
    (hA : ∀ w, d.A w = W (Proc.devRef .tc (Pipeline.arrRef cfg.spec w))) (b : Ref sig .tc)
    (hb : ∀ w, Pipeline.arrRef cfg.spec w = b → (cfg.win w).isOut = false) :
    Pipeline.withArrays cfg.spec c W (d.arrAt · cfg.N) (Proc.devRef .tc b) = W (Proc.devRef .tc b) := by
  by_cases h : ∃ w, Pipeline.arrRef cfg.spec w = b
  · obtain ⟨w, rfl⟩ := h
    rw [Pipeline.withArrays_arr _ hinj, d.arrAt_in w (hb w rfl), hA]
  · exact Pipeline.withArrays_of_ne _ c W _ b fun w e => h ⟨w, e⟩

-- What singles out the eight arguments among the references; no operation's result and no call's output array satisfies it.
abbrev IsArg (b : Ref sig .tc) : Prop := b.space = .hbm ∧ b.idx.val < 8

theorem arg_kept (b : Ref sig .tc) (hb : IsArg b) (W : Valuation τ sig (Elt F)) :
    StableHlo.after hostOps0 W (Proc.devRef .tc b) = W (Proc.devRef .tc b)
    ∧ StableHlo.after hostOps2 W (Proc.devRef .tc b) = W (Proc.devRef .tc b)
    ∧ StableHlo.after hostOps3 W (Proc.devRef .tc b) = W (Proc.devRef .tc b) := by
  refine ⟨keeps _ W _ ?_, keeps _ W _ ?_, keeps _ W _ ?_⟩ <;>
  · simp only [hostOps0, hostOps2, hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne fun e => absurd (e ▸ hb) (by decide)

theorem W7_arg (c : Dev nD) (b : Ref sig .tc) (hb : IsArg b) :
    W7 m ρ c (Proc.devRef .tc b) = m ((c : Thread nD τ).loc b) :=
  (keeps_call (dat3 (V6 m ρ) c) launch3.win.arr_inj (W6 m ρ c) (fun _ => rfl) _ fun w e => (by decide : ∀ w, IsArg (Pipeline.arrRef cfg3.spec w) → (cfg3.win w).isOut = false) w (e ▸ hb)).trans <|
  (arg_kept b hb (W5 m ρ c)).2.2.trans <|
  (keeps_call (dat2 (V4 m ρ) c) launch2.win.arr_inj (W4 m ρ c) (fun _ => rfl) _ fun w e => (by decide : ∀ w, IsArg (Pipeline.arrRef cfg2.spec w) → (cfg2.win w).isOut = false) w (e ▸ hb)).trans <|
  (arg_kept b hb (W3 m ρ c)).2.1.trans <|
  (keeps_call (dat1 (V2 m ρ) c) launch1.win.arr_inj (W2 m ρ c) (fun _ => rfl) _ fun w e => (by decide : ∀ w, IsArg (Pipeline.arrRef cfg1.spec w) → (cfg1.win w).isOut = false) w (e ▸ hb)).trans <|
  (keeps_call (dat0 (V1 m ρ) c) launch0.win.arr_inj (W1 m ρ c) (fun _ => rfl) _ fun w e => (by decide : ∀ w, IsArg (Pipeline.arrRef cfg0.spec w) → (cfg0.win w).isOut = false) w (e ▸ hb)).trans <|
  (arg_kept b hb (W0 m ρ c)).1

end Cert.KernelIdeal.Hand

end
-- ==== Proof.KI.Body0.lean ====
import proofs.«424244_j62423054680132_3_alg».proof.Proof.KI.Data
import proofs.«424244_j62423054680132_3_alg».proof.Proof.BodyLib

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_reset (i : grid0.Coords) : Prop :=
  Scalar.cmpi .ne (Scalar.extui (Scalar.cmpi .eq (BitVec.ofNat 32 (i 1).val) 0#32)) 0#32 = 1#1

abbrev cond0_last (i : grid0.Coords) : Prop := k0_cond2 i = 1#1

theorem hcond0_reset : ∀ t : Fin cfg0.N, cond0_reset (grid0.coords t) ↔ t.val % 5 = 0 :=
  (by decide +kernel : ∀ t : Fin grid0.N, cond0_reset (grid0.coords t) ↔ t.val % 5 = 0)

-- One statement for every edge type: the seed of the update and what the output buffer ends at are chosen by the two conditions.
theorem run0 (c : Dev nD) (i : grid0.Coords) (arg2 : Memref sig .tc .vmem S1x5000x23 .f32) (harg2 : arg2.IsWhole) (arg3 : Memref sig .tc .vmem S5000x23 .f32) (harg3 : arg3.IsWhole) (arg4 : Memref sig .tc .vmem S1x5000x1 .f32) (harg4 : arg4.IsWhole) (arg5 : Memref sig .tc .vmem S1x23x128 .f32) (harg5 : arg5.IsWhole) (arg6 : Memref sig .tc .vmem S1x1x128 .f32) (harg6 : arg6.IsWhole) (arg7 : Memref sig .tc .vmem S5000x128 .f32) (harg7 : arg7.IsWhole) (arg8 : Memref sig .tc .vmem S5000x128 .f32) (harg8 : arg8.IsWhole)
    (x0 : Vec F S1x5000x23 .f32) (x1 : Vec F S5000x23 .f32) (x2 : Vec F S1x5000x1 .f32) (x3 : Vec F S1x23x128 .f32) (x4 : Vec F S1x1x128 .f32) (y xs a : Vec F S5000x128 .f32)
    (ha : a = k0_pay2 x0 x1 x2 x3 x4 (if cond0_reset i then k0_pay1 else xs)) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if cond0_last i then k0_pay3 a else y)
            ∗ owns (c : Thread nD τ) arg8 fullShare a) -∗ K ⟨⟩))
      ⊢ wp frame (wpE (defs₀ (F := F)) Variants.none c none) Set.univ
          (cc0__sage_combine1_kernel i arg2 harg2 arg3 harg3 arg4 harg4 arg5 harg5 arg6 harg6 arg7 harg7 arg8 harg8) K := by
  subst ha
  simp only [cc0__sage_combine1_kernel_eq_skeleton]; unfold cc0__sage_combine1_kernel_skel
  unfold owns
  by_cases h1 : cond0_reset i <;> by_cases h2 : cond0_last i <;>
    (first | rw [if_pos h1] | rw [if_neg h1]) <;> (first | rw [if_pos h2] | rw [if_neg h2])
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    subst hf0 hf1 hf2 hf3 hf4 hf5 hfs
    sl_exec (disch := first | exact h1 | exact h2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr
      swap; · iexact H5
      ipureintro
      first
        | rfl
        | refine (read_writes_whole _ _ _ _ _).trans ?_
          sl_unfold_run_names
          repeat (first | rw [readAt_whole] | rw [View.readCov_cons_toLoadRect])
    iexists _; isplitr
    swap; · iexact HS
    ipureintro
    refine (read_writes_whole _ _ _ _ _).trans ?_
    sl_unfold_run_names
    repeat (first | rw [readAt_whole] | rw [View.readCov_cons_toLoadRect])

theorem before0 (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t)
      ∧ (∀ d, (dat0 V c).before 4 t d = iblk0 V c 4 t) := by
  refine ⟨?_, ?_, ?_, ?_, ?_⟩ <;> intro d <;>
    exact ((dat0 V c).before_in_eq_fetched _ rfl (fun _ => rfl) (fun _ _ _ => rfl) (fun _ => rfl) t d).trans rfl

-- The accumulator's recursion unfolded once, with the seed spelt as the body's run spells it.
theorem acc0_eq (c : Dev nD) (t : Fin cfg0.N) (xs : Vec F S5000x128 .f32)
    (hxs : ¬t.val % 5 = 0 → xs = acc0 V c (t.val - 1) (Nat.lt_of_le_of_lt (Nat.sub_le _ _) t.isLt)) :
    acc0 V c t.val t.isLt = k0_pay2 (iblk0 V c 0 t) (iblk0 V c 1 t) (iblk0 V c 2 t) (iblk0 V c 3 t) (iblk0 V c 4 t)
      (if cond0_reset (grid0.coords t) then k0_pay1 else xs) := by
  by_cases h : t.val % 5 = 0
  · rw [if_pos ((hcond0_reset t).mpr h)]
    obtain ⟨n, hn⟩ := t
    cases n with
    | zero => rw [acc0]
    | succ n => rw [acc0, if_pos h]
  · rw [if_neg (mt (hcond0_reset t).mp h), hxs h]
    obtain ⟨n, hn⟩ := t
    cases n with
    | zero => exact absurd (Nat.zero_mod _) h
    | succ n => rw [acc0, if_neg h]; rfl

abbrev rest0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

theorem PhiA0_split (c : Dev nD) :
    (Pipeline.ΦA spec0 c : sProp 𝕄) = iprop(((∃ d, owns (c : Thread nD τ) scM0 fullShare d)
      ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

-- Opening the invariant before a point: the scratch at some contents, known unless the point resets it.
theorem PhiS0_open (c : Dev nD) (t : Fin cfg0.N) :
    (dat0 V c).Φ t.castSucc ⊢ iprop(∃ xs, ⌜¬t.val % 5 = 0 → xs = acc0 V c (t.val - 1) (Nat.lt_of_le_of_lt (Nat.sub_le _ _) t.isLt)⌝
      ∗ owns (c : Thread nD τ) scM0 fullShare xs ∗ rest0 c) := by
  obtain ⟨n, hn⟩ := t
  cases n with
  | zero =>
    rw [show (dat0 V c).Φ (Fin.castSucc ⟨0, hn⟩) = Pipeline.ΦA spec0 c from rfl, PhiA0_split]
    iintro ⟨⟨⟨%d, HS⟩, HR⟩, Hg⟩
    iexists d; isplitr; · ipureintro; exact fun h => absurd (Nat.zero_mod 5) h
    unfold rest0; iframe
  | succ n =>
    rw [show (dat0 V c).Φ (Fin.castSucc ⟨n + 1, hn⟩)
      = iprop(owns (c : Thread nD τ) scM0 fullShare (acc0 V c n (Nat.lt_of_succ_lt hn)) ∗ rest0 c) from rfl]
    iintro ⟨HS, HR⟩
    iexists acc0 V c n (Nat.lt_of_succ_lt hn); isplitr; · ipureintro; exact fun _ => rfl
    iframe

-- Forgetting the accumulator's value gives back the invariant the region started from.
theorem PhiS0_close (c : Dev nD) : ∀ (n : ℕ) (h : n ≤ cfg0.N), n ≠ 0 → PhiS0 V c n h ⊢ Pipeline.ΦA spec0 c
  | 0, _, hz => absurd rfl hz
  | n + 1, h, _ => by
    rw [PhiA0_split]; unfold PhiS0
    iintro ⟨HS, HR, Hg⟩
    iframe HR Hg
    iexists _; iexact HS

theorem idleAt0_5 : ∀ t : Fin cfg0.N, ¬cond0_last (grid0.coords t) → cfg0.idle 5 (grid0.coords t) = true := by decide +kernel
theorem noFlush0_5 : ∀ t : Fin cfg0.N, ¬cond0_last (grid0.coords t) → (cfg0.win 5).flush t = false := by decide +kernel
theorem liveAt0_5 : ∀ t : Fin cfg0.N, cond0_last (grid0.coords t) → cfg0.idle 5 (grid0.coords t) = false := by decide +kernel

abbrev ms0_0 (t : Fin cfg0.N) : Memref sig .tc .vmem S1x5000x23 .f32 := win0_0.stage (cfg0.slots t 0)
abbrev ms0_1 (t : Fin cfg0.N) : Memref sig .tc .vmem S5000x23 .f32 := win0_1.stage (cfg0.slots t 1)
abbrev ms0_2 (t : Fin cfg0.N) : Memref sig .tc .vmem S1x5000x1 .f32 := win0_2.stage (cfg0.slots t 2)
abbrev ms0_3 (t : Fin cfg0.N) : Memref sig .tc .vmem S1x23x128 .f32 := win0_3.stage (cfg0.slots t 3)
abbrev ms0_4 (t : Fin cfg0.N) : Memref sig .tc .vmem S1x1x128 .f32 := win0_4.stage (cfg0.slots t 4)
abbrev ms0_5 (t : Fin cfg0.N) : Memref sig .tc .vmem S5000x128 .f32 := win0_5.stage (cfg0.slots t 5)

-- Both cases of the output buffer's postcondition, chosen by the same condition as the store.
theorem leaves0_5 (c : Dev nD) (t : Fin cfg0.N) (d) :
    owns (c : Thread nD τ) (ms0_5 t) fullShare
        (if cond0_last (grid0.coords t) then k0_pay3 (acc0 V c t.val t.isLt) else (dat0 V c).before 5 t d)
      ⊢ (dat0 V c).leavesExact 5 t := by
  by_cases h : cond0_last (grid0.coords t)
  · exact Entails.of_eq (by rw [if_pos h]; unfold Dat.leavesExact; rw [liveAt0_5 t h]; rfl)
  · rw [if_neg h, Dat.leavesExact_idle (dat0 V c) 5 t (idleAt0_5 t h) (noFlush0_5 t h)]
    iintro H; iexists d; iexact H

theorem sound_body0 (c : Dev nD) (t : Fin cfg0.N) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))
      ∗ (∃ d, owns (c : Thread nD τ) (ms0_4 t) fullShare ((dat0 V c).before 4 t d))
      ∗ (∃ d, owns (c : Thread nD τ) (ms0_5 t) fullShare ((dat0 V c).before 5 t d)))
    ⊢ wp frame (wpE (defs₀ (F := F)) Variants.none c none) Set.univ (bodyAt0 t) (fun _ =>
      iprop((owns (c : Thread nD τ) scM0 fullShare (acc0 V c t.val t.isLt) ∗ rest0 c) ∗ (dat0 V c).owesAt () t.castSucc
        ∗ owns (c : Thread nD τ) (ms0_0 t) fullShare (iblk0 V c 0 t)
        ∗ owns (c : Thread nD τ) (ms0_1 t) fullShare (iblk0 V c 1 t)
        ∗ owns (c : Thread nD τ) (ms0_2 t) fullShare (iblk0 V c 2 t)
        ∗ owns (c : Thread nD τ) (ms0_3 t) fullShare (iblk0 V c 3 t)
        ∗ owns (c : Thread nD τ) (ms0_4 t) fullShare (iblk0 V c 4 t)
        ∗ (dat0 V c).leavesExact 5 t)) := by
  obtain ⟨b0, b1, b2, b3, b4⟩ := before0 V c t
  simp only [b0, b1, b2, b3, b4]
  refine (sep_mono (PhiS0_open V c t) .rfl).trans ?_
  iintro ⟨⟨%xs, %hxs, HS, HR⟩, Ho, ⟨%d0, H0⟩, ⟨%d1, H1⟩, ⟨%d2, H2⟩, ⟨%d3, H3⟩, ⟨%d4, H4⟩, ⟨%d5, H5⟩⟩
  iapply (run0 c (grid0.coords t) _ _ _ _ _ _ _ _ _ _ _ _ _ _ (iblk0 V c 0 t) (iblk0 V c 1 t) (iblk0 V c 2 t) (iblk0 V c 3 t)
    (iblk0 V c 4 t) ((dat0 V c).before 5 t d5) xs _ (acc0_eq V c t xs hxs) _)
  iframe H0 H1 H2 H3 H4 H5 HS
  iintro ⟨H0, H1, H2, H3, H4, H5, HS⟩
  isplitl [HS HR]; · iframe
  iframe Ho H0 H1 H2 H3 H4
  iapply (leaves0_5 V c t d5)
  iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c :=
  PhiS0_close V c cfg0.N (Nat.le_refl _) (by rw [show cfg0.N = 100 from N_0]; decide)

end Cert.KernelIdeal.Hand

end
-- ==== Proof.KI.Body1.lean ====
import proofs.«424244_j62423054680132_3_alg».proof.Proof.KI.Data
import proofs.«424244_j62423054680132_3_alg».proof.Proof.BodyLib

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The output block is the product of the two input blocks, which are left unchanged.
theorem sound_kernel1 (c : Dev nD) (E : Set ℕ) (i : grid1.Coords)
    (arg2 : Memref sig .tc .vmem S5000x128 .f32) (harg2 : arg2.IsWhole) (arg3 : Memref sig .tc .vmem S1x128x64 .f32) (harg3 : arg3.IsWhole)
    (arg4 : Memref sig .tc .vmem S1x5000x64 .f32) (harg4 : arg4.IsWhole)
    (x0 : Vec F S5000x128 .f32) (x1 : Vec F S1x128x64 .f32) (d : Vec F S1x5000x64 .f32) (K : PUnit → sProp 𝕄) :
    iprop(owns (c : Thread nD τ) arg2 fullShare x0 ∗ owns (c : Thread nD τ) arg3 fullShare x1 ∗ owns (c : Thread nD τ) arg4 fullShare d
        ∗ (iprop(owns (c : Thread nD τ) arg2 fullShare x0 ∗ owns (c : Thread nD τ) arg3 fullShare x1
            ∗ owns (c : Thread nD τ) arg4 fullShare (k1_pay1 x0 x1)) -∗ K ⟨⟩))
      ⊢ wp frame (wpE (defs₀ (F := F)) Variants.none c none) E (cc1__pretransform_kernel i arg2 harg2 arg3 harg3 arg4 harg4) K := by
  simp only [cc1__pretransform_kernel_eq_skeleton]; unfold cc1__pretransform_kernel_skel owns
  iintro ⟨⟨%f0, %hf0, H0⟩, ⟨%f1, %hf1, H1⟩, ⟨%f2, -, H2⟩, Hk⟩
  sl_exec
  sl_step
  iapply Hk
  isplitl [H0]
  · iexists _; iframe H0; ipureintro; exact hf0
  isplitl [H1]
  · iexists _; iframe H1; ipureintro; exact hf1
  iexists _; iframe H2; ipureintro
  rw [read_writes_whole, readAt_whole, readAt_whole, hf0, hf1]

theorem before1 (c : Dev nD) (t : Fin cfg1.N) :
    (∀ d, (dat1 V c).before 0 t d = iblk1 V c 0 t) ∧ ∀ d, (dat1 V c).before 1 t d = iblk1 V c 1 t := by
  constructor <;> intro d <;>
    exact (dat1 V c).before_in_eq_fetched _ rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [(before1 V c t).1, (before1 V c t).2]
  rw [show (dat1 V c).Φ t.succ = (dat1 V c).Φ t.castSucc from rfl,
    show (dat1 V c).owesAt () t.succ = (dat1 V c).owesAt () t.castSucc from rfl,
    show (dat1 V c).after 0 t = iblk1 V c 0 t from rfl, show (dat1 V c).after 1 t = iblk1 V c 1 t from rfl,
    show (dat1 V c).after 2 t = out1 V c t from rfl, out1]
  iintro ⟨HΦ, Ho, ⟨%d0, H0⟩, ⟨%d1, H1⟩, ⟨%d2, H2⟩⟩
  iapply (sound_kernel1 c Set.univ (grid1.coords t) _ (stage_whole1 0 _) _ (stage_whole1 1 _) _ (stage_whole1 2 _) _ _ _ _)
  iframe H0 H1 H2
  iintro ⟨H0, H1, H2⟩
  iframe HΦ Ho H0 H1 H2

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.KernelIdeal.Hand

end
-- ==== Proof.KI.Body2.lean ====
import proofs.«424244_j62423054680132_3_alg».proof.Proof.KI.Data
import proofs.«424244_j62423054680132_3_alg».proof.Proof.BodyLib

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_reset (i : grid2.Coords) : Prop :=
  Scalar.cmpi .ne (Scalar.extui (Scalar.cmpi .eq (BitVec.ofNat 32 (i 1).val) 0#32)) 0#32 = 1#1

abbrev cond2_last (i : grid2.Coords) : Prop := k2_cond2 i = 1#1

theorem hcond2_reset : ∀ t : Fin cfg2.N, cond2_reset (grid2.coords t) ↔ t.val % 5 = 0 :=
  (by decide +kernel : ∀ t : Fin grid2.N, cond2_reset (grid2.coords t) ↔ t.val % 5 = 0)

-- One statement for every edge type: the seed of the update and what the output buffer ends at are chosen by the two conditions.
theorem run2 (c : Dev nD) (i : grid2.Coords) (arg2 : Memref sig .tc .vmem S1x5000x64 .f32) (harg2 : arg2.IsWhole) (arg3 : Memref sig .tc .vmem S1x5000x64 .f32) (harg3 : arg3.IsWhole) (arg4 : Memref sig .tc .vmem S1x5000x1 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole)
    (x0 : Vec F S1x5000x64 .f32) (x1 : Vec F S1x5000x64 .f32) (x2 : Vec F S1x5000x1 .f32) (x3 : Vec F S1x1x64 .f32) (y xs a : Vec F S5000x64 .f32)
    (ha : a = k2_pay2 x0 x1 x2 x3 (if cond2_reset i then k2_pay1 else xs)) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (if cond2_last i then a else y)
            ∗ owns (c : Thread nD τ) arg7 fullShare a) -∗ K ⟨⟩))
      ⊢ wp frame (wpE (defs₀ (F := F)) Variants.none c none) Set.univ
          (cc2__sage_combine2_kernel i arg2 harg2 arg3 harg3 arg4 harg4 arg5 harg5 arg6 harg6 arg7 harg7) K := by
  subst ha
  simp only [cc2__sage_combine2_kernel_eq_skeleton]; unfold cc2__sage_combine2_kernel_skel
  unfold owns
  by_cases h1 : cond2_reset i <;> by_cases h2 : cond2_last i <;>
    (first | rw [if_pos h1] | rw [if_neg h1]) <;> (first | rw [if_pos h2] | rw [if_neg h2])
  all_goals
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    subst hf0 hf1 hf2 hf3 hf4 hfs
    sl_exec (disch := first | exact h1 | exact h2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr
      swap; · iexact H4
      ipureintro
      first
        | rfl
        | refine (read_writes_whole _ _ _ _ _).trans ?_
          sl_unfold_run_names
          repeat (first | rw [readAt_whole] | rw [View.readCov_cons_toLoadRect])
    iexists _; isplitr
    swap; · iexact HS
    ipureintro
    refine (read_writes_whole _ _ _ _ _).trans ?_
    sl_unfold_run_names
    repeat (first | rw [readAt_whole] | rw [View.readCov_cons_toLoadRect])

theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ (∀ d, (dat2 V c).before 3 t d = iblk2 V c 3 t) := by
  refine ⟨?_, ?_, ?_, ?_⟩ <;> intro d <;>
    exact ((dat2 V c).before_in_eq_fetched _ rfl (fun _ => rfl) (fun _ _ _ => rfl) (fun _ => rfl) t d).trans rfl

-- The accumulator's recursion unfolded once, with the seed spelt as the body's run spells it.
theorem acc2_eq (c : Dev nD) (t : Fin cfg2.N) (xs : Vec F S5000x64 .f32)
    (hxs : ¬t.val % 5 = 0 → xs = acc2 V c (t.val - 1) (Nat.lt_of_le_of_lt (Nat.sub_le _ _) t.isLt)) :
    acc2 V c t.val t.isLt = k2_pay2 (iblk2 V c 0 t) (iblk2 V c 1 t) (iblk2 V c 2 t) (iblk2 V c 3 t)
      (if cond2_reset (grid2.coords t) then k2_pay1 else xs) := by
  by_cases h : t.val % 5 = 0
  · rw [if_pos ((hcond2_reset t).mpr h)]
    obtain ⟨n, hn⟩ := t
    cases n with
    | zero => rfl
    | succ n => exact congrArg (k2_pay2 _ _ _ _) (if_pos h)
  · rw [if_neg (mt (hcond2_reset t).mp h), hxs h]
    obtain ⟨n, hn⟩ := t
    cases n with
    | zero => exact absurd (Nat.zero_mod _) h
    | succ n => exact congrArg (k2_pay2 _ _ _ _) (if_neg h)

abbrev rest2 (c : Dev nD) : sProp 𝕄 :=
  iprop(Pipeline.scopedRestBut (Ix := Unit) (Name := ℕ) (U := UR sig nD τ) (Lvl := ℕ) (Val := Elt F) spec2 c [cc2_scratch0] ∗ (∃ r, prngReg c r))

theorem PhiA2_split (c : Dev nD) :
    (Pipeline.ΦA spec2 c : sProp 𝕄) = iprop(((∃ d, owns (c : Thread nD τ) scM2 fullShare d)
      ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

-- Opening the invariant before a point: the scratch at some contents, known unless the point resets it.
theorem PhiS2_open (c : Dev nD) (t : Fin cfg2.N) :
    (dat2 V c).Φ t.castSucc ⊢ iprop(∃ xs, ⌜¬t.val % 5 = 0 → xs = acc2 V c (t.val - 1) (Nat.lt_of_le_of_lt (Nat.sub_le _ _) t.isLt)⌝
      ∗ owns (c : Thread nD τ) scM2 fullShare xs ∗ rest2 c) := by
  obtain ⟨n, hn⟩ := t
  cases n with
  | zero =>
    rw [show (dat2 V c).Φ (Fin.castSucc ⟨0, hn⟩) = Pipeline.ΦA spec2 c from rfl, PhiA2_split]
    iintro ⟨⟨⟨%d, HS⟩, HR⟩, Hg⟩
    iexists d; isplitr; · ipureintro; exact fun h => absurd (Nat.zero_mod 5) h
    unfold rest2; iframe
  | succ n =>
    rw [show (dat2 V c).Φ (Fin.castSucc ⟨n + 1, hn⟩)
      = iprop(owns (c : Thread nD τ) scM2 fullShare (acc2 V c n (Nat.lt_of_succ_lt hn)) ∗ rest2 c) from rfl]
    iintro ⟨HS, HR⟩
    iexists acc2 V c n (Nat.lt_of_succ_lt hn); isplitr; · ipureintro; exact fun _ => rfl
    iframe

-- Forgetting the accumulator's value gives back the invariant the region started from.
theorem PhiS2_close (c : Dev nD) : ∀ (n : ℕ) (h : n ≤ cfg2.N), n ≠ 0 → PhiS2 V c n h ⊢ Pipeline.ΦA spec2 c
  | 0, _, hz => absurd rfl hz
  | n + 1, h, _ => by
    rw [PhiA2_split]; unfold PhiS2
    iintro ⟨HS, HR, Hg⟩
    iframe HR Hg
    iexists _; iexact HS

theorem idleAt2_4 : ∀ t : Fin cfg2.N, ¬cond2_last (grid2.coords t) → cfg2.idle 4 (grid2.coords t) = true := by decide +kernel
theorem noFlush2_4 : ∀ t : Fin cfg2.N, ¬cond2_last (grid2.coords t) → (cfg2.win 4).flush t = false := by decide +kernel
theorem liveAt2_4 : ∀ t : Fin cfg2.N, cond2_last (grid2.coords t) → cfg2.idle 4 (grid2.coords t) = false := by decide +kernel

abbrev ms2_0 (t : Fin cfg2.N) : Memref sig .tc .vmem S1x5000x64 .f32 := win2_0.stage (cfg2.slots t 0)
abbrev ms2_1 (t : Fin cfg2.N) : Memref sig .tc .vmem S1x5000x64 .f32 := win2_1.stage (cfg2.slots t 1)
abbrev ms2_2 (t : Fin cfg2.N) : Memref sig .tc .vmem S1x5000x1 .f32 := win2_2.stage (cfg2.slots t 2)
abbrev ms2_3 (t : Fin cfg2.N) : Memref sig .tc .vmem S1x1x64 .f32 := win2_3.stage (cfg2.slots t 3)
abbrev ms2_4 (t : Fin cfg2.N) : Memref sig .tc .vmem S5000x64 .f32 := win2_4.stage (cfg2.slots t 4)

-- Both cases of the output buffer's postcondition, chosen by the same condition as the store.
theorem leaves2_4 (c : Dev nD) (t : Fin cfg2.N) (d) :
    owns (c : Thread nD τ) (ms2_4 t) fullShare
        (if cond2_last (grid2.coords t) then acc2 V c t.val t.isLt else (dat2 V c).before 4 t d)
      ⊢ (dat2 V c).leavesExact 4 t := by
  by_cases h : cond2_last (grid2.coords t)
  · exact Entails.of_eq (by rw [if_pos h]; unfold Dat.leavesExact; rw [liveAt2_4 t h]; rfl)
  · rw [if_neg h, Dat.leavesExact_idle (dat2 V c) 4 t (idleAt2_4 t h) (noFlush2_4 t h)]
    iintro H; iexists d; iexact H

theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d))
      ∗ (∃ d, owns (c : Thread nD τ) (ms2_4 t) fullShare ((dat2 V c).before 4 t d)))
    ⊢ wp frame (wpE (defs₀ (F := F)) Variants.none c none) Set.univ (bodyAt2 t) (fun _ =>
      iprop((owns (c : Thread nD τ) scM2 fullShare (acc2 V c t.val t.isLt) ∗ rest2 c) ∗ (dat2 V c).owesAt () t.castSucc
        ∗ owns (c : Thread nD τ) (ms2_0 t) fullShare (iblk2 V c 0 t)
        ∗ owns (c : Thread nD τ) (ms2_1 t) fullShare (iblk2 V c 1 t)
        ∗ owns (c : Thread nD τ) (ms2_2 t) fullShare (iblk2 V c 2 t)
        ∗ owns (c : Thread nD τ) (ms2_3 t) fullShare (iblk2 V c 3 t)
        ∗ (dat2 V c).leavesExact 4 t)) := by
  obtain ⟨b0, b1, b2, b3⟩ := before2 V c t
  simp only [b0, b1, b2, b3]
  refine (sep_mono (PhiS2_open V c t) .rfl).trans ?_
  iintro ⟨⟨%xs, %hxs, HS, HR⟩, Ho, ⟨%d0, H0⟩, ⟨%d1, H1⟩, ⟨%d2, H2⟩, ⟨%d3, H3⟩, ⟨%d4, H4⟩⟩
  iapply (run2 c (grid2.coords t) _ _ _ _ _ _ _ _ _ _ _ _ (iblk2 V c 0 t) (iblk2 V c 1 t) (iblk2 V c 2 t) (iblk2 V c 3 t)
    ((dat2 V c).before 4 t d4) xs _ (acc2_eq V c t xs hxs) _)
  iframe H0 H1 H2 H3 H4 HS
  iintro ⟨H0, H1, H2, H3, H4, HS⟩
  isplitl [HS HR]; · iframe
  iframe Ho H0 H1 H2 H3
  iapply (leaves2_4 V c t d4)
  iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c :=
  PhiS2_close V c cfg2.N (Nat.le_refl _) (by rw [show cfg2.N = 100 from N_2]; decide)

end Cert.KernelIdeal.Hand

end
-- ==== Proof.KI.Body3.lean ====
import proofs.«424244_j62423054680132_3_alg».proof.Proof.KI.Data
import proofs.«424244_j62423054680132_3_alg».proof.Proof.BodyLib

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

theorem hcond3_0 : ∀ t : Fin cfg3.N, cond3_0 (grid3.coords t) ↔ t.val = 0 := by decide +kernel
theorem hcond3_1 : ∀ t : Fin cfg3.N, cond3_1 (grid3.coords t) ↔ t.val = 19 := by decide +kernel
theorem idleAt3_2 : ∀ t : Fin cfg3.N, ¬cond3_1 (grid3.coords t) → idle3 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → idle3 2 (grid3.coords t) = false := by decide +kernel

-- Sums and counts restart from zero where the first test holds and absorb the block; their quotient is written where the second holds.
theorem run3 (c : Dev nD) (i : grid3.Coords) (arg1 : Memref sig .tc .vmem S5000x64 .f32) (harg1 : arg1.IsWhole) (arg2 : Memref sig .tc .vmem S5000x1 .i32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole)
    (x0 : Vec F S5000x64 .f32) (x1 : Vec F S5000x1 .i32) (o s : Vec F S64x64 .f32) (n : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare o
        ∗ owns (c : Thread nD τ) arg4 fullShare s ∗ owns (c : Thread nD τ) arg5 fullShare n
        ∗ (iprop(owns (c : Thread nD τ) arg1 fullShare x0 ∗ owns (c : Thread nD τ) arg2 fullShare x1
            ∗ owns (c : Thread nD τ) arg3 fullShare (if cond3_1 i then k3_pay6 (k3_pay4 x0 x1 (if cond3_0 i then k3_pay1 else s)) (k3_pay5 x1 (if cond3_0 i then k3_pay2 else n)) else o)
            ∗ owns (c : Thread nD τ) arg4 fullShare (k3_pay4 x0 x1 (if cond3_0 i then k3_pay1 else s))
            ∗ owns (c : Thread nD τ) arg5 fullShare (k3_pay5 x1 (if cond3_0 i then k3_pay2 else n))) -∗ K ⟨⟩))
      ⊢ wp frame (wpE (defs₀ (F := F)) Variants.none c none) E (cc3__meanpool_kernel i arg1 harg1 arg2 harg2 arg3 harg3 arg4 harg4 arg5 harg5) K := by
  by_cases hc0 : cond3_0 i <;> by_cases hc1 : cond3_1 i <;>
    (first | rw [if_pos hc0, if_pos hc0] | rw [if_neg hc0, if_neg hc0]) <;> (first | rw [if_pos hc1] | rw [if_neg hc1]) <;>
    (simp only [cc3__meanpool_kernel_eq_skeleton]; unfold cc3__meanpool_kernel_skel owns
     iintro ⟨⟨%f1, %hf1, H1⟩, ⟨%f2, %hf2, H2⟩, ⟨%f3, %hf3, H3⟩, ⟨%f4, %hf4, H4⟩, ⟨%f5, %hf5, H5⟩, Hk⟩
     sl_exec (disch := first | exact hc0 | exact hc1)
     sl_step
     iapply Hk
     isplitl [H1]
     · iexists _; iframe H1; ipureintro; exact hf1
     isplitl [H2]
     · iexists _; iframe H2; ipureintro; exact hf2
     isplitl [H3]
     · iexists _; iframe H3; ipureintro; sl_unfold_run_names
       repeat first | rw [read_writes_whole] | rw [readAt_whole] | rw [View.readCov_cons_toLoadRect] | rw [hf1] | rw [hf2] | rw [hf3] | rw [hf4] | rw [hf5]
     isplitl [H4]
     · iexists _; iframe H4; ipureintro; sl_unfold_run_names
       repeat first | rw [read_writes_whole] | rw [readAt_whole] | rw [View.readCov_cons_toLoadRect] | rw [hf1] | rw [hf2] | rw [hf4]
     · iexists _; iframe H5; ipureintro; sl_unfold_run_names
       repeat first | rw [read_writes_whole] | rw [readAt_whole] | rw [View.readCov_cons_toLoadRect] | rw [hf2] | rw [hf5])

theorem before3 (c : Dev nD) (t : Fin cfg3.N) :
    (∀ d, (dat3 V c).before 0 t d = iblk3 V c 0 t) ∧ ∀ d, (dat3 V c).before 1 t d = iblk3 V c 1 t := by
  constructor <;> intro d <;>
    exact (dat3 V c).before_in_eq_fetched _ rfl (fun _ => rfl) (fun _ _ _ => rfl) (fun _ => rfl) t d

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

theorem after3 (c : Dev nD) (t : Fin cfg3.N) : (dat3 V c).after 0 t = iblk3 V c 0 t ∧ (dat3 V c).after 1 t = iblk3 V c 1 t
    ∧ (dat3 V c).after 2 t = out3 V c t := ⟨rfl, rfl, rfl⟩

theorem body_obligation3 (c : Dev nD) : BodyObligation (dat3 (F := F) V c) (defs₀ (F := F)) Variants.none () Set.univ := fun t => by
  rw [bigSep_W3, bigSep_W3]
  simp only [(before3 V c t).1, (before3 V c t).2]
  rw [show (dat3 V c).owesAt () t.succ = (dat3 V c).owesAt () t.castSucc from rfl,
    show (dat3 V c).Φ t.succ = PhiS3 V c (t.val + 1) t.isLt from rfl, PhiS3, (after3 V c t).1, (after3 V c t).2.1]
  obtain ⟨n, hn⟩ := t
  have h0 := hcond3_0 ⟨n, hn⟩
  have h1 := hcond3_1 ⟨n, hn⟩
  rcases n with _ | n
  · have hc1 : ¬cond3_1 (grid3.coords ⟨0, hn⟩) := fun h => absurd (h1.mp h) (by decide : (0 : ℕ) ≠ 19)
    simp only [idleAt3_2 _ hc1, noFlush3_2 _ hc1]
    rw [show (dat3 V c).Φ (Fin.castSucc ⟨0, hn⟩) = Pipeline.ΦA spec3 c from rfl, PhiA3_eq, sums3, cnt3]
    iintro ⟨⟨⟨⟨⟨%d4, HS0⟩, ⟨%d5, HS1⟩⟩, Hrest⟩, Hg⟩, Ho, ⟨%e0, H0⟩, ⟨%e1, H1⟩, ⟨%e2, H2⟩⟩
    iapply (run3 c (grid3.coords ⟨0, hn⟩) _ (stage_whole3 0 _) _ (stage_whole3 1 _) _ (stage_whole3 2 _) scM3_0 (Memref.isWhole_whole _) scM3_1 (Memref.isWhole_whole _) _ _ _ d4 d5 Set.univ _)
    rw [if_pos (h0.mpr rfl), if_pos (h0.mpr rfl), if_neg hc1]
    iframe H0 H1 H2 HS0 HS1
    iintro ⟨H0, H1, H2, HS0, HS1⟩
    iframe Ho H0 H1 Hrest Hg HS0 HS1
    iexists _; iexact H2
  · have hc0 : ¬cond3_0 (grid3.coords ⟨n + 1, hn⟩) := fun h => absurd (h0.mp h) (Nat.succ_ne_zero n)
    rw [show (dat3 V c).Φ (Fin.castSucc ⟨n + 1, hn⟩) = PhiS3 V c (n + 1) (Nat.le_of_lt hn) from rfl, PhiS3, sums3, cnt3]
    iintro ⟨⟨HS0, HS1, Hrest, Hg⟩, Ho, ⟨%e0, H0⟩, ⟨%e1, H1⟩, ⟨%e2, H2⟩⟩
    iapply (run3 c (grid3.coords ⟨n + 1, hn⟩) _ (stage_whole3 0 _) _ (stage_whole3 1 _) _ (stage_whole3 2 _) scM3_0 (Memref.isWhole_whole _) scM3_1 (Memref.isWhole_whole _) _ _ _ _ _ Set.univ _)
    rw [if_neg hc0, if_neg hc0]
    iframe H0 H1 H2 HS0 HS1
    iintro ⟨H0, H1, H2, HS0, HS1⟩
    iframe Ho H0 H1 Hrest Hg HS0 HS1
    by_cases h19 : n + 1 = 19
    · have hc1 := h1.mpr h19
      simp only [liveAt3_2 _ hc1]
      rw [if_pos hc1, (after3 V c _).2.2, out3, sums3, cnt3]
      iexact H2
    · have hc1 : ¬cond3_1 (grid3.coords ⟨n + 1, hn⟩) := fun h => h19 (h1.mp h)
      simp only [idleAt3_2 _ hc1, noFlush3_2 _ hc1]
      rw [if_neg hc1]
      iexists _; iexact H2

theorem hin3 (c : Dev nD) : Pipeline.ΦA spec3 c ⊢ (dat3 V c).Φ 0 := .rfl

theorem hout3 (c : Dev nD) : (dat3 V c).Φ (Fin.last cfg3.N) ⊢ Pipeline.ΦA spec3 c := by
  have (n : ℕ) (hn : n + 1 ≤ cfg3.N) : PhiS3 V c (n + 1) hn ⊢ Pipeline.ΦA spec3 c := by
    rw [PhiS3, PhiA3_eq]
    iintro ⟨HS0, HS1, Hrest, Hg⟩
    iframe Hrest Hg
    isplitl [HS0]
    · iexists _; iexact HS0
    iexists _; iexact HS1
  exact this 19 (Nat.le_refl _)

end Cert.KernelIdeal.Hand

end
-- ==== Proof.KI.Run.lean ====
import proofs.«424244_j62423054680132_3_alg».proof.Proof.KI.Folds
import proofs.«424244_j62423054680132_3_alg».proof.Proof.KI.Body0
import proofs.«424244_j62423054680132_3_alg».proof.Proof.KI.Body1
import proofs.«424244_j62423054680132_3_alg».proof.Proof.KI.Body2
import proofs.«424244_j62423054680132_3_alg».proof.Proof.KI.Body3

set_option backward.isDefEq.respectTransparency.types false

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem Idealize.ShloMosaic.Rounds
open scoped Idealize.SL.BI
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev TW (W : Dev nD → Valuation τ sig (Elt F)) (c : Dev nD) : sProp 𝕄 :=
  iprop(StableHlo.held (c : Thread nD τ) (Pipeline.ucRefs τ sig) (W c) ∗ R c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Wout (p : Fin 4) (Wi : Dev nD → Valuation τ sig (Elt F)) (c : Dev nD) : Valuation τ sig (Elt F) :=
  Pipeline.withArrays (cfgs p).spec c (Wi c) ((pdats m ρ p c).arrAt · (cfgs p).N)

def regAt (p : Fin 4) (lf : Pipeline.LaunchFacts (nD := nD) (τ := τ) cfgs p) (Wi : Dev nD → Valuation τ sig (Elt F))
    (hq : ∀ c w, (pdats m ρ p c).q w = fullShare) (ho : ∀ c t, (pdats m ρ p c).owed t = 0)
    (hr : ∀ c x, x ∈ (pdats m ρ p c).recorded 0)
    (hA : ∀ c w, (pdats m ρ p c).A w = Wi c (Proc.devRef .tc (Pipeline.arrRef (cfgs p).spec w)))
    (hbody : ∀ c, BodyObligation (pdats m ρ p c) (defs₀ (F := F)) Variants.none () Set.univ)
    (hin : ∀ c, Pipeline.ΦA (cfgs p).spec c ⊢ (pdats m ρ p c).Φ 0)
    (hout : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p ho
  pre := TW Wi
  post := TW (Wout m ρ p Wi)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    unfold Pipeline.Dat.owesAt Pipeline.owesWithin
    rw [Pipeline.ownSems0_none, ho c]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hr c x)
      iexact HO
    isplitl [Hp]; · iexact Hp
    iexact Hrest
  hin c := by
    refine BIBase.Entails.trans ?_ (hin c)
    unfold Pipeline.ΦA
    iintro ⟨Hp, -, Hr⟩
    isplitl [Hr] <;> iassumption
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    unfold Pipeline.Dat.owesAt Pipeline.owesWithin
    rw [ho c]
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wout m ρ p Wi c b) _ (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := regAt m ρ 0 launch0 (W1 m ρ) (fun _ _ => rfl) (fun _ _ => rfl) (fun _ _ => trivial) (A_eq0 (V1 m ρ))
  (body_obligation0 (V1 m ρ)) (hin0 (V1 m ρ)) (hout0 (V1 m ρ))
def reg1 := regAt m ρ 1 launch1 (W2 m ρ) (fun _ _ => rfl) (fun _ _ => rfl) (fun _ _ => trivial) (A_eq1 (V2 m ρ))
  (body_obligation1 (V2 m ρ)) (hin1 (V2 m ρ)) (hout1 (V2 m ρ))
def reg2 := regAt m ρ 2 launch2 (W4 m ρ) (fun _ _ => rfl) (fun _ _ => rfl) (fun _ _ => trivial) (A_eq2 (V4 m ρ))
  (body_obligation2 (V4 m ρ)) (hin2 (V4 m ρ)) (hout2 (V4 m ρ))
def reg3 := regAt m ρ 3 launch3 (W6 m ρ) (fun _ _ => rfl) (fun _ _ => rfl) (fun _ _ => trivial) (A_eq3 (V6 m ρ))
  (body_obligation3 (V6 m ρ)) (hin3 (V6 m ρ)) (hout3 (V6 m ρ))

abbrev segs : List (Pipeline.Seg (pcfgs (F := F)) adm (pdats m ρ) () defs₀ 𝒱₀ L lv) :=
  [ .host (hseg hostOps0 hostOps0_sub (by simp only [List.Forall]; repeat' constructor) (W0 m ρ)),
    .region (reg0 m ρ),
    .region (reg1 m ρ),
    .host (hseg hostOps2 hostOps2_sub (by simp only [List.Forall]; repeat' constructor) (W3 m ρ)),
    .region (reg2 m ρ),
    .host (hseg hostOps3 hostOps3_sub (by simp only [List.Forall]; repeat' constructor) (W5 m ρ)),
    .region (reg3 m ρ) ]

abbrev uInit := initOf (Pipeline.cells cfgs cellOf_inj) (Pipeline.launchToks cfgs cellOf_inj)
abbrev Tₙ (c : Dev nD) : sProp 𝕄 := iprop(StableHlo.held (c : Thread nD τ) (Pipeline.ucRefs τ sig) (W7 m ρ c) ∗ ∃ r, prngReg c r)

theorem run_final : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [(main_chain c).trans (by chain_rfl : _ = Pipeline.Seg.run (segs m ρ))])
    (by simp only [segs, Pipeline.Seg.pipes_host, Pipeline.Seg.pipes_region, Pipeline.Seg.pipes_nil]; decide)
    (O₀ := 0) (hL := fun _ _ => rfl) (G := fun _ => BI.emp)
    (u₀ := uInit)
    (hu₀ := by
      rw [BI.bigSep_emp_const]
      iintro Hu; imodintro
      isplitl [Hu]
      · iapply (show (ownU uInit : sProp 𝕄) ⊢ BI.own (emb₁ uInit) from .rfl)
        iexact Hu
      iempintro)
    (T₀ := TW (W0 m ρ)) (Tₙ := Tₙ m ρ)
    (hch := ⟨fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c => by
    have key (b : Ref sig .tc) (hs : ¬(Proc.devRef .tc b : DevRef τ sig).isScoped) (hb : IsArg b) :=
      (h c _ (mem_uc b hs)).trans (W7_arg m ρ c b hb)
    exact ⟨key main_arg0 (by decide) (by decide), key main_arg1 (by decide) (by decide), key main_arg2 (by decide) (by decide),
      key main_arg3 (by decide) (by decide), key main_arg4 (by decide) (by decide), key main_arg5 (by decide) (by decide),
      key main_arg6 (by decide) (by decide), key main_arg7 (by decide) (by decide)⟩) (run_final m ρ)

end Cert.KernelIdeal.Hand

end
-- ==== Proof.KI.ValComb.lean ====
import Idealize.ShloMosaic.Lib.Pipeline.Value
import Idealize.ShloMosaic.Lib.ValueIdx
import Idealize.ShloMosaic.Lib.ValueLayout

namespace Cert.KernelIdeal.Val

open Idealize.ShloMosaic Idealize.ShloMosaic.ValueIdx
open scoped BigOperators

theorem ix2_of_val {n0 n1 : ℕ} {j : (⟨2, ![n0, n1]⟩ : Shape).Idx} {a : Fin n0} {b : Fin n1}
    (h0 : (j 0).val = a.val) (h1 : (j 1).val = b.val) : j = ix2 a b :=
  funext fun d => Fin.ext (match d with | ⟨0, _⟩ => h0 | ⟨1, _⟩ => h1)

theorem ix3_of_val {n0 n1 n2 : ℕ} {j : (⟨3, ![n0, n1, n2]⟩ : Shape).Idx} {a : Fin n0} {b : Fin n1} {c : Fin n2}
    (h0 : (j 0).val = a.val) (h1 : (j 1).val = b.val) (h2 : (j 2).val = c.val) : j = ix3 a b c :=
  funext fun d => Fin.ext (match d with | ⟨0, _⟩ => h0 | ⟨1, _⟩ => h1 | ⟨2, _⟩ => h2)

theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

-- Point n of a 20 × 5 grid works on edge type n % 5 and, at row r of its block, on node 5000 · (n / 5) + r.
def etype (n : ℕ) : Fin 5 := ⟨n % 5, Nat.mod_lt _ (by decide)⟩
def node (n r : ℕ) : Fin 100000 := ⟨(5000 * (n / 5) + r) % 100000, Nat.mod_lt _ (by decide)⟩

theorem sum_run {β : Type*} [AddCommMonoid β] (T : Fin 100000 → Fin 5 → β) (q r : ℕ) (h : 5000 * q + r < 100000) :
    ∑ e : Fin 5, T (node (5 * q + e.val) r) (etype (5 * q + e.val)) = ∑ e, T ⟨5000 * q + r, h⟩ e :=
  Finset.sum_congr rfl fun e _ => by
    have := e.isLt
    rw [show node (5 * q + e.val) r = ⟨5000 * q + r, h⟩ from Fin.ext (by show (5000 * ((5 * q + e.val) / 5) + r) % 100000 = 5000 * q + r; omega),
      show etype (5 * q + e.val) = e from Fin.ext (by show (5 * q + e.val) % 5 = e.val; omega)]

-- An accumulator reset at every fifth point and stepped by adding the point's addend holds, at the last point of a run of five, the sum of the five addends.
theorem acc_run5 {N : ℕ} {ι β : Type*} [AddCommMonoid β] (f : (n : ℕ) → n < N → ι → β)
    (z : ι → β) (u : (n : ℕ) → n < N → (ι → β) → ι → β) (M : ℕ → ι → β)
    (h0 : ∀ n h, n % 5 = 0 → f n h = u n h z)
    (hs : ∀ n h, ¬(n + 1) % 5 = 0 → f (n + 1) h = u (n + 1) h (f n (Nat.lt_of_succ_lt h)))
    (hz : ∀ i, z i = 0) (hu : ∀ n h p i, u n h p i = p i + M n i)
    (t : ℕ) (h : t < N) (h4 : t % 5 = 4) (i : ι) : f t h i = ∑ e : Fin 5, M (5 * (t / 5) + e.val) i := by
  obtain ⟨q, rfl⟩ : ∃ q, t = 5 * q + 4 := ⟨t / 5, by omega⟩
  rw [show (5 * q + 4) / 5 = q by omega, Pipeline.eq_accAt f 5 (fun n h => u n h z) u h0 hs q 4 (by decide) h,
    Pipeline.accAt_add_apply _ u (fun _ => 0) M (5 * q) 4 (fun h i => by rw [hu, hz]) (fun n h p i _ _ => hu n h p i) 4
      le_rfl h i, zero_add, Finset.sum_range]

-- Row j₀ of a 100000-row array lies in the block of 5000 rows numbered j₀ / 5000.
theorem mem_rows {C : ℕ} (j : (⟨2, ![100000, C]⟩ : Shape).Idx) (ix : Fin 2 → ℕ) (h0 : ix 0 = (j 0).val / 5000) (h1 : ix 1 = 0)
    (a : Fin 2) : ix a * ![5000, C] a ≤ (j a).val ∧ (j a).val < ix a * ![5000, C] a + ![5000, C] a := by
  have := idx2_lt1 j
  match a with
  | ⟨0, _⟩ => show ix 0 * 5000 ≤ (j 0).val ∧ (j 0).val < ix 0 * 5000 + 5000; omega
  | ⟨1, _⟩ => show ix 1 * C ≤ (j 1).val ∧ (j 1).val < ix 1 * C + C; rw [h1]; omega

end Cert.KernelIdeal.Val
-- ==== Proof.Spec.lean ====
import Idealize.ShloMosaic.PureOps.Ideal

noncomputable section

namespace Cert.Spec

open Idealize.ShloMosaic

-- The edges of type e whose destination number is node i.
def inEdges (dI : Fin 5 → Fin 800000 → ℤ) (e : Fin 5) (i : Fin 100000) : Finset (Fin 800000) :=
  Finset.univ.filter fun j => dI e j = (i.val : ℤ)

def deg (dI : Fin 5 → Fin 800000 → ℤ) (e : Fin 5) (i : Fin 100000) : EReal :=
  ∑ _j ∈ inEdges dI e i, (1 : EReal)

-- Rows of X at the sources of the edges into node i, summed.
def agg {D : ℕ} (dI : Fin 5 → Fin 800000 → ℤ) (sR : Fin 5 → Fin 800000 → Fin 100000)
    (X : Fin 100000 → Fin D → EReal) (e : Fin 5) (i : Fin 100000) (k : Fin D) : EReal :=
  ∑ j ∈ inEdges dI e i, X (sR e j) k

def inv (dI : Fin 5 → Fin 800000 → ℤ) (e : Fin 5) (i : Fin 100000) : EReal :=
  Ideal.div 1 (deg dI e i + 1)

-- The kernel's first layer: (aggregate + own row) scaled by the reciprocal, times the weights, summed over edge types, clamped at 0.
def combine1 (A : Fin 5 → Fin 100000 → Fin 23 → EReal) (X : Fin 100000 → Fin 23 → EReal) (iv : Fin 5 → Fin 100000 → EReal)
    (W : Fin 5 → Fin 23 → Fin 128 → EReal) (b : Fin 5 → Fin 128 → EReal) (i : Fin 100000) (o : Fin 128) : EReal :=
  max (∑ e : Fin 5, ((∑ k : Fin 23, ((A e i k + X i k) * iv e i) * W e k o) + b e o)) 0

def pre (H : Fin 100000 → Fin 128 → EReal) (W : Fin 5 → Fin 128 → Fin 64 → EReal) (e : Fin 5) (i : Fin 100000) (o : Fin 64) : EReal :=
  ∑ k : Fin 128, H i k * W e k o

-- The kernel's second layer applies the weights BEFORE aggregating (pre), then scales and adds the bias.
def combine2 (A G : Fin 5 → Fin 100000 → Fin 64 → EReal) (iv : Fin 5 → Fin 100000 → EReal) (b : Fin 5 → Fin 64 → EReal)
    (i : Fin 100000) (o : Fin 64) : EReal :=
  ∑ e : Fin 5, ((A e i o + G e i o) * iv e i + b e o)

def hot (gI : Fin 100000 → ℤ) (r : Fin 100000) (g : Fin 64) : EReal := if gI r = (g.val : ℤ) then 1 else 0

-- Mean over each graph's nodes as one-hot weighted sums divided by max(count, 1).
def poolK (H : Fin 100000 → Fin 64 → EReal) (gI : Fin 100000 → ℤ) (g : Fin 64) (j : Fin 64) : EReal :=
  Ideal.div (∑ r : Fin 100000, hot gI r g * H r j) (max (∑ r : Fin 100000, hot gI r g * 1) 1)

section Net
variable (feat : Fin 100000 → Fin 23 → EReal) (sR : Fin 5 → Fin 800000 → Fin 100000) (dI : Fin 5 → Fin 800000 → ℤ)
  (gI : Fin 100000 → ℤ) (W1 : Fin 5 → Fin 23 → Fin 128 → EReal) (b1 : Fin 5 → Fin 128 → EReal)
  (W2 : Fin 5 → Fin 128 → Fin 64 → EReal) (b2 : Fin 5 → Fin 64 → EReal)

def h1K : Fin 100000 → Fin 128 → EReal := combine1 (agg dI sR feat) feat (inv dI) W1 b1

def gK : Fin 5 → Fin 100000 → Fin 64 → EReal := pre (h1K feat sR dI W1 b1) W2

def h2K : Fin 100000 → Fin 64 → EReal :=
  combine2 (fun e => agg dI sR (gK feat sR dI W1 b1 W2 e) e) (gK feat sR dI W1 b1 W2) (inv dI) b2

def netK : Fin 64 → Fin 64 → EReal := poolK (h2K feat sR dI W1 b1 W2 b2) gI

-- The reference's layer divides by (in-degree + 1) and applies the weights AFTER aggregating.
def layerR {Din Dout : ℕ} (X : Fin 100000 → Fin Din → EReal) (W : Fin 5 → Fin Din → Fin Dout → EReal) (b : Fin 5 → Fin Dout → EReal)
    (i : Fin 100000) (o : Fin Dout) : EReal :=
  ∑ e : Fin 5, ((∑ k : Fin Din, Ideal.div (agg dI sR X e i k + X i k) (deg dI e i + 1) * W e k o) + b e o)

def h1R : Fin 100000 → Fin 128 → EReal := fun i o => max (layerR sR dI feat W1 b1 i o) 0

def h2R : Fin 100000 → Fin 64 → EReal := layerR sR dI (h1R feat sR dI W1 b1) W2 b2

def members (g : Fin 64) : Finset (Fin 100000) := Finset.univ.filter fun r => gI r = (g.val : ℤ)

def netR (g : Fin 64) (j : Fin 64) : EReal :=
  Ideal.div (∑ r ∈ members gI g, h2R feat sR dI W1 b1 W2 b2 r j) (max (∑ _r ∈ members gI g, (1 : EReal)) 1)

end Net

end Cert.Spec

end
-- ==== Proof.KI.ValReg0.lean ====
import proofs.«424244_j62423054680132_3_alg».proof.Proof.KI.ValComb
import proofs.«424244_j62423054680132_3_alg».proof.Proof.KI.Data
import proofs.«424244_j62423054680132_3_alg».proof.Proof.Spec
import Idealize.ShloMosaic.PureOps.Ideal.Laws

noncomputable section

namespace Cert.KernelIdeal.Val

open Idealize.ShloMosaic Idealize.ShloMosaic.TcCoe
open Cert.KernelIdeal Cert.KernelIdeal.Gen Cert.KernelIdeal.Hand Idealize.ShloMosaic.ValueIdx

variable (V : (c : Dev nD) → (b : Ref sig .tc) → Buf (Elt Ideal) ((c : Thread nD τ).loc b)) (c : Dev nD)

namespace Reg0

-- Entry (r, o) of the product accumulated into zero: row r of the left factor against column o of the right.
theorem matmul_zero_apply (L : FVec Ideal S5000x23 .bf16) (R : FVec Ideal S23x128 .bf16) (r : Fin 5000) (o : Fin 128) :
    matmul dot_S5000x23_S23x128_S5000x128_1_0_0_1_n_n none L R (constant S5000x128 .f32 0x00000000#32) (ix2 r o) = ∑ k : Fin 23, L (ix2 r k) * R (ix2 k o) := by
  simp only [matmul]
  rw [Ideal.matmul_constant_zero_apply]
  exact Fintype.sum_equiv (contrEquiv1 dot_S5000x23_S23x128_S5000x128_1_0_0_1_n_n 23 rfl rfl) _ _ fun q =>
    congrArg₂ (· * ·) (congrArg L (ix2_of_val rfl rfl)) (congrArg R (ix2_of_val rfl rfl))

abbrev arrA : Vec Ideal S5x100000x23 .f32 := V c (Pipeline.arrRef spec0 0)
abbrev arrX : Vec Ideal S100000x23 .f32 := V c (Pipeline.arrRef spec0 1)
abbrev arrI : Vec Ideal S5x100000x1 .f32 := V c (Pipeline.arrRef spec0 2)
abbrev arrW : Vec Ideal S5x23x128 .f32 := V c (Pipeline.arrRef spec0 3)
abbrev arrB : Vec Ideal S5x1x128 .f32 := V c (Pipeline.arrRef spec0 4)

-- Edge type e's contribution at node i, lane o.
def term (i : Fin 100000) (e : Fin 5) (o : Fin 128) : EReal :=
  (∑ k : Fin 23, ((arrA V c (ix3 e i k) + arrX V c (ix2 i k)) * arrI V c (ix3 e i (0 : Fin 1))) * arrW V c (ix3 e k o))
    + arrB V c (ix3 e (0 : Fin 1) o)

-- Point t = 5·q + e reads edge type e and node block q.
theorem idx : ∀ t : Fin cfg0.N,
    win0_0.index t 0 = t.val % 5 ∧ win0_0.index t 1 = t.val / 5 ∧ win0_0.index t 2 = 0
    ∧ win0_1.index t 0 = t.val / 5 ∧ win0_1.index t 1 = 0
    ∧ win0_2.index t 0 = t.val % 5 ∧ win0_2.index t 1 = t.val / 5 ∧ win0_2.index t 2 = 0
    ∧ win0_3.index t 0 = t.val % 5 ∧ win0_3.index t 1 = 0 ∧ win0_3.index t 2 = 0
    ∧ win0_4.index t 0 = t.val % 5 ∧ win0_4.index t 1 = 0 ∧ win0_4.index t 2 = 0
    ∧ win0_5.index t 0 = t.val / 5 ∧ win0_5.index t 1 = 0 :=
  (by decide +kernel : ∀ t : Fin grid0.N, _)

abbrev upd (t : Fin cfg0.N) : Vec Ideal S5000x128 .f32 → Vec Ideal S5000x128 .f32 :=
  k0_pay2 (iblk0 V c 0 t) (iblk0 V c 1 t) (iblk0 V c 2 t) (iblk0 V c 3 t) (iblk0 V c 4 t)

def addend (n : ℕ) (y : S5000x128.Idx) : EReal := term V c (node n (y 0).val) (etype n) ⟨(y 1).val, idx2_lt1 y⟩

-- At row r and lane o a point adds its edge type's contribution at node 5000·q + r.
theorem upd_apply (t : Fin cfg0.N) (p : Vec Ideal S5000x128 .f32) (y : S5000x128.Idx) :
    upd V c t p y = p y + addend V c t.val y := by
  obtain ⟨r, o, rfl⟩ : ∃ (r : Fin 5000) (o : Fin 128), y = ix2 r o := ⟨y 0, y 1, eq_ix2 y⟩
  have hN : cfg0.N = 100 := N_0
  have hr := r.isLt
  have ht := t.isLt
  obtain ⟨a0, a1, a2, x0, x1, i0, i1, i2, w0, w1, w2, b0, b1, b2, -⟩ := idx t
  have eA (k : Fin 23) : (iblk0 V c 0 t : Vec Ideal S1x5000x23 .f32) (ix3 (0 : Fin 1) r k) = arrA V c (ix3 (etype t.val) (node t.val r) k) := by
    refine congrArg (arrA V c) (ix3_of_val ?_ ?_ ?_)
    · show win0_0.index t 0 * 1 + 1 * 0 = t.val % 5; omega
    · show win0_0.index t 1 * 5000 + 1 * r.val = (5000 * (t.val / 5) + r.val) % 100000; omega
    · show win0_0.index t 2 * 23 + 1 * k.val = k.val; omega
  have eX (k : Fin 23) : (iblk0 V c 1 t : Vec Ideal S5000x23 .f32) (ix2 r k) = arrX V c (ix2 (node t.val r) k) := by
    refine congrArg (arrX V c) (ix2_of_val ?_ ?_)
    · show win0_1.index t 0 * 5000 + 1 * r.val = (5000 * (t.val / 5) + r.val) % 100000; omega
    · show win0_1.index t 1 * 23 + 1 * k.val = k.val; omega
  have eI : (iblk0 V c 2 t : Vec Ideal S1x5000x1 .f32) (ix3 (0 : Fin 1) r (0 : Fin 1)) = arrI V c (ix3 (etype t.val) (node t.val r) (0 : Fin 1)) := by
    refine congrArg (arrI V c) (ix3_of_val ?_ ?_ ?_)
    · show win0_2.index t 0 * 1 + 1 * 0 = t.val % 5; omega
    · show win0_2.index t 1 * 5000 + 1 * r.val = (5000 * (t.val / 5) + r.val) % 100000; omega
    · show win0_2.index t 2 * 1 + 1 * 0 = 0; omega
  have eW (k : Fin 23) : (iblk0 V c 3 t : Vec Ideal S1x23x128 .f32) (ix3 (0 : Fin 1) k o) = arrW V c (ix3 (etype t.val) k o) := by
    refine congrArg (arrW V c) (ix3_of_val ?_ ?_ ?_)
    · show win0_3.index t 0 * 1 + 1 * 0 = t.val % 5; omega
    · show win0_3.index t 1 * 23 + 1 * k.val = k.val; omega
    · show win0_3.index t 2 * 128 + 1 * o.val = o.val; omega
  have eB : (iblk0 V c 4 t : Vec Ideal S1x1x128 .f32) (ix3 (0 : Fin 1) (0 : Fin 1) o) = arrB V c (ix3 (etype t.val) (0 : Fin 1) o) := by
    refine congrArg (arrB V c) (ix3_of_val ?_ ?_ ?_)
    · show win0_4.index t 0 * 1 + 1 * 0 = t.val % 5; omega
    · show win0_4.index t 1 * 1 + 1 * 0 = 0; omega
    · show win0_4.index t 2 * 128 + 1 * o.val = o.val; omega
  unfold upd k0_pay2
  rw [shapeCast_self]
  simp only [addf_apply, matmul_zero_apply, truncf_apply, mulf_apply, shapeCast_1ab_ab_apply, broadcastTo_a1_ab_apply,
    broadcastTo_1b_ab_apply, eA, eX, eI, eW, eB]
  rfl

def outG : Vec Ideal S100000x128 .f32 := fun j => max (∑ e : Fin 5, term V c ⟨(j 0).val, idx2_lt0 j⟩ e ⟨(j 1).val, idx2_lt1 j⟩) 0

-- After the fifth edge type of a node block the accumulator holds all five contributions.
theorem flushed_eq (t : Fin cfg0.N) (hf : (cfg0.win 5).flush t = true) :
    (dat0 V c).flushed 5 t = ((cfg0.win 5).blk t).view.read (Elt Ideal) (outG V c) := by
  have hN : cfg0.N = 100 := N_0
  have ht := t.isLt
  have h4 := (flush0_5 t).mp hf
  obtain ⟨-, -, -, -, -, -, -, -, -, -, -, -, -, -, q0, q1⟩ := idx t
  funext y
  obtain ⟨r, o, rfl⟩ : ∃ (r : Fin 5000) (o : Fin 128), y = ix2 r o := ⟨y 0, y 1, eq_ix2 y⟩
  have hr := r.isLt
  show k0_pay3 (acc0 V c t.val t.isLt) (ix2 r o) = outG V c (((cfg0.win 5).blk t).view.emb (ix2 r o))
  rw [ix2_of_val (j := ((cfg0.win 5).blk t).view.emb (ix2 r o)) (a := (⟨5000 * (t.val / 5) + r.val, by omega⟩ : Fin 100000)) (b := o)
      (by show win0_5.index t 0 * 5000 + 1 * r.val = 5000 * (t.val / 5) + r.val; omega)
      (by show win0_5.index t 1 * 128 + 1 * o.val = o.val; omega)]
  refine (congrArg (max _) Ideal.ofBits_zero_f32).trans (congrArg (max · 0) ?_)
  rw [acc_run5 (acc0 V c) (k0_pay1 (F := Ideal)) (fun n h => upd V c ⟨n, h⟩) (addend V c)
      (fun n h h0 => by cases n with | zero => rfl | succ m => rw [acc0, if_pos h0])
      (fun n h h0 => by rw [acc0, if_neg h0])
      (fun y => by unfold k0_pay1; rw [shapeCast_self]; exact Ideal.ofBits_zero_f32) (fun n h => upd_apply V c ⟨n, h⟩) t.val t.isLt h4]
  exact sum_run (fun i e => term V c i e o) (t.val / 5) r.val _

-- The twenty blocks of 5000 rows tile the array.
theorem cover (j : S100000x128.Idx) :
    ∃ t : Fin cfg0.N, (cfg0.win 5).flush t = true ∧ j ∈ ((cfg0.win 5).blk t).view.set := by
  have hN : cfg0.N = 100 := N_0
  have h0 := idx2_lt0 j
  obtain ⟨t, ht⟩ : ∃ t : Fin cfg0.N, t.val = 5 * ((j 0).val / 5000) + 4 := ⟨⟨_, by omega⟩, rfl⟩
  obtain ⟨-, -, -, -, -, -, -, -, -, -, -, -, -, -, q0, q1⟩ := idx t
  refine ⟨t, (flush0_5 t).mpr (by omega), ?_⟩
  show j ∈ ((View.whole main_v118).slice (win0_5.rect t)).set
  rw [View.set_slice_whole, Rect.mem_set_unit]
  exact mem_rows j _ (by rw [q0]; omega) q1

end Reg0

theorem reg0_value (c : Dev nD) (i : Fin 100000) (o : Fin 128) :
    ((dat0 V c).arrAt 5 cfg0.N : Vec Ideal S100000x128 .f32) (ix2 i o)
      = Spec.combine1 (fun e i k => (V c (Pipeline.arrRef spec0 0) : Vec Ideal S5x100000x23 .f32) (ix3 e i k))
          (fun i k => (V c (Pipeline.arrRef spec0 1) : Vec Ideal S100000x23 .f32) (ix2 i k))
          (fun e i => (V c (Pipeline.arrRef spec0 2) : Vec Ideal S5x100000x1 .f32) (ix3 e i (0 : Fin 1)))
          (fun e k o => (V c (Pipeline.arrRef spec0 3) : Vec Ideal S5x23x128 .f32) (ix3 e k o))
          (fun e o => (V c (Pipeline.arrRef spec0 4) : Vec Ideal S5x1x128 .f32) (ix3 e (0 : Fin 1) o)) i o := by
  rw [(dat0 V c).arrAt_eq_of_cover 5 (Reg0.outG V c) (Reg0.flushed_eq V c) Reg0.cover]
  rfl

end Cert.KernelIdeal.Val

end
-- ==== Proof.KI.ValDot.lean ====
import proofs.«424244_j62423054680132_3_alg».proof.Proof.KI.Data
import proofs.«424244_j62423054680132_3_alg».proof.Proof.Spec
import Idealize.ShloMosaic.Lib.Pipeline.Value
import Idealize.ShloMosaic.Lib.ValueIdx
import Idealize.ShloMosaic.Lib.ValueLayout
import Idealize.ShloMosaic.PureOps.Ideal.Laws

namespace Cert.KernelIdeal.Val

open Idealize.ShloMosaic Idealize.ShloMosaic.ValueIdx

-- For every block product here: the contraction's sum re-indexed over Fin n once, the operand indices computed by default.
theorem dot0_apply {sl sr so : Shape} {φ₁ φ₂ : FTy} (D : DotDims sl sr so) (n : ℕ) (hr : D.contr.rank = 1)
    (hs : D.contr.size ⟨0, by omega⟩ = n) (prec : Option ContractPrecision) (x : FVec Ideal sl φ₁) (y : FVec Ideal sr φ₂)
    (j : so.Idx) (L : Fin n → sl.Idx) (R : Fin n → sr.Idx)
    (hL : ∀ k, D.lhsIdx j ((contrEquiv1 D n hr hs).symm k) = L k := by intro; exact Shape.idx_ext₂ rfl rfl)
    (hR : ∀ k, D.rhsIdx j ((contrEquiv1 D n hr hs).symm k) = R k := by intro; exact Shape.idx_ext₂ rfl rfl) :
    FloatOps.matmul D prec x y (constant (F := Ideal) so .f32 0x00000000#32) j = ∑ k : Fin n, x (L k) * y (R k) := by
  rw [Ideal.matmul_constant_zero_apply, ← Equiv.sum_comp (contrEquiv1 D n hr hs).symm]
  exact Finset.sum_congr rfl fun k _ => by rw [hL, hR]

end Cert.KernelIdeal.Val
-- ==== Proof.KI.ValReg1.lean ====
import proofs.«424244_j62423054680132_3_alg».proof.Proof.KI.ValDot

noncomputable section

namespace Cert.KernelIdeal.Val

open Idealize.ShloMosaic Idealize.ShloMosaic.TcCoe
open Idealize.SL Idealize.SL.Sem
open Idealize.ShloMosaic.Pipeline (Dat Cfg Window)
open Cert.KernelIdeal Cert.KernelIdeal.Gen Cert.KernelIdeal.Hand Idealize.ShloMosaic.ValueIdx

variable (V : (c : Dev nD) → (b : Ref sig .tc) → Buf (Elt Ideal) ((c : Thread nD τ).loc b))

namespace Reg1

theorem stored_at (x0 : Vec Ideal S5000x128 .f32) (x3 : Vec Ideal S1x128x64 .f32) (y : S1x5000x64.Idx) :
    k1_pay1 (F := Ideal) x0 x3 y = ∑ k : Fin 128, x0 (ix2 (y 1) k) * x3 (ix3 (0 : Fin 1) k (y 2)) := by
  unfold k1_pay1
  refine (shapeCast_addUnit_apply ![5000, 64] _ _ y).trans ?_
  refine Eq.trans (dot0_apply _ 128 rfl rfl _ _ _ _ (ix2 (y 1)) (ix2 · (y 2))) (Finset.sum_congr rfl fun k _ => ?_)
  exact congrArg₂ (· * ·) (congrFun (shapeCast_self x0 _) _) ((shapeCast_dropUnit_apply ![128, 64] x3 _ (ix2 k (y 2))).trans
    (congrArg x3 (funext fun a => by match a with | ⟨0, _⟩ => rfl | ⟨1, _⟩ => rfl | ⟨2, _⟩ => rfl)))

abbrev feat (c : Dev nD) : Vec Ideal S100000x128 .f32 := V c (Pipeline.arrRef spec1 0)
abbrev wts (c : Dev nD) : Vec Ideal S5x128x64 .f32 := V c (Pipeline.arrRef spec1 1)

def preArr (c : Dev nD) : Vec Ideal S5x100000x64 .f32 := fun j =>
  Spec.pre (fun i k => feat V c (ix2 i k)) (fun e k o => wts V c (ix3 e k o)) (j 0) (j 1) (j 2)

theorem idx_facts : ∀ t : Fin cfg1.N, win1_0.index t (0 : Fin 2) = win1_2.index t (1 : Fin 3)
    ∧ win1_0.index t (1 : Fin 2) = 0
    ∧ win1_1.index t (0 : Fin 3) = win1_2.index t (0 : Fin 3)
    ∧ win1_1.index t (1 : Fin 3) = 0
    ∧ win1_1.index t (2 : Fin 3) = 0
    ∧ win1_2.index t (2 : Fin 3) = 0 :=
  (by decide +kernel : ∀ t : Fin grid1.N, _)

theorem idx_onto : ∀ (q0 : Fin 5) (q1 : Fin 20), ∃ t : Fin cfg1.N, win1_2.index t = ![q0.val, q1.val, 0] :=
  (by decide +kernel : ∀ (q0 : Fin 5) (q1 : Fin 20), ∃ t : Fin grid1.N, win1_2.index t = ![q0.val, q1.val, 0])

theorem flushed_eq (c : Dev nD) (t : Fin cfg1.N) :
    (dat1 V c).flushed 2 t = ((cfg1.win 2).blk t).view.read (Elt Ideal) (preArr V c) := by
  obtain ⟨f0, f1, f2, f3, f4, f5⟩ := idx_facts t
  funext y
  refine (stored_at (iblk1 V c 0 t) (iblk1 V c 1 t) y).trans ?_
  show _ = ∑ k : Fin 128, feat V c (ix2 ((((cfg1.win 2).blk t).view.emb y) 1) k)
      * wts V c (ix3 ((((cfg1.win 2).blk t).view.emb y) 0) k ((((cfg1.win 2).blk t).view.emb y) 2))
  refine Finset.sum_congr rfl fun k _ => ?_
  have hy0 : (y 0).val = 0 := by have : (y 0).val < 1 := (y 0).isLt; omega
  refine congrArg₂ (· * ·) (congrArg (feat V c) (funext fun a => Fin.ext ?_)) (congrArg (wts V c) (funext fun a => Fin.ext ?_))
  · match a with
    | ⟨0, _⟩ => show win1_0.index t (0 : Fin 2) * 5000 + 1 * (y 1).val = win1_2.index t (1 : Fin 3) * 5000 + 1 * (y 1).val; omega
    | ⟨1, _⟩ => show win1_0.index t (1 : Fin 2) * 128 + 1 * k.val = k.val; omega
  · match a with
    | ⟨0, _⟩ => show win1_1.index t (0 : Fin 3) * 1 + 1 * 0 = win1_2.index t (0 : Fin 3) * 1 + 1 * (y 0).val; omega
    | ⟨1, _⟩ => show win1_1.index t (1 : Fin 3) * 128 + 1 * k.val = k.val; omega
    | ⟨2, _⟩ => show win1_1.index t (2 : Fin 3) * 64 + 1 * (y 2).val = win1_2.index t (2 : Fin 3) * 64 + 1 * (y 2).val; omega

-- Entry (e, i, o) lies in the block of edge type e and node block i / 5000.
theorem covered (i : S5x100000x64.Idx) :
    ∃ t : Fin cfg1.N, (cfg1.win 2).flush t = true ∧ i ∈ ((cfg1.win 2).blk t).view.set := by
  have hi0 : (i 0).val < 5 := (i 0).isLt
  have hi1 : (i 1).val < 100000 := (i 1).isLt
  have hi2 : (i 2).val < 64 := (i 2).isLt
  obtain ⟨t, ht⟩ := idx_onto ⟨(i 0).val, hi0⟩ ⟨(i 1).val / 5000, by omega⟩
  have q0 : win1_2.index t (0 : Fin 3) = (i 0).val := congrFun ht 0
  have q1 : win1_2.index t (1 : Fin 3) = (i 1).val / 5000 := congrFun ht 1
  have q2 : win1_2.index t (2 : Fin 3) = 0 := congrFun ht 2
  refine ⟨t, flush1_2 t, ?_⟩
  show i ∈ ((View.whole main_v119).slice (win1_2.rect t)).set
  rw [View.set_slice_whole, Rect.mem_set_unit]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 5000 ≤ (i 1).val ∧ (i 1).val < win1_2.index t (1 : Fin 3) * 5000 + 5000; omega
  | ⟨2, _⟩ => show win1_2.index t (2 : Fin 3) * 64 ≤ (i 2).val ∧ (i 2).val < win1_2.index t (2 : Fin 3) * 64 + 64; omega

end Reg1

theorem reg1_value (c : Dev nD) (e : Fin 5) (i : Fin 100000) (o : Fin 64) :
    ((dat1 V c).arrAt 2 cfg1.N : Vec Ideal S5x100000x64 .f32) (ix3 e i o)
      = Spec.pre (fun i k => (V c (Pipeline.arrRef spec1 0) : Vec Ideal S100000x128 .f32) (ix2 i k))
          (fun e k o => (V c (Pipeline.arrRef spec1 1) : Vec Ideal S5x128x64 .f32) (ix3 e k o)) e i o :=
  congrFun ((dat1 V c).arrAt_eq_of_cover 2 (Reg1.preArr V c) (fun t _ => Reg1.flushed_eq V c t) Reg1.covered) (ix3 e i o)

end Cert.KernelIdeal.Val

end
-- ==== Proof.KI.ValReg2.lean ====
import proofs.«424244_j62423054680132_3_alg».proof.Proof.KI.ValComb
import proofs.«424244_j62423054680132_3_alg».proof.Proof.KI.Data
import proofs.«424244_j62423054680132_3_alg».proof.Proof.Spec
import Idealize.ShloMosaic.PureOps.Ideal.Laws

noncomputable section

namespace Cert.KernelIdeal.Val

open Idealize.ShloMosaic Idealize.ShloMosaic.TcCoe
open Cert.KernelIdeal Cert.KernelIdeal.Gen Cert.KernelIdeal.Hand Idealize.ShloMosaic.ValueIdx

variable (V : (c : Dev nD) → (b : Ref sig .tc) → Buf (Elt Ideal) ((c : Thread nD τ).loc b)) (c : Dev nD)

namespace Reg2

abbrev arrA : Vec Ideal S5x100000x64 .f32 := V c (Pipeline.arrRef spec2 0)
abbrev arrG : Vec Ideal S5x100000x64 .f32 := V c (Pipeline.arrRef spec2 1)
abbrev arrI : Vec Ideal S5x100000x1 .f32 := V c (Pipeline.arrRef spec2 2)
abbrev arrB : Vec Ideal S5x1x64 .f32 := V c (Pipeline.arrRef spec2 3)

-- Edge type e's contribution at node i, lane o.
def term (i : Fin 100000) (e : Fin 5) (o : Fin 64) : EReal :=
  (arrA V c (ix3 e i o) + arrG V c (ix3 e i o)) * arrI V c (ix3 e i (0 : Fin 1)) + arrB V c (ix3 e (0 : Fin 1) o)

-- Point t = 5·q + e reads edge type e and node block q.
theorem idx : ∀ t : Fin cfg2.N,
    win2_0.index t 0 = t.val % 5 ∧ win2_0.index t 1 = t.val / 5 ∧ win2_0.index t 2 = 0
    ∧ win2_1.index t 0 = t.val % 5 ∧ win2_1.index t 1 = t.val / 5 ∧ win2_1.index t 2 = 0
    ∧ win2_2.index t 0 = t.val % 5 ∧ win2_2.index t 1 = t.val / 5 ∧ win2_2.index t 2 = 0
    ∧ win2_3.index t 0 = t.val % 5 ∧ win2_3.index t 1 = 0 ∧ win2_3.index t 2 = 0
    ∧ win2_4.index t 0 = t.val / 5 ∧ win2_4.index t 1 = 0 :=
  (by decide +kernel : ∀ t : Fin grid2.N, _)

abbrev upd (t : Fin cfg2.N) : Vec Ideal S5000x64 .f32 → Vec Ideal S5000x64 .f32 :=
  k2_pay2 (iblk2 V c 0 t) (iblk2 V c 1 t) (iblk2 V c 2 t) (iblk2 V c 3 t)

def addend (n : ℕ) (y : S5000x64.Idx) : EReal := term V c (node n (y 0).val) (etype n) ⟨(y 1).val, idx2_lt1 y⟩

-- At row r and lane o a point adds its edge type's contribution at node 5000·q + r.
theorem upd_apply (t : Fin cfg2.N) (p : Vec Ideal S5000x64 .f32) (y : S5000x64.Idx) :
    upd V c t p y = p y + addend V c t.val y := by
  obtain ⟨r, o, rfl⟩ : ∃ (r : Fin 5000) (o : Fin 64), y = ix2 r o := ⟨y 0, y 1, eq_ix2 y⟩
  have hN : cfg2.N = 100 := N_2
  have hr := r.isLt
  have ht := t.isLt
  obtain ⟨a0, a1, a2, g0, g1, g2, i0, i1, i2, b0, b1, b2, -⟩ := idx t
  have eA : (iblk2 V c 0 t : Vec Ideal S1x5000x64 .f32) (ix3 (0 : Fin 1) r o) = arrA V c (ix3 (etype t.val) (node t.val r) o) := by
    refine congrArg (arrA V c) (ix3_of_val ?_ ?_ ?_)
    · show win2_0.index t 0 * 1 + 1 * 0 = t.val % 5; omega
    · show win2_0.index t 1 * 5000 + 1 * r.val = (5000 * (t.val / 5) + r.val) % 100000; omega
    · show win2_0.index t 2 * 64 + 1 * o.val = o.val; omega
  have eG : (iblk2 V c 1 t : Vec Ideal S1x5000x64 .f32) (ix3 (0 : Fin 1) r o) = arrG V c (ix3 (etype t.val) (node t.val r) o) := by
    refine congrArg (arrG V c) (ix3_of_val ?_ ?_ ?_)
    · show win2_1.index t 0 * 1 + 1 * 0 = t.val % 5; omega
    · show win2_1.index t 1 * 5000 + 1 * r.val = (5000 * (t.val / 5) + r.val) % 100000; omega
    · show win2_1.index t 2 * 64 + 1 * o.val = o.val; omega
  have eI : (iblk2 V c 2 t : Vec Ideal S1x5000x1 .f32) (ix3 (0 : Fin 1) r (0 : Fin 1)) = arrI V c (ix3 (etype t.val) (node t.val r) (0 : Fin 1)) := by
    refine congrArg (arrI V c) (ix3_of_val ?_ ?_ ?_)
    · show win2_2.index t 0 * 1 + 1 * 0 = t.val % 5; omega
    · show win2_2.index t 1 * 5000 + 1 * r.val = (5000 * (t.val / 5) + r.val) % 100000; omega
    · show win2_2.index t 2 * 1 + 1 * 0 = 0; omega
  have eB : (iblk2 V c 3 t : Vec Ideal S1x1x64 .f32) (ix3 (0 : Fin 1) (0 : Fin 1) o) = arrB V c (ix3 (etype t.val) (0 : Fin 1) o) := by
    refine congrArg (arrB V c) (ix3_of_val ?_ ?_ ?_)
    · show win2_3.index t 0 * 1 + 1 * 0 = t.val % 5; omega
    · show win2_3.index t 1 * 1 + 1 * 0 = 0; omega
    · show win2_3.index t 2 * 64 + 1 * o.val = o.val; omega
  unfold upd k2_pay2
  rw [shapeCast_self]
  simp only [addf_apply, mulf_apply, broadcastTo_a1_ab_apply, broadcastTo_1b_ab_apply, shapeCast_1ab_ab_apply, eA, eG, eI, eB]
  rfl

def outG : Vec Ideal S100000x64 .f32 := fun j => ∑ e : Fin 5, term V c ⟨(j 0).val, idx2_lt0 j⟩ e ⟨(j 1).val, idx2_lt1 j⟩

-- After the fifth edge type of a node block the accumulator holds all five contributions.
theorem flushed_eq (t : Fin cfg2.N) (hf : (cfg2.win 4).flush t = true) :
    (dat2 V c).flushed 4 t = ((cfg2.win 4).blk t).view.read (Elt Ideal) (outG V c) := by
  have hN : cfg2.N = 100 := N_2
  have ht := t.isLt
  have h4 := (flush2_4 t).mp hf
  obtain ⟨-, -, -, -, -, -, -, -, -, -, -, -, q0, q1⟩ := idx t
  funext y
  obtain ⟨r, o, rfl⟩ : ∃ (r : Fin 5000) (o : Fin 64), y = ix2 r o := ⟨y 0, y 1, eq_ix2 y⟩
  have hr := r.isLt
  show acc2 V c t.val t.isLt (ix2 r o) = outG V c (((cfg2.win 4).blk t).view.emb (ix2 r o))
  rw [ix2_of_val (j := ((cfg2.win 4).blk t).view.emb (ix2 r o)) (a := (⟨5000 * (t.val / 5) + r.val, by omega⟩ : Fin 100000)) (b := o)
      (by show win2_4.index t 0 * 5000 + 1 * r.val = 5000 * (t.val / 5) + r.val; omega)
      (by show win2_4.index t 1 * 64 + 1 * o.val = o.val; omega),
    acc_run5 (acc2 V c) (k2_pay1 (F := Ideal)) (fun n h => upd V c ⟨n, h⟩) (addend V c)
      (fun n h h0 => by cases n with | zero => rfl | succ m => rw [acc2, if_pos h0])
      (fun n h h0 => by rw [acc2, if_neg h0])
      (fun y => by unfold k2_pay1; rw [shapeCast_self]; exact Ideal.ofBits_zero_f32) (fun n h => upd_apply V c ⟨n, h⟩) t.val t.isLt h4]
  exact sum_run (fun i e => term V c i e o) (t.val / 5) r.val _

-- The twenty blocks of 5000 rows tile the array.
theorem cover (j : S100000x64.Idx) :
    ∃ t : Fin cfg2.N, (cfg2.win 4).flush t = true ∧ j ∈ ((cfg2.win 4).blk t).view.set := by
  have hN : cfg2.N = 100 := N_2
  have h0 := idx2_lt0 j
  obtain ⟨t, ht⟩ : ∃ t : Fin cfg2.N, t.val = 5 * ((j 0).val / 5000) + 4 := ⟨⟨_, by omega⟩, rfl⟩
  obtain ⟨-, -, -, -, -, -, -, -, -, -, -, -, q0, q1⟩ := idx t
  refine ⟨t, (flush2_4 t).mpr (by omega), ?_⟩
  show j ∈ ((View.whole main_v207).slice (win2_4.rect t)).set
  rw [View.set_slice_whole, Rect.mem_set_unit]
  exact mem_rows j _ (by rw [q0]; omega) q1

end Reg2

theorem reg2_value (c : Dev nD) (i : Fin 100000) (o : Fin 64) :
    ((dat2 V c).arrAt 4 cfg2.N : Vec Ideal S100000x64 .f32) (ix2 i o)
      = Spec.combine2 (fun e i o => (V c (Pipeline.arrRef spec2 0) : Vec Ideal S5x100000x64 .f32) (ix3 e i o))
          (fun e i o => (V c (Pipeline.arrRef spec2 1) : Vec Ideal S5x100000x64 .f32) (ix3 e i o))
          (fun e i => (V c (Pipeline.arrRef spec2 2) : Vec Ideal S5x100000x1 .f32) (ix3 e i (0 : Fin 1)))
          (fun e o => (V c (Pipeline.arrRef spec2 3) : Vec Ideal S5x1x64 .f32) (ix3 e (0 : Fin 1) o)) i o := by
  rw [(dat2 V c).arrAt_eq_of_cover 4 (Reg2.outG V c) (Reg2.flushed_eq V c) Reg2.cover]
  rfl

end Cert.KernelIdeal.Val

end
-- ==== Proof.KI.ValReg3.lean ====
import proofs.«424244_j62423054680132_3_alg».proof.Proof.KI.ValDot
import Idealize.ShloMosaic.Lib.IdealHost
import Mathlib.Algebra.BigOperators.Intervals
import Mathlib.Algebra.BigOperators.Fin

noncomputable section

namespace Cert.KernelIdeal.Val

open Idealize.ShloMosaic Idealize.ShloMosaic.TcCoe
open Idealize.SL Idealize.SL.Sem
open Idealize.ShloMosaic.Pipeline (Dat Cfg Window)
open Cert.KernelIdeal Cert.KernelIdeal.Gen Cert.KernelIdeal.Hand Idealize.ShloMosaic.ValueIdx
open scoped BigOperators

variable (V : (c : Dev nD) → (b : Ref sig .tc) → Buf (Elt Ideal) ((c : Thread nD τ).loc b))

namespace Reg3

theorem pay1_apply (g j : Fin 64) : (k3_pay1 (F := Ideal)) (ix2 g j) = 0 := by
  unfold k3_pay1
  rw [shapeCast_self]
  exact Ideal.ofBits_zero_f32

theorem pay2_apply (g : Fin 64) (z : Fin 1) : (k3_pay2 (F := Ideal)) (ix2 g z) = 0 := by
  unfold k3_pay2
  rw [shapeCast_self]
  exact Ideal.ofBits_zero_f32

theorem toInt_word (g : Fin 64) : (BitVec.ofNat 32 g.val).toInt = (g.val : ℤ) := by
  have hg := g.isLt
  have hn : (BitVec.ofNat 32 g.val).toNat = g.val := by rw [BitVec.toNat_ofNat]; omega
  rw [BitVec.toInt_eq_toNat_of_lt (by rw [hn]; omega), hn]

theorem word_eq_iff (b : BitVec 32) (g : Fin 64) : b = BitVec.ofNat 32 g.val ↔ b.toInt = (g.val : ℤ) :=
  ⟨fun h => h ▸ toInt_word g, fun h => BitVec.eq_of_toInt_eq (h.trans (toInt_word g).symm)⟩

-- Comparing a word with the word of g < 64 tests whether its signed reading is g.
theorem pay3_apply (v5 : Vec Ideal S5000x1 .i32) (r : Fin 5000) (g : Fin 64) :
    k3_pay3 (F := Ideal) v5 (ix2 r g) = if (v5 (ix2 r 0) : BitVec 32).toInt = (g.val : ℤ) then 1 else 0 := by
  unfold k3_pay3
  rw [shapeCast_self, sitofp_apply, extui_apply]
  show FloatOps.sitofp (F := Ideal) .f32 ((IntOp.cmpi .eq (broadcastTo S5000x64 v5 broadcasts_S5000x1_S5000x64 (ix2 r g))
      (broadcastTo S5000x64 (iota .tc S1x64 32 [1] iota_S1x64_d1_w32) broadcasts_S1x64_S5000x64 (ix2 r g))).setWidth 32) = _
  rw [broadcastTo_apply v5 broadcasts_S5000x1_S5000x64 (ix2 r g) (ix2 r 0) (fun a => by match a with | ⟨0, _⟩ => rfl | ⟨1, _⟩ => rfl),
    broadcastTo_apply (iota .tc S1x64 32 [1] iota_S1x64_d1_w32) broadcasts_S1x64_S5000x64 (ix2 r g) (ix2 0 g)
      (fun a => by match a with | ⟨0, _⟩ => rfl | ⟨1, _⟩ => rfl), iota_single_apply]
  show (((((IntOp.cmpi .eq (v5 (ix2 r 0)) (BitVec.ofNat 32 g.val)).setWidth 32).toInt : ℤ) : ℝ) : EReal) = _
  by_cases h : (v5 (ix2 r 0) : BitVec 32).toInt = (g.val : ℤ)
  · rw [if_pos h, IntOp.cmpi_eq.mpr ((word_eq_iff _ g).mpr h), show ((1#1 : BitVec 1).setWidth 32).toInt = 1 by decide]
    simp
  · rw [if_neg h, eq_zero_of_ne_one (fun e => h ((word_eq_iff _ g).mp (IntOp.cmpi_eq.mp e))),
      show ((0#1 : BitVec 1).setWidth 32).toInt = 0 by decide]
    simp

theorem pay4_apply (v3 : Vec Ideal S5000x64 .f32) (v5 : Vec Ideal S5000x1 .i32) (v16 : Vec Ideal S64x64 .f32) (g j : Fin 64) :
    k3_pay4 (F := Ideal) v3 v5 v16 (ix2 g j)
      = v16 (ix2 g j) + ∑ r : Fin 5000, k3_pay3 (F := Ideal) v5 (ix2 r g) * v3 (ix2 r j) := by
  unfold k3_pay4
  rw [shapeCast_self, shapeCast_self]
  exact congrArg (v16 (ix2 g j) + ·) (dot0_apply _ 5000 rfl rfl _ _ _ _ (ix2 · g) (ix2 · j))

theorem pay5_apply (v5 : Vec Ideal S5000x1 .i32) (v21 : Vec Ideal S64x1 .f32) (g : Fin 64) (z : Fin 1) :
    k3_pay5 (F := Ideal) v5 v21 (ix2 g z)
      = v21 (ix2 g z) + ∑ r : Fin 5000, k3_pay3 (F := Ideal) v5 (ix2 r g) * 1 := by
  unfold k3_pay5
  rw [shapeCast_self]
  refine congrArg (v21 (ix2 g z) + ·) (Eq.trans (dot0_apply _ 5000 rfl rfl _ _ _ _ (ix2 · g) (ix2 · z))
    (Finset.sum_congr rfl fun r _ => ?_))
  exact congrArg (k3_pay3 (F := Ideal) v5 (ix2 r g) * ·) Ideal.ofBits_one_f32

theorem pay6_apply (v29 : Vec Ideal S64x64 .f32) (v30 : Vec Ideal S64x1 .f32) (g j : Fin 64) :
    k3_pay6 (F := Ideal) v29 v30 (ix2 g j) = Ideal.div (v29 (ix2 g j)) (max (v30 (ix2 g 0)) 1) := by
  unfold k3_pay6
  refine congrArg (Ideal.div (v29 (ix2 g j)) ·) ?_
  refine (broadcastTo_apply _ broadcasts_S64x1_S64x64 (ix2 g j) (ix2 g 0) (fun a => by match a with | ⟨0, _⟩ => rfl | ⟨1, _⟩ => rfl)).trans ?_
  exact congrArg (max (v30 (ix2 g 0)) ·) Ideal.ofBits_one_f32

abbrev Harr (c : Dev nD) : Vec Ideal S100000x64 .f32 := V c (Pipeline.arrRef spec3 0)
abbrev Garr (c : Dev nD) : Vec Ideal S100000x1 .i32 := V c (Pipeline.arrRef spec3 1)
abbrev hblk (c : Dev nD) (t : Fin cfg3.N) : Vec Ideal S5000x64 .f32 := iblk3 V c 0 t
abbrev gblk (c : Dev nD) (t : Fin cfg3.N) : Vec Ideal S5000x1 .i32 := iblk3 V c 1 t

def Hf (c : Dev nD) (r : Fin 100000) (j : Fin 64) : EReal := Harr V c (ix2 r j)
def gIf (c : Dev nD) (r : Fin 100000) : ℤ := (Garr V c (ix2 r 0) : BitVec 32).toInt

theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

theorem hblk_apply (c : Dev nD) (t : Fin cfg3.N) (y : Fin 5000) (j : Fin 64) (h : 5000 * t.val + y.val < 100000) :
    hblk V c t (ix2 y j) = Hf V c ⟨5000 * t.val + y.val, h⟩ j := by
  obtain ⟨h0, h1, -⟩ := idx3 t
  show V c (Pipeline.arrRef spec3 0) _ = V c (Pipeline.arrRef spec3 0) _
  refine congrArg _ (Shape.idx_ext₂ ?_ ?_)
  · show win3_0.index t 0 * 5000 + 1 * y.val = 5000 * t.val + y.val; omega
  · show win3_0.index t 1 * 64 + 1 * j.val = j.val; omega

theorem gblk_apply (c : Dev nD) (t : Fin cfg3.N) (y : Fin 5000) (h : 5000 * t.val + y.val < 100000) :
    gblk V c t (ix2 y 0) = Garr V c (ix2 ⟨5000 * t.val + y.val, h⟩ 0) := by
  obtain ⟨-, -, h0, h1, -⟩ := idx3 t
  show V c (Pipeline.arrRef spec3 1) _ = V c (Pipeline.arrRef spec3 1) _
  refine congrArg _ (Shape.idx_ext₂ ?_ ?_)
  · show win3_1.index t 0 * 5000 + 1 * y.val = 5000 * t.val + y.val; omega
  · show win3_1.index t 1 * 1 + 1 * 0 = 0; omega

-- Row r's share of graph g's sum of the values X (zero past the last row); the count is the sum of ones.
def term (c : Dev nD) (X : Fin 100000 → EReal) (g : Fin 64) (r : ℕ) : EReal :=
  if h : r < 100000 then Spec.hot (gIf V c) ⟨r, h⟩ g * X ⟨r, h⟩ else 0

theorem block (c : Dev nD) (n : ℕ) (hn : n < cfg3.N) (g : Fin 64) (X : Fin 100000 → EReal) (x : Fin 5000 → EReal)
    (hx : ∀ y h, x y = X ⟨5000 * n + y.val, h⟩) :
    ∑ y : Fin 5000, k3_pay3 (F := Ideal) (gblk V c ⟨n, hn⟩) (ix2 y g) * x y
      = ∑ i ∈ Finset.range 5000, term V c X g (5000 * n + i) := by
  have hN : cfg3.N = 20 := N_3
  rw [Finset.sum_range]
  refine Finset.sum_congr rfl fun y _ => ?_
  have h : 5000 * n + y.val < 100000 := by have := y.isLt; omega
  unfold term
  rw [dif_pos h, hx y h, pay3_apply, gblk_apply V c ⟨n, hn⟩ y h]
  rfl

-- One induction for both accumulators, the sums and the counts.
theorem run_sum {N : ℕ} (B : ℕ) (T : ℕ → EReal) (f : (n : ℕ) → n < N → EReal)
    (h0 : ∀ h, f 0 h = 0 + ∑ i ∈ Finset.range B, T (B * 0 + i))
    (hs : ∀ n h, f (n + 1) h = f n (Nat.lt_of_succ_lt h) + ∑ i ∈ Finset.range B, T (B * (n + 1) + i)) :
    ∀ n h, f n h = ∑ r ∈ Finset.range (B * (n + 1)), T r
  | 0, h => by rw [h0, mul_add_one, Finset.sum_range_add, Nat.mul_zero, Finset.sum_range_zero]
  | n + 1, h => by rw [hs, run_sum B T f h0 hs n, mul_add_one B (n + 1), Finset.sum_range_add]

theorem sums3_eq (c : Dev nD) (g j : Fin 64) (n : ℕ) (hn : n < cfg3.N) :
    (sums3 V c n hn : Vec Ideal S64x64 .f32) (ix2 g j)
      = ∑ r ∈ Finset.range (5000 * (n + 1)), term V c (Hf V c · j) g r :=
  run_sum 5000 _ (fun n hn => (sums3 V c n hn : Vec Ideal S64x64 .f32) (ix2 g j))
    (fun h => by
      show k3_pay4 (F := Ideal) _ _ _ _ = _
      rw [pay4_apply, pay1_apply, block V c 0 h g (Hf V c · j) _ fun y h' => hblk_apply V c ⟨0, h⟩ y j h'])
    (fun n h => by
      show k3_pay4 (F := Ideal) _ _ _ _ = _
      rw [pay4_apply, block V c (n + 1) h g (Hf V c · j) _ fun y h' => hblk_apply V c ⟨n + 1, h⟩ y j h']) n hn

theorem cnt3_eq (c : Dev nD) (g : Fin 64) (n : ℕ) (hn : n < cfg3.N) :
    (cnt3 V c n hn : Vec Ideal S64x1 .f32) (ix2 g 0) = ∑ r ∈ Finset.range (5000 * (n + 1)), term V c (fun _ => 1) g r :=
  run_sum 5000 _ (fun n hn => (cnt3 V c n hn : Vec Ideal S64x1 .f32) (ix2 g 0))
    (fun h => by
      show k3_pay5 (F := Ideal) _ _ _ = _
      rw [pay5_apply, pay2_apply, block V c 0 h g (fun _ => 1) (fun _ => 1) fun _ _ => rfl])
    (fun n h => by
      show k3_pay5 (F := Ideal) _ _ _ = _
      rw [pay5_apply, block V c (n + 1) h g (fun _ => 1) (fun _ => 1) fun _ _ => rfl]) n hn

theorem term_total (c : Dev nD) (X : Fin 100000 → EReal) (g : Fin 64) :
    ∑ r ∈ Finset.range 100000, term V c X g r = ∑ r : Fin 100000, Spec.hot (gIf V c) r g * X r := by
  rw [Finset.sum_range]
  refine Finset.sum_congr rfl fun r _ => ?_
  unfold term
  rw [dif_pos r.isLt]

def Gout (c : Dev nD) : Vec Ideal S64x64 .f32 := fun i => Spec.poolK (Hf V c) (gIf V c) (i 0) (i 1)

theorem out3_last (c : Dev nD) (t : Fin cfg3.N) (ht : t.val = 19) : (out3 V c t : Vec Ideal S64x64 .f32) = Gout V c := by
  obtain ⟨n, hn⟩ := t
  obtain rfl : n = 19 := ht
  funext i
  obtain ⟨g, j, rfl⟩ : ∃ (g j : Fin 64), i = ix2 g j := ⟨i 0, i 1, eq_ix2 i⟩
  show k3_pay6 (F := Ideal) (sums3 V c 19 hn) (cnt3 V c 19 hn) (ix2 g j) = Spec.poolK (Hf V c) (gIf V c) g j
  rw [pay6_apply, sums3_eq, cnt3_eq, term_total, term_total]
  rfl

abbrev tLast : Fin cfg3.N := ⟨19, by rw [show cfg3.N = 20 from N_3]; decide⟩

theorem reg3_array (c : Dev nD) : (dat3 V c).arrAt 2 cfg3.N = Gout V c := by
  have hN : cfg3.N = 20 := N_3
  have hz (t : Fin cfg3.N) : (fun a => win3_2.index t a * main_v209.ty.shape.size a) = fun _ => 0 := by
    obtain ⟨-, -, -, -, h0, h1⟩ := idx3 t
    funext a
    match a with
    | ⟨0, _⟩ => show win3_2.index t 0 * 64 = 0; rw [h0]
    | ⟨1, _⟩ => show win3_2.index t 1 * 64 = 0; rw [h1]
  refine (dat3 V c).arrAt_eq_of_cover 2 (Gout V c) (fun t hf => ?_) fun i => ⟨tLast, (flush3_2 tLast).mpr rfl, ?_⟩
  · show (cfg3.win 2).cut (grid3.coords t) (out3 V c t) = _
    rw [out3_last V c t (by have := (flush3_2 t).mp hf; have := t.isLt; omega)]
    exact (Memref.read_access_unit_zero (Elt Ideal) main_v209 (hz t) (fun a => by rw [congrFun (hz t) a]; simp) (Gout V c)).symm
  · show i ∈ ((View.whole main_v209).slice (win3_2.rect tLast)).set
    rw [View.set_slice_whole]
    exact View.mem_set_unit_zero (hz tLast) _ i

end Reg3

theorem reg3_value (c : Dev nD) (g : Fin 64) (j : Fin 64) :
    ((dat3 V c).arrAt 2 cfg3.N : S64x64.Idx → Ideal .f32) (ix2 g j)
      = Spec.poolK (fun r j => (V c (Pipeline.arrRef spec3 0) : S100000x64.Idx → Ideal .f32) (ix2 r j))
          (fun r => ((V c (Pipeline.arrRef spec3 1) : S100000x1.Idx → BitVec 32) (ix2 r 0)).toInt) g j := by
  rw [Reg3.reg3_array V c]
  rfl

end Cert.KernelIdeal.Val

end
-- ==== Proof.Args.lean ====
import Idealize.ShloMosaic.PureOps.Ideal
import Idealize.ShloMosaic.Lib.ValueIdx

noncomputable section

namespace Cert.Args

open Idealize.ShloMosaic Idealize.ShloMosaic.ValueIdx

def featOf (a : FVec Ideal ⟨2, ![100000, 23]⟩ .f32) (i : Fin 100000) (k : Fin 23) : EReal := a (ix2 i k)

-- A negative source index has 100000 added once (32-bit); the row read is that value clamped into [0, 99999].
def wrapIdx (s : BitVec 32) : BitVec 32 := if BitVec.slt s 0#32 then s + 100000#32 else s

def srcRowOf (a : IVec ⟨2, ![5, 800000]⟩ 32) (e : Fin 5) (j : Fin 800000) : Fin 100000 :=
  ⟨min (wrapIdx (a (ix2 e j))).toInt.toNat 99999, by omega⟩

def dstIntOf (a : IVec ⟨2, ![5, 800000]⟩ 32) (e : Fin 5) (j : Fin 800000) : ℤ := (a (ix2 e j)).toInt

def gidIntOf (a : IVec ⟨1, ![100000]⟩ 32) (r : Fin 100000) : ℤ := (a (ix1 r)).toInt

def w1Of (a : FVec Ideal ⟨3, ![5, 23, 128]⟩ .f32) (e : Fin 5) (k : Fin 23) (o : Fin 128) : EReal := a (ix3 e k o)
def b1Of (a : FVec Ideal ⟨2, ![5, 128]⟩ .f32) (e : Fin 5) (o : Fin 128) : EReal := a (ix2 e o)
def w2Of (a : FVec Ideal ⟨3, ![5, 128, 64]⟩ .f32) (e : Fin 5) (k : Fin 128) (o : Fin 64) : EReal := a (ix3 e k o)
def b2Of (a : FVec Ideal ⟨2, ![5, 64]⟩ .f32) (e : Fin 5) (o : Fin 64) : EReal := a (ix2 e o)

end Cert.Args

end
-- ==== Proof.LibGatherScatter.lean ====
import Idealize.ShloMosaic.PureOps.Ideal
import Idealize.ShloMosaic.Lib.ValueIdx

namespace Cert.LibGatherScatter

open Idealize.ShloMosaic Idealize.ShloMosaic.ValueIdx

/-- Rows taken at a column of start positions: each start position is read signed and clamped into the rows. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  obtain ⟨od, cd, ob, sb, sm, iv, ss, wf⟩ := d
  dsimp only at hoff hcoll hob hsim hivd hss
  subst hoff hcoll hob hsim hivd hss
  have hsi : ∀ hc, GatherDims.siIdx (⟨[1], [0], [], sb, [0], 1, ![1, D], wf⟩ : GatherDims ⟨2, ![N, D]⟩ ⟨2, ![n, 1]⟩ ⟨2, ![n, D]⟩) (ix2 p q) ⟨0, hc⟩ = ix2 p (0 : Fin 1) :=
    fun hc => funext fun b => by
      match b with
      | ⟨0, _⟩ => exact Fin.ext rfl
      | ⟨1, _⟩ => exact Fin.ext rfl
  unfold Host.gather
  refine congrArg x (funext fun a => Fin.ext ?_)
  match a with
  | ⟨0, _⟩ => exact congrArg (fun i => min (idx i).toInt.toNat (N - 1)) (hsi _)
  | ⟨1, _⟩ => exact Nat.zero_add _

/-- An update lands on an element exactly when, on every axis, start plus window coordinate is the element's coordinate. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv := congrArg Fin.val hf
      simp only at hv
      have := (h a).1
      omega
    · intro hall
      congr 1
      funext a
      apply Fin.ext
      show (d.start j idx a + (d.window j a : ℤ)).toNat = (i a).val
      rw [hall a]; exact Int.toNat_natCast _
  · rename_i h
    constructor
    · intro heq; cases heq
    · intro hall
      exfalso; apply h
      intro a
      rw [hall a]
      exact ⟨Int.natCast_nonneg _, by exact_mod_cast (i a).isLt⟩

theorem resultIdx?_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (e : Fin n) (c : Fin N) :
    d.resultIdx? (ix1 e) idx = some (ix1 c) ↔ (idx (ix2 e (0 : Fin 1))).toInt = (c.val : ℤ) := by
  obtain ⟨uw, iw, sd, iv, wf⟩ := d
  dsimp only at huw hins hsd hivd
  subst huw hins hsd hivd
  rw [resultIdx?_eq_some_iff]
  have hsi : ∀ hc, ScatterDims.siIdx ⟨[], [0], [0], 1, wf⟩ (ix1 e) ⟨0, hc⟩ = ix2 e (0 : Fin 1) := fun hc => funext fun b => by
    match b with
    | ⟨0, _⟩ => exact Fin.ext rfl
    | ⟨1, _⟩ => exact Fin.ext rfl
  have key : ∀ a : Fin 1, ScatterDims.start ⟨[], [0], [0], 1, wf⟩ (ix1 e) idx a
      + (ScatterDims.window ⟨[], [0], [0], 1, wf⟩ (ix1 e) a : ℤ) = (idx (ix2 e (0 : Fin 1))).toInt := fun a => by
    match a with
    | ⟨0, _⟩ => exact (Int.add_zero _).trans (congrArg (fun i => (idx i).toInt) (hsi _))
  exact ⟨fun h => (key 0).symm.trans (h 0), fun h a => (key a).trans (by match a with | ⟨0, _⟩ => exact h)⟩

/-- Updates accumulated into a vector: an element gains the updates whose start position, read signed, is its own. -/
theorem scatterAdd_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (x : FVec Ideal ⟨1, ![N]⟩ .f32) (idx : IVec ⟨2, ![n, 1]⟩ w) (u : FVec Ideal ⟨1, ![n]⟩ .f32) (c : Fin N) :
    Host.scatterAdd d x idx u (ix1 c)
      = x (ix1 c) + ∑ e ∈ Finset.univ.filter (fun e : Fin n => (idx (ix2 e (0 : Fin 1))).toInt = (c.val : ℤ)), u (ix1 e) := by
  show Ideal.hostScatterAdd d x idx u (ix1 c) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_vec d huw hins hsd hivd idx _ c).1 h2⟩
  · intro e he
    exact Finset.mem_filter.2 ⟨Finset.mem_univ _, (resultIdx?_vec d huw hins hsd hivd idx e c).2 (Finset.mem_filter.1 he).2⟩
  · intro jj _; exact (eq_ix1 jj).symm
  · intro e _; rfl
  · intro jj _; exact congrArg u (eq_ix1 jj)

theorem resultIdx?_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (idx : IVec ⟨2, ![n, 1]⟩ w) (e : Fin n) (j' : Fin D) (c : Fin N) (j : Fin D) :
    d.resultIdx? (ix2 e j') idx = some (ix2 c j) ↔ (idx (ix2 e (0 : Fin 1))).toInt = (c.val : ℤ) ∧ j' = j := by
  obtain ⟨uw, iw, sd, iv, wf⟩ := d
  dsimp only at huw hins hsd hivd
  subst huw hins hsd hivd
  rw [resultIdx?_eq_some_iff]
  have hsi : ∀ hc, ScatterDims.siIdx ⟨[1], [0], [0], 1, wf⟩ (ix2 e j') ⟨0, hc⟩ = ix2 e (0 : Fin 1) := fun hc => funext fun b => by
    match b with
    | ⟨0, _⟩ => exact Fin.ext rfl
    | ⟨1, _⟩ => exact Fin.ext rfl
  have k0 : ScatterDims.start ⟨[1], [0], [0], 1, wf⟩ (ix2 e j') idx 0
      + (ScatterDims.window ⟨[1], [0], [0], 1, wf⟩ (ix2 e j') 0 : ℤ) = (idx (ix2 e (0 : Fin 1))).toInt :=
    (Int.add_zero _).trans (congrArg (fun i => (idx i).toInt) (hsi _))
  have k1 : ScatterDims.start ⟨[1], [0], [0], 1, wf⟩ (ix2 e j') idx 1
      + (ScatterDims.window ⟨[1], [0], [0], 1, wf⟩ (ix2 e j') 1 : ℤ) = (j'.val : ℤ) := Int.zero_add _
  refine ⟨fun h => ⟨k0.symm.trans (h 0), ?_⟩, fun h a => ?_⟩
  · have h1 : (j'.val : ℤ) = (j.val : ℤ) := k1.symm.trans (h 1)
    exact Fin.ext (by omega)
  · match a with
    | ⟨0, _⟩ => exact k0.trans h.1
    | ⟨1, _⟩ => exact k1.trans (congrArg (fun t : Fin D => (t.val : ℤ)) h.2)

/-- Rows accumulated into a matrix: an element gains, in its column, the rows whose start position is its row. -/
theorem scatterAdd_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u : FVec Ideal ⟨2, ![n, D]⟩ .f32) (c : Fin N) (j : Fin D) :
    Host.scatterAdd d x idx u (ix2 c j)
      = x (ix2 c j) + ∑ e ∈ Finset.univ.filter (fun e : Fin n => (idx (ix2 e (0 : Fin 1))).toInt = (c.val : ℤ)), u (ix2 e j) := by
  show Ideal.hostScatterAdd d x idx u (ix2 c j) = _
  unfold Ideal.hostScatterAdd
  congr 1
  have key : ∀ jj : (⟨2, ![n, D]⟩ : Shape).Idx, d.resultIdx? jj idx = some (ix2 c j) →
      (idx (ix2 (jj 0 : Fin n) (0 : Fin 1))).toInt = (c.val : ℤ) ∧ (jj 1 : Fin D) = j := fun jj h => by
    rw [eq_ix2 jj] at h
    exact (resultIdx?_rows d huw hins hsd hivd idx _ _ c j).1 h
  refine Finset.sum_bij' (fun jj _ => (jj 0 : Fin n)) (fun e _ => ix2 e j) ?_ ?_ ?_ ?_ ?_
  · intro jj hjj
    exact Finset.mem_filter.2 ⟨Finset.mem_univ _, (key jj (Finset.mem_filter.1 hjj).2).1⟩
  · intro e he
    exact Finset.mem_filter.2 ⟨Finset.mem_univ _,
      (resultIdx?_rows d huw hins hsd hivd idx e j c j).2 ⟨(Finset.mem_filter.1 he).2, rfl⟩⟩
  · intro jj hjj
    have h2 := (key jj (Finset.mem_filter.1 hjj).2).2
    rw [eq_ix2 jj]
    exact congrArg (fun t => ix2 (jj 0 : Fin n) t) h2.symm
  · intro e _; rfl
  · intro jj hjj
    have h2 := (key jj (Finset.mem_filter.1 hjj).2).2
    show u jj = u (ix2 (jj 0 : Fin n) j)
    rw [← h2]
    exact congrArg u (eq_ix2 jj)

end Cert.LibGatherScatter
-- ==== Proof.KI.ValHost0.lean ====
import proofs.«424244_j62423054680132_3_alg».proof.Proof.Gen.KernelIdeal.Launch
import proofs.«424244_j62423054680132_3_alg».proof.Proof.Spec
import proofs.«424244_j62423054680132_3_alg».proof.Proof.Args
import proofs.«424244_j62423054680132_3_alg».proof.Proof.LibGatherScatter
import Idealize.ShloMosaic.Lib.StableHlo.Run
import Idealize.ShloMosaic.Lib.ValueLayout
import Idealize.ShloMosaic.Lib.IdealHost

set_option maxRecDepth 16384

noncomputable section

namespace Cert.KernelIdeal.Val

open Idealize.ShloMosaic Idealize.ShloMosaic.TcCoe Idealize.ShloMosaic.ValueIdx
open Cert.KernelIdeal Cert.KernelIdeal.Gen

namespace Host0

def rowT (x : IVec S5x800000 32) (o : Nat) (h : S5x800000.Slices ![o, 0] S1x800000) : IVec S800000 32 :=
  shapeCast S800000 (extractStridedSlice S1x800000 ![o, 0] x h) shapeCasts_S1x800000_S800000

def colT (v : IVec S800000 32) : IVec S800000x1 32 := broadcastInDim S800000x1 ![0] bcast_S800000_S800000x1_0 v

def wrapT (s : IVec S800000 32) : IVec S800000 32 :=
  select (cmpi .slt s (broadcastInDim S800000 ![] bcast_S_S800000 (constantI S_ 32 0#32)))
    (addi s (broadcastInDim S800000 ![] bcast_S_S800000 (constantI S_ 32 100000#32))) s

def degRow (x : IVec S5x800000 32) (o : Nat) (h : S5x800000.Slices ![o, 0] S1x800000) : FVec Ideal S1x100000 .f32 :=
  broadcastInDim S1x100000 ![1] bcast_S100000_S1x100000_1
    (Host.scatterAdd scatter_S100000_S800000x1_S800000_n_0_0_1
      (broadcastInDim S100000 ![] bcast_S_S100000 (constant (F := Ideal) S_ .f32 0x00000000#32))
      (colT (rowT x o h))
      (broadcastInDim S800000 ![] bcast_S_S800000 (constant (F := Ideal) S_ .f32 0x3F800000#32)))

theorem slicesAt (n : Fin 5) : S5x800000.Slices ![n.val, 0] S1x800000 := by revert n; decide

def invT (x : IVec S5x800000 32) : FVec Ideal S5x100000x1 .f32 :=
  shapeCast S5x100000x1
    (Host.divf (F := Ideal)
      (broadcastInDim S5x100000 ![] bcast_S_S5x100000 (constant (F := Ideal) S_ .f32 0x3F800000#32))
      (addf
        (concatenate S5x100000 0 (List.ofFn fun n : Fin 5 => ⟨S1x100000, degRow x n.val (slicesAt n)⟩)
          concatenates_S1x100000_S1x100000_S1x100000_S1x100000_S1x100000_S5x100000_d0)
        (broadcastInDim S5x100000 ![] bcast_S_S5x100000 (constant (F := Ideal) S_ .f32 0x3F800000#32))))
    shapeCasts_S5x100000_S5x100000x1

def aggT {D : Nat} (ds : ScatterDims ⟨2, ![100000, D]⟩ S800000x1 ⟨2, ![800000, D]⟩)
    (dg : GatherDims ⟨2, ![100000, D]⟩ S800000x1 ⟨2, ![800000, D]⟩) (hb : S_.BroadcastsInDim ⟨2, ![100000, D]⟩ ![])
    (X : FVec Ideal ⟨2, ![100000, D]⟩ .f32) (s d : IVec S800000 32) : FVec Ideal ⟨2, ![100000, D]⟩ .f32 :=
  Host.scatterAdd ds (broadcastInDim _ ![] hb (constant (F := Ideal) S_ .f32 0x00000000#32)) (colT d)
    (Host.gather dg X (colT (wrapT s)))

def aggRow (feat : FVec Ideal S100000x23 .f32) (xs xd : IVec S5x800000 32) (o : Nat) (h : S5x800000.Slices ![o, 0] S1x800000) :
    FVec Ideal S1x100000x23 .f32 :=
  broadcastInDim S1x100000x23 ![1, 2] bcast_S100000x23_S1x100000x23_1_2
    (aggT scatter_S100000x23_S800000x1_S800000x23_1_0_0_1 gather_S100000x23_S800000x1_S800000x23_1_0_n_n_0_1_123
      bcast_S_S100000x23 feat (rowT xs o h) (rowT xd o h))

def aggAllT (feat : FVec Ideal S100000x23 .f32) (xs xd : IVec S5x800000 32) : FVec Ideal S5x100000x23 .f32 :=
  concatenate S5x100000x23 0 (List.ofFn fun n : Fin 5 => ⟨S1x100000x23, aggRow feat xs xd n.val (slicesAt n)⟩)
    concatenates_S1x100000x23_S1x100000x23_S1x100000x23_S1x100000x23_S1x100000x23_S5x100000x23_d0

theorem rowT_apply (x : IVec S5x800000 32) (e : Fin 5) (h : S5x800000.Slices ![e.val, 0] S1x800000) (j : Fin 800000) :
    rowT x e.val h (ix1 j) = x (ix2 e j) := by
  unfold rowT
  exact (shapeCast_1a_a_apply _ _ j).trans (slice2_axis0_apply e.val x h (0 : Fin 1) j e rfl)

theorem colT_apply (v : IVec S800000 32) (j : Fin 800000) : colT v (ix2 j (0 : Fin 1)) = v (ix1 j) :=
  broadcastInDim_apply _ _ _ _ _ (fun a => by match a with | ⟨0, _⟩ => rfl)

theorem wrapT_apply (s : IVec S800000 32) (j : Fin 800000) : wrapT s (ix1 j) = Args.wrapIdx (s (ix1 j)) := by
  show Scalar.select (IntOp.cmpi .slt (s (ix1 j)) 0#32) (IntOp.addi (s (ix1 j)) 100000#32) (s (ix1 j)) = _
  unfold Scalar.select IntOp.cmpi IntOp.addi Args.wrapIdx
  dsimp only
  generalize BitVec.slt (s (ix1 j)) 0#32 = t
  cases t <;> rfl

theorem degRow_apply (x : IVec S5x800000 32) (e : Fin 5) (h : S5x800000.Slices ![e.val, 0] S1x800000) (i : Fin 100000) :
    degRow x e.val h (ix2 (0 : Fin 1) i) = Spec.deg (Args.dstIntOf x) e i := by
  unfold degRow Spec.deg Spec.inEdges Args.dstIntOf
  refine (broadcastInDim_apply _ _ _ _ (ix1 i) (fun a => by match a with | ⟨0, _⟩ => rfl)).trans ?_
  rw [LibGatherScatter.scatterAdd_vec _ rfl rfl rfl rfl, broadcastInDim_scalar_apply, constant_apply, Ideal.ofBits_zero_f32, zero_add]
  refine Finset.sum_congr (Finset.filter_congr fun j _ => by rw [colT_apply, rowT_apply]) fun j _ => ?_
  rw [broadcastInDim_scalar_apply, constant_apply, Ideal.ofBits_one_f32]

theorem invT_apply (x : IVec S5x800000 32) (e : Fin 5) (i : Fin 100000) :
    invT x (ix3 e i (0 : Fin 1)) = Spec.inv (Args.dstIntOf x) e i := by
  unfold invT
  refine (shapeCast_apply _ _ (ix3 e i (0 : Fin 1)) (ix2 e i) ?_).trans ?_
  · rw [Shape.rowMajor_val_two, Shape.rowMajor_val_three]
    show e.val * 100000 + i.val = (e.val * 100000 + i.val) * 1 + 0
    omega
  rw [hostDivf_apply, addf_apply, broadcastInDim_scalar_apply, constant_apply, Ideal.ofBits_one_f32]
  exact congrArg (fun v => Ideal.div 1 (v + 1)) ((concatenate_ofFn_unit_apply (t := S5x100000) (s₁ := S1x100000) 0
    (fun n : Fin 5 => degRow x n.val (slicesAt n)) _ rfl rfl (ix2 e i) e rfl (ix2 (0 : Fin 1) i)
    (fun b hb => by match b with | ⟨0, _⟩ => exact absurd rfl hb | ⟨1, _⟩ => rfl)).trans (degRow_apply x e _ i))

-- The rows gathered at the wrapped, clamped sources and summed over the edges into a node are the aggregate, at any row width.
theorem aggT_row {D : Nat} (ds : ScatterDims ⟨2, ![100000, D]⟩ S800000x1 ⟨2, ![800000, D]⟩)
    (dg : GatherDims ⟨2, ![100000, D]⟩ S800000x1 ⟨2, ![800000, D]⟩)
    (h1 : ds.updateWindowDims = [1]) (h2 : ds.insertedWindowDims = [0]) (h3 : ds.scatterDimsToOperandDims = [0])
    (h4 : ds.indexVectorDim = 1) (g1 : dg.offsetDims = [1]) (g2 : dg.collapsedSliceDims = [0]) (g3 : dg.operandBatchingDims = [])
    (g4 : dg.startIndexMap = [0]) (g5 : dg.indexVectorDim = 1) (g6 : dg.sliceSizes = ![1, D])
    (hb : S_.BroadcastsInDim ⟨2, ![100000, D]⟩ ![]) (X : FVec Ideal ⟨2, ![100000, D]⟩ .f32) (xs xd : IVec S5x800000 32) (e : Fin 5)
    (h : S5x800000.Slices ![e.val, 0] S1x800000) (i : Fin 100000) (k : Fin D) :
    aggT ds dg hb X (rowT xs e.val h) (rowT xd e.val h) (ix2 i k)
      = Spec.agg (Args.dstIntOf xd) (Args.srcRowOf xs) (fun i k => X (ix2 i k)) e i k := by
  unfold aggT Spec.agg Spec.inEdges Args.dstIntOf Args.srcRowOf
  rw [LibGatherScatter.scatterAdd_rows ds h1 h2 h3 h4, broadcastInDim_scalar_apply, constant_apply, Ideal.ofBits_zero_f32, zero_add]
  refine Finset.sum_congr (Finset.filter_congr fun j _ => by rw [colT_apply, rowT_apply]) fun j _ => ?_
  rw [LibGatherScatter.gather_rows dg g1 g2 g3 g4 g5 g6 X _ j k (by norm_num)]
  refine congrArg (fun r : Fin 100000 => X (ix2 r k)) (Fin.ext ?_)
  show min (colT (wrapT (rowT xs e.val h)) (ix2 j (0 : Fin 1))).toInt.toNat (100000 - 1) = min (Args.wrapIdx (xs (ix2 e j))).toInt.toNat 99999
  rw [colT_apply, wrapT_apply, rowT_apply]

theorem aggAllT_apply (feat : FVec Ideal S100000x23 .f32) (xs xd : IVec S5x800000 32) (e : Fin 5) (i : Fin 100000) (k : Fin 23) :
    aggAllT feat xs xd (ix3 e i k) = Spec.agg (Args.dstIntOf xd) (Args.srcRowOf xs) (Args.featOf feat) e i k := by
  unfold aggAllT
  refine (concatenate_ofFn_unit_apply (t := S5x100000x23) (s₁ := S1x100000x23) 0 (fun n : Fin 5 => aggRow feat xs xd n.val (slicesAt n)) _ rfl rfl
    (ix3 e i k) e rfl (ix3 (0 : Fin 1) i k)
    (fun b hb => by match b with | ⟨0, _⟩ => exact absurd rfl hb | ⟨1, _⟩ => rfl | ⟨2, _⟩ => rfl)).trans ?_
  unfold aggRow
  refine (broadcastInDim_apply _ _ _ _ (ix2 i k) (fun a => by match a with | ⟨0, _⟩ => rfl | ⟨1, _⟩ => rfl)).trans ?_
  exact aggT_row _ _ rfl rfl rfl rfl rfl rfl rfl rfl rfl rfl _ feat xs xd e _ i k

theorem biasT_apply (x : FVec Ideal S5x128 .f32) (e : Fin 5) (o : Fin 128) :
    shapeCast S5x1x128 x shapeCasts_S5x128_S5x1x128 (ix3 e (0 : Fin 1) o) = Args.b1Of x e o := by
  refine (shapeCast_apply _ _ (ix3 e (0 : Fin 1) o) (ix2 e o) ?_).trans rfl
  rw [Shape.rowMajor_val_two, Shape.rowMajor_val_three]
  show e.val * 128 + o.val = (e.val * 1 + 0) * 128 + o.val
  omega

theorem after_split (k : Nat) (ops : List (HloOp τ sig (Elt Ideal))) (V : Valuation τ sig (Elt Ideal)) :
    StableHlo.after ops V = StableHlo.after (ops.drop k) (StableHlo.after (ops.take k) V) := by
  conv_lhs => rw [← List.take_append_drop k ops]
  exact StableHlo.after_append _ _ _

variable (W : Valuation τ sig (Elt Ideal))

set_option maxHeartbeats 4000000 in
theorem deg_rows : let V := StableHlo.after (List.take 45 (hostOps0 (F := Ideal))) W
    let r := degRow (W (Proc.devRef .tc main_arg2))
    V (Proc.devRef .tc main_v30) = r 0 (slicesAt 0) ∧ V (Proc.devRef .tc main_v31) = r 1 (slicesAt 1)
      ∧ V (Proc.devRef .tc main_v32) = r 2 (slicesAt 2) ∧ V (Proc.devRef .tc main_v33) = r 3 (slicesAt 3)
      ∧ V (Proc.devRef .tc main_v34) = r 4 (slicesAt 4) := by
  dsimp only [hostOps0, List.take]
  refine ⟨?_, ?_, ?_, ?_, ?_⟩ <;> (after_results_simp; rfl)

set_option maxHeartbeats 8000000 in
theorem agg_slabs : let V := StableHlo.after (List.take 143 (hostOps0 (F := Ideal))) W
    let r := aggRow (W (Proc.devRef .tc main_arg0)) (W (Proc.devRef .tc main_arg1)) (W (Proc.devRef .tc main_arg2))
    V (Proc.devRef .tc main_v111) = r 0 (slicesAt 0) ∧ V (Proc.devRef .tc main_v112) = r 1 (slicesAt 1)
      ∧ V (Proc.devRef .tc main_v113) = r 2 (slicesAt 2) ∧ V (Proc.devRef .tc main_v114) = r 3 (slicesAt 3)
      ∧ V (Proc.devRef .tc main_v115) = r 4 (slicesAt 4) := by
  dsimp only [hostOps0, List.take]
  refine ⟨?_, ?_, ?_, ?_, ?_⟩ <;> (after_results_simp; rfl)

end Host0

open Host0

variable (W : Valuation τ sig (Elt Ideal))

set_option maxHeartbeats 4000000 in
theorem host0_inv (e : Fin 5) (i : Fin 100000) :
    (StableHlo.after hostOps0 W (Proc.devRef .tc main_v40) : Vec Ideal S5x100000x1 .f32) (ix3 e i (0 : Fin 1))
      = Spec.inv (Args.dstIntOf (W (Proc.devRef .tc main_arg2))) e i := by
  refine Eq.trans (congrFun ?_ _) (invT_apply _ e i)
  obtain ⟨h0, h1, h2, h3, h4⟩ := deg_rows W
  rw [after_split 45]
  generalize StableHlo.after (List.take 45 (hostOps0 (F := Ideal))) W = V at h0 h1 h2 h3 h4 ⊢
  dsimp only [hostOps0, List.drop]
  after_results_simp
  dsimp only [Matrix.cons_val]
  rw [h0, h1, h2, h3, h4]
  rfl

theorem host0_agg (e : Fin 5) (i : Fin 100000) (k : Fin 23) :
    (StableHlo.after hostOps0 W (Proc.devRef .tc main_v116) : Vec Ideal S5x100000x23 .f32) (ix3 e i k)
      = Spec.agg (Args.dstIntOf (W (Proc.devRef .tc main_arg2))) (Args.srcRowOf (W (Proc.devRef .tc main_arg1)))
          (Args.featOf (W (Proc.devRef .tc main_arg0))) e i k := by
  refine Eq.trans (congrFun ?_ _) (aggAllT_apply _ _ _ e i k)
  obtain ⟨h0, h1, h2, h3, h4⟩ := agg_slabs W
  rw [after_split 143]
  generalize StableHlo.after (List.take 143 (hostOps0 (F := Ideal))) W = V at h0 h1 h2 h3 h4 ⊢
  dsimp only [hostOps0, List.drop]
  after_results_simp
  dsimp only [Matrix.cons_val]
  rw [h0, h1, h2, h3, h4]
  rfl

set_option maxHeartbeats 4000000 in
theorem host0_bias (e : Fin 5) (o : Fin 128) :
    (StableHlo.after hostOps0 W (Proc.devRef .tc main_v117) : Vec Ideal S5x1x128 .f32) (ix3 e (0 : Fin 1) o)
      = Args.b1Of (W (Proc.devRef .tc main_arg5)) e o := by
  refine Eq.trans (congrFun ?_ _) (biasT_apply _ e o)
  dsimp only [hostOps0]
  after_results_simp
  rfl

end Cert.KernelIdeal.Val

end
-- ==== Proof.KI.ValHost2.lean ====
import proofs.«424244_j62423054680132_3_alg».proof.Proof.KI.ValHost0

set_option maxRecDepth 16384

noncomputable section

namespace Cert.KernelIdeal.Val

open Idealize.ShloMosaic Idealize.ShloMosaic.TcCoe Idealize.ShloMosaic.ValueIdx
open Cert.KernelIdeal Cert.KernelIdeal.Gen Host0

namespace Host2

theorem slabAt (n : Fin 5) : S5x100000x64.Slices ![n.val, 0, 0] S1x100000x64 := by revert n; decide

def gRow (g : FVec Ideal S5x100000x64 .f32) (o : Nat) (h : S5x100000x64.Slices ![o, 0, 0] S1x100000x64) : FVec Ideal S100000x64 .f32 :=
  shapeCast S100000x64 (extractStridedSlice S1x100000x64 ![o, 0, 0] g h) shapeCasts_S1x100000x64_S100000x64

def piece (g : FVec Ideal S5x100000x64 .f32) (s d : IVec S5x800000 32) (o : Nat)
    (h3 : S5x100000x64.Slices ![o, 0, 0] S1x100000x64) (h2 : S5x800000.Slices ![o, 0] S1x800000) : FVec Ideal S1x100000x64 .f32 :=
  broadcastInDim S1x100000x64 ![1, 2] bcast_S100000x64_S1x100000x64_1_2
    (aggT scatter_S100000x64_S800000x1_S800000x64_1_0_0_1 gather_S100000x64_S800000x1_S800000x64_1_0_n_n_0_1_164
      bcast_S_S100000x64 (gRow g o h3) (rowT s o h2) (rowT d o h2))

def aggAll (g : FVec Ideal S5x100000x64 .f32) (s d : IVec S5x800000 32) : FVec Ideal S5x100000x64 .f32 :=
  concatenate S5x100000x64 0 (List.ofFn fun n : Fin 5 => ⟨S1x100000x64, piece g s d n.val (slabAt n) (slicesAt n)⟩)
    concatenates_S1x100000x64_S1x100000x64_S1x100000x64_S1x100000x64_S1x100000x64_S5x100000x64_d0

theorem gRow_apply (g : FVec Ideal S5x100000x64 .f32) (e : Fin 5) (h : S5x100000x64.Slices ![e.val, 0, 0] S1x100000x64)
    (i : Fin 100000) (o : Fin 64) : gRow g e.val h (ix2 i o) = g (ix3 e i o) := by
  unfold gRow
  exact (shapeCast_1ab_ab_apply _ _ i o).trans (extractStridedSlice_apply _ _ _ _ (ix3 e i o) (fun a => by
    match a with
    | ⟨0, _⟩ => rfl
    | ⟨1, _⟩ => exact (Nat.zero_add _).symm
    | ⟨2, _⟩ => exact (Nat.zero_add _).symm))

theorem aggAll_apply (g : FVec Ideal S5x100000x64 .f32) (s d : IVec S5x800000 32) (e : Fin 5) (i : Fin 100000) (o : Fin 64) :
    aggAll g s d (ix3 e i o) = Spec.agg (Args.dstIntOf d) (Args.srcRowOf s) (fun i' o' => g (ix3 e i' o')) e i o := by
  unfold aggAll
  refine (concatenate_ofFn_unit_apply (t := S5x100000x64) (s₁ := S1x100000x64) 0
    (fun n : Fin 5 => piece g s d n.val (slabAt n) (slicesAt n)) _ rfl rfl (ix3 e i o) e rfl (ix3 (0 : Fin 1) i o)
    (fun b hb => by match b with | ⟨0, _⟩ => exact absurd rfl hb | ⟨1, _⟩ => rfl | ⟨2, _⟩ => rfl)).trans ?_
  unfold piece
  refine (broadcastInDim_apply _ _ _ _ (ix2 i o) (fun a => by match a with | ⟨0, _⟩ => rfl | ⟨1, _⟩ => rfl)).trans ?_
  exact (aggT_row _ _ rfl rfl rfl rfl rfl rfl rfl rfl rfl rfl _ _ s d e _ i o).trans
    (congrArg (fun X : Fin 100000 → Fin 64 → EReal => Spec.agg (Args.dstIntOf d) (Args.srcRowOf s) X e i o)
      (funext fun i' => funext fun o' => gRow_apply g e _ i' o'))

variable (W : Valuation τ sig (Elt Ideal))

set_option maxHeartbeats 4000000 in
theorem slabs : let V := StableHlo.after (List.take 100 (hostOps2 (F := Ideal))) W
    let r := piece (W (Proc.devRef .tc main_v119)) (W (Proc.devRef .tc main_arg1)) (W (Proc.devRef .tc main_arg2))
    V (Proc.devRef .tc main_v200) = r 0 (slabAt 0) (slicesAt 0) ∧ V (Proc.devRef .tc main_v201) = r 1 (slabAt 1) (slicesAt 1)
      ∧ V (Proc.devRef .tc main_v202) = r 2 (slabAt 2) (slicesAt 2) ∧ V (Proc.devRef .tc main_v203) = r 3 (slabAt 3) (slicesAt 3)
      ∧ V (Proc.devRef .tc main_v204) = r 4 (slabAt 4) (slicesAt 4) := by
  dsimp only [hostOps2, List.take]
  refine ⟨?_, ?_, ?_, ?_, ?_⟩ <;> (after_results_simp; rfl)

end Host2

open Host2

theorem host2_agg (W : Valuation τ sig (Elt Ideal)) (e : Fin 5) (i : Fin 100000) (o : Fin 64) :
    (StableHlo.after hostOps2 W (Proc.devRef .tc main_v205) : Vec Ideal S5x100000x64 .f32) (ix3 e i o)
    = Spec.agg (Args.dstIntOf (W (Proc.devRef .tc main_arg2))) (Args.srcRowOf (W (Proc.devRef .tc main_arg1)))
        (fun i' o' => (W (Proc.devRef .tc main_v119) : Vec Ideal S5x100000x64 .f32) (ix3 e i' o')) e i o := by
  refine Eq.trans (congrFun ?_ _) (aggAll_apply _ _ _ e i o)
  obtain ⟨h0, h1, h2, h3, h4⟩ := slabs W
  rw [after_split 100]
  generalize StableHlo.after (List.take 100 (hostOps2 (F := Ideal))) W = V at h0 h1 h2 h3 h4 ⊢
  dsimp only [hostOps2, List.drop]
  after_results_simp
  dsimp only [Matrix.cons_val]
  rw [h0, h1, h2, h3, h4]
  rfl

set_option maxHeartbeats 4000000 in
theorem host2_bias (W : Valuation τ sig (Elt Ideal)) (e : Fin 5) (o : Fin 64) :
    (StableHlo.after hostOps2 W (Proc.devRef .tc main_v206) : Vec Ideal S5x1x64 .f32) (ix3 e (0 : Fin 1) o)
    = Args.b2Of (W (Proc.devRef .tc main_arg7)) e o := by
  refine Eq.trans (congrFun ?_ _) (shapeCast_apply (s := S5x64) (W (Proc.devRef .tc main_arg7)) shapeCasts_S5x64_S5x1x64
    (ix3 e (0 : Fin 1) o) (ix2 e o) ?_)
  · dsimp only [hostOps2]
    after_results_simp
    rfl
  · rw [Shape.rowMajor_val_two, Shape.rowMajor_val_three]
    show e.val * 64 + o.val = (e.val * 1 + 0) * 64 + o.val
    omega

theorem host3_gid (W : Valuation τ sig (Elt Ideal)) (r : Fin 100000) :
    (StableHlo.after hostOps3 W (Proc.devRef .tc main_v208) : Vec Ideal S100000x1 .i32) (ix2 r (0 : Fin 1))
    = (W (Proc.devRef .tc main_arg3) : Vec Ideal S100000 .i32) (ix1 r) := by
  refine Eq.trans (congrFun ?_ _) (shapeCast_apply (s := S100000) (W (Proc.devRef .tc main_arg3)) shapeCasts_S100000_S100000x1
    (ix2 r (0 : Fin 1)) (ix1 r) ?_)
  · dsimp only [hostOps3]
    after_results_simp
    rfl
  · rw [Shape.rowMajor_val_one, Shape.rowMajor_val_two]
    show r.val = r.val * 1 + 0
    omega

end Cert.KernelIdeal.Val

end
-- ==== Proof.KI.Value.lean ====
import proofs.«424244_j62423054680132_3_alg».proof.Proof.KI.Folds
import proofs.«424244_j62423054680132_3_alg».proof.Proof.KI.ValReg0
import proofs.«424244_j62423054680132_3_alg».proof.Proof.KI.ValReg1
import proofs.«424244_j62423054680132_3_alg».proof.Proof.KI.ValReg2
import proofs.«424244_j62423054680132_3_alg».proof.Proof.KI.ValReg3
import proofs.«424244_j62423054680132_3_alg».proof.Proof.KI.ValHost0
import proofs.«424244_j62423054680132_3_alg».proof.Proof.KI.ValHost2
import proofs.«424244_j62423054680132_3_alg».proof.Proof.Spec
import proofs.«424244_j62423054680132_3_alg».proof.Proof.Args

noncomputable section

namespace Cert.KernelIdeal.Val

open Idealize.ShloMosaic Idealize.ShloMosaic.TcCoe
open Idealize.SL Idealize.SL.Sem
open Idealize.ShloMosaic.Pipeline (Dat Cfg Window)
open Cert.KernelIdeal Cert.KernelIdeal.Gen Cert.KernelIdeal.Hand Idealize.ShloMosaic.ValueIdx

namespace Chain

local macro "no_write " l:ident : tactic => `(tactic| (
  simp only [$l:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, StableHlo.nary_writes,
    Finset.mem_singleton]
  repeat' apply And.intro
  all_goals exact StableHlo.devRef_ne_of_ne (by decide)))

variable (m : (ℓ : Loc nD τ sig) → Buf (Elt Ideal) ℓ) (ρ : Dev nD → PrngReg) (c : Dev nD)

theorem keep3 (b : Ref sig .tc) (h : (hostOps0 (F := Ideal)).Forall fun op => Proc.devRef .tc b ∉ op.writes)
    (h0 : ∀ w, Pipeline.arrRef spec0 w ≠ b) (h1 : ∀ w, Pipeline.arrRef spec1 w ≠ b) :
    W3 m ρ c (Proc.devRef .tc b) = m ((c : Thread nD τ).loc b) :=
  (W3_of_ne m ρ c b h1).trans ((W2_of_ne m ρ c b h0).trans (keeps_hostOps0 (W0 m ρ c) b h))

abbrev aSrc : Fin 5 → Fin 800000 → Fin 100000 := Args.srcRowOf (m ((c : Thread nD τ).loc main_arg1))
abbrev aDst : Fin 5 → Fin 800000 → ℤ := Args.dstIntOf (m ((c : Thread nD τ).loc main_arg2))
abbrev aH1 : Fin 100000 → Fin 128 → EReal :=
  Spec.h1K (Args.featOf (m ((c : Thread nD τ).loc main_arg0))) (aSrc m c) (aDst m c)
    (Args.w1Of (m ((c : Thread nD τ).loc main_arg4))) (Args.b1Of (m ((c : Thread nD τ).loc main_arg5)))
abbrev aG : Fin 5 → Fin 100000 → Fin 64 → EReal := Spec.pre (aH1 m c) (Args.w2Of (m ((c : Thread nD τ).loc main_arg6)))
abbrev aH2 : Fin 100000 → Fin 64 → EReal :=
  Spec.combine2 (fun e => Spec.agg (aDst m c) (aSrc m c) (aG m c e) e) (aG m c) (Spec.inv (aDst m c))
    (Args.b2Of (m ((c : Thread nD τ).loc main_arg7)))

theorem v118_value (i : Fin 100000) (o : Fin 128) :
    (W2 m ρ c (Proc.devRef .tc main_v118) : Vec Ideal S100000x128 .f32) (ix2 i o) = aH1 m c i o := by
  have h := congr (congr (congr (congrArg₂ Spec.combine1 (funext₃ (host0_agg (W0 m ρ c)))
    (congrArg Args.featOf (keeps_hostOps0 (W0 m ρ c) main_arg0 (by no_write hostOps0))))
    (funext₂ (host0_inv (W0 m ρ c))))
    (congrArg Args.w1Of (keeps_hostOps0 (W0 m ρ c) main_arg4 (by no_write hostOps0))))
    (funext₂ (host0_bias (W0 m ρ c)))
  exact ((congrFun (W2_arr m ρ c 5) (ix2 i o)).trans (reg0_value (V1 m ρ) c i o)).trans (congrFun (congrFun h i) o)

theorem v119_value (e : Fin 5) (i : Fin 100000) (o : Fin 64) :
    (W3 m ρ c (Proc.devRef .tc main_v119) : Vec Ideal S5x100000x64 .f32) (ix3 e i o) = aG m c e i o := by
  have h := congrArg₂ Spec.pre (funext₂ (v118_value m ρ c)) (congrArg Args.w2Of
    ((W2_of_ne m ρ c main_arg6 (by decide)).trans (keeps_hostOps0 (W0 m ρ c) main_arg6 (by no_write hostOps0))))
  exact ((congrFun (W3_arr m ρ c 2) (ix3 e i o)).trans (reg1_value (V2 m ρ) c e i o)).trans
    (congrFun (congrFun (congrFun h e) i) o)

theorem e2_agg : (fun e i o => (W4 m ρ c (Proc.devRef .tc main_v205) : Vec Ideal S5x100000x64 .f32) (ix3 e i o))
    = fun e => Spec.agg (aDst m c) (aSrc m c) (aG m c e) e :=
  funext₃ fun e i o => by
    refine (host2_agg (W3 m ρ c) e i o).trans ?_
    rw [keep3 m ρ c main_arg1 (by no_write hostOps0) (by decide) (by decide),
      keep3 m ρ c main_arg2 (by no_write hostOps0) (by decide) (by decide)]
    exact congrFun (congrFun (congrArg (Spec.agg _ _ · e) (funext₂ (v119_value m ρ c e))) i) o

theorem e2_g : (fun e i o => (W4 m ρ c (Proc.devRef .tc main_v119) : Vec Ideal S5x100000x64 .f32) (ix3 e i o)) = aG m c :=
  funext₃ fun e i o => (congrFun (keeps_hostOps2 (W3 m ρ c) main_v119 (by no_write hostOps2)) (ix3 e i o)).trans
    (v119_value m ρ c e i o)

theorem e2_inv : (fun e i => (W4 m ρ c (Proc.devRef .tc main_v40) : Vec Ideal S5x100000x1 .f32) (ix3 e i (0 : Fin 1)))
    = Spec.inv (aDst m c) :=
  funext₂ fun e i => (congrFun ((keeps_hostOps2 (W3 m ρ c) main_v40 (by no_write hostOps2)).trans
    ((W3_of_ne m ρ c main_v40 (by decide)).trans ((W2_arr m ρ c 2).trans
      (((dat0 (V1 m ρ) c).arrAt_in 2 rfl _).trans (A_eq0 (V1 m ρ) c 2))))) (ix3 e i (0 : Fin 1))).trans
    (host0_inv (W0 m ρ c) e i)

theorem e2_bias : (fun e o => (W4 m ρ c (Proc.devRef .tc main_v206) : Vec Ideal S5x1x64 .f32) (ix3 e (0 : Fin 1) o))
    = Args.b2Of (m ((c : Thread nD τ).loc main_arg7)) :=
  funext₂ fun e o => by
    refine (host2_bias (W3 m ρ c) e o).trans ?_
    rw [keep3 m ρ c main_arg7 (by no_write hostOps0) (by decide) (by decide)]

theorem e3_h : (fun r j => (W6 m ρ c (Proc.devRef .tc main_v207) : Vec Ideal S100000x64 .f32) (ix2 r j)) = aH2 m c := by
  have h := congr (congr (congrArg₂ Spec.combine2 (e2_agg m ρ c) (e2_g m ρ c)) (e2_inv m ρ c)) (e2_bias m ρ c)
  exact funext₂ fun r j => (congrFun (keeps_hostOps3 (W5 m ρ c) main_v207 (by no_write hostOps3)) (ix2 r j)).trans
    (((congrFun (W5_arr m ρ c 4) (ix2 r j)).trans (reg2_value (V4 m ρ) c r j)).trans (congrFun (congrFun h r) j))

theorem e3_gid : (fun r => ((W6 m ρ c (Proc.devRef .tc main_v208) : Vec Ideal S100000x1 .i32) (ix2 r (0 : Fin 1))).toInt)
    = Args.gidIntOf (m ((c : Thread nD τ).loc main_arg3)) :=
  funext fun r => congrArg BitVec.toInt ((host3_gid (W5 m ρ c) r).trans (congrFun ((W5_of_ne m ρ c main_arg3 (by decide)).trans
    ((keeps_hostOps2 (W3 m ρ c) main_arg3 (by no_write hostOps2)).trans
      (keep3 m ρ c main_arg3 (by no_write hostOps0) (by decide) (by decide)))) (ix1 r)))

end Chain

theorem kernel_value (m : (ℓ : Loc nD τ sig) → Buf (Elt Ideal) ℓ) (ρ : Dev nD → PrngReg) (c : Dev nD) (g j : Fin 64) :
    (W7 m ρ c (Proc.devRef .tc main_v209) : Vec Ideal S64x64 .f32) (ix2 g j)
      = Spec.netK (Args.featOf (m ((c : Thread nD τ).loc main_arg0))) (Args.srcRowOf (m ((c : Thread nD τ).loc main_arg1)))
          (Args.dstIntOf (m ((c : Thread nD τ).loc main_arg2))) (Args.gidIntOf (m ((c : Thread nD τ).loc main_arg3)))
          (Args.w1Of (m ((c : Thread nD τ).loc main_arg4))) (Args.b1Of (m ((c : Thread nD τ).loc main_arg5)))
          (Args.w2Of (m ((c : Thread nD τ).loc main_arg6))) (Args.b2Of (m ((c : Thread nD τ).loc main_arg7))) g j :=
  ((congrFun (W7_arr m ρ c 2) (ix2 g j)).trans (reg3_value (V6 m ρ) c g j)).trans
    (congrFun (congrFun (congrArg₂ Spec.poolK (Chain.e3_h m ρ c) (Chain.e3_gid m ρ c)) g) j)

end Cert.KernelIdeal.Val

end
-- ==== Proof.Ref.Run0.lean ====
import proofs.«424244_j62423054680132_3_alg».proof.Proof.Gen.ReferenceIdeal
import proofs.«424244_j62423054680132_3_alg».proof.Proof.Ref.ReadP
import Idealize.ShloMosaic.Lib.StableHlo.Run

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

-- The arguments' buffers hold `x0 … x7`.
abbrev Args (V : Valuation τ sig (Elt F)) (x0 : main_arg0.ty.Contents (Elt F)) (x1 : main_arg1.ty.Contents (Elt F))
    (x2 : main_arg2.ty.Contents (Elt F)) (x3 : main_arg3.ty.Contents (Elt F)) (x4 : main_arg4.ty.Contents (Elt F))
    (x5 : main_arg5.ty.Contents (Elt F)) (x6 : main_arg6.ty.Contents (Elt F)) (x7 : main_arg7.ty.Contents (Elt F)) : Prop :=
  V main_arg0 = x0 ∧ V main_arg1 = x1 ∧ V main_arg2 = x2 ∧ V main_arg3 = x3 ∧ V main_arg4 = x4 ∧ V main_arg5 = x5
    ∧ V main_arg6 = x6 ∧ V main_arg7 = x7

abbrev ops0 : List (HloOp τ sig (Elt F)) :=
  [ nullary main_cst (constant S_ .f32 0x00000000#32),
    unary main_cst main_v0 (broadcastInDim S100000x128 ![] bcast_S_S100000x128),
    nullary main_cst_0 (constant S_ .f32 0x3F800000#32),
    unary main_cst_0 main_v1 (broadcastInDim S800000 ![] bcast_S_S800000),
    unary main_arg2 main_v2 (extractStridedSlice S1x800000 ![0, 0] · slices_S5x800000_S1x800000_0_0),
    reshape main_v2 main_v3 rfl shapeCasts_S1x800000_S800000,
    nullary main_cst_1 (constant S_ .f32 0x00000000#32),
    unary main_cst_1 main_v4 (broadcastInDim S100000 ![] bcast_S_S100000),
    unary main_v3 main_v5 (broadcastInDim S800000x1 ![0] bcast_S800000_S800000x1_0),
    ternary main_v4 main_v5 main_v1 main_v6 (Host.scatterAdd scatter_S100000_S800000x1_S800000_n_0_0_1),
    unary main_arg1 main_v7 (extractStridedSlice S1x800000 ![0, 0] · slices_S5x800000_S1x800000_0_0),
    reshape main_v7 main_v8 rfl shapeCasts_S1x800000_S800000,
    nullary main_c (constantI S_ 32 0#32),
    unary main_c main_v9 (broadcastInDim S800000 ![] bcast_S_S800000),
    binary main_v8 main_v9 main_v10 (cmpi .slt),
    nullary main_c_2 (constantI S_ 32 100000#32),
    unary main_c_2 main_v11 (broadcastInDim S800000 ![] bcast_S_S800000),
    binary main_v8 main_v11 main_v12 addi,
    ternary main_v10 main_v12 main_v8 main_v13 select,
    unary main_v13 main_v14 (broadcastInDim S800000x1 ![0] bcast_S800000_S800000x1_0),
    binary main_arg0 main_v14 main_v15 (Host.gather gather_S100000x23_S800000x1_S800000x23_1_0_n_n_0_1_123),
    unary main_arg2 main_v16 (extractStridedSlice S1x800000 ![0, 0] · slices_S5x800000_S1x800000_0_0),
    reshape main_v16 main_v17 rfl shapeCasts_S1x800000_S800000,
    nullary main_cst_3 (constant S_ .f32 0x00000000#32),
    unary main_cst_3 main_v18 (broadcastInDim S100000x23 ![] bcast_S_S100000x23),
    unary main_v17 main_v19 (broadcastInDim S800000x1 ![0] bcast_S800000_S800000x1_0),
    ternary main_v18 main_v19 main_v15 main_v20 (Host.scatterAdd scatter_S100000x23_S800000x1_S800000x23_1_0_0_1),
    binary main_v20 main_arg0 main_v21 addf,
    nullary main_cst_4 (constant S_ .f32 0x3F800000#32),
    unary main_cst_4 main_v22 (broadcastInDim S100000 ![] bcast_S_S100000),
    binary main_v6 main_v22 main_v23 addf,
    unary main_v23 main_v24 (broadcastInDim S100000x1 ![0] bcast_S100000_S100000x1_0),
    unary main_v24 main_v25 (broadcastInDim S100000x23 ![0, 1] bcast_S100000x1_S100000x23_0_1),
    binary main_v21 main_v25 main_v26 Host.divf,
    unary main_arg4 main_v27 (extractStridedSlice S1x23x128 ![0, 0, 0] · slices_S5x23x128_S1x23x128_0_0_0),
    reshape main_v27 main_v28 rfl shapeCasts_S1x23x128_S23x128,
    binary main_v26 main_v28 main_v29 (Host.dotGeneral dot_S100000x23_S23x128_S100000x128_1_0_0_1_n_n none),
    binary main_v0 main_v29 main_v30 addf,
    unary main_arg5 main_v31 (extractStridedSlice S1x128 ![0, 0] · slices_S5x128_S1x128_0_0),
    reshape main_v31 main_v32 rfl shapeCasts_S1x128_S128,
    unary main_v32 main_v33 (broadcastInDim S1x128 ![1] bcast_S128_S1x128_1),
    unary main_v33 main_v34 (broadcastInDim S100000x128 ![0, 1] bcast_S1x128_S100000x128_0_1),
    binary main_v30 main_v34 main_v35 addf,
    unary main_arg2 main_v36 (extractStridedSlice S1x800000 ![1, 0] · slices_S5x800000_S1x800000_1_0),
    reshape main_v36 main_v37 rfl shapeCasts_S1x800000_S800000,
    nullary main_cst_5 (constant S_ .f32 0x00000000#32),
    unary main_cst_5 main_v38 (broadcastInDim S100000 ![] bcast_S_S100000),
    unary main_v37 main_v39 (broadcastInDim S800000x1 ![0] bcast_S800000_S800000x1_0),
    ternary main_v38 main_v39 main_v1 main_v40 (Host.scatterAdd scatter_S100000_S800000x1_S800000_n_0_0_1),
    unary main_arg1 main_v41 (extractStridedSlice S1x800000 ![1, 0] · slices_S5x800000_S1x800000_1_0),
    reshape main_v41 main_v42 rfl shapeCasts_S1x800000_S800000,
    nullary main_c_6 (constantI S_ 32 0#32),
    unary main_c_6 main_v43 (broadcastInDim S800000 ![] bcast_S_S800000),
    binary main_v42 main_v43 main_v44 (cmpi .slt),
    nullary main_c_7 (constantI S_ 32 100000#32),
    unary main_c_7 main_v45 (broadcastInDim S800000 ![] bcast_S_S800000),
    binary main_v42 main_v45 main_v46 addi,
    ternary main_v44 main_v46 main_v42 main_v47 select,
    unary main_v47 main_v48 (broadcastInDim S800000x1 ![0] bcast_S800000_S800000x1_0),
    binary main_arg0 main_v48 main_v49 (Host.gather gather_S100000x23_S800000x1_S800000x23_1_0_n_n_0_1_123) ]

theorem part0_eq (c : Dev nD) : main_part0 (F := F) c = seq ops0 := rfl

-- Each stage function is the composition of the operations up to its buffer, so both sides unfold to one term.
set_option maxHeartbeats 4000000 in
theorem step0 {V : Valuation τ sig (Elt F)} {x0 x1 x2 x3 x4 x5 x6 x7} (a : Args V x0 x1 x2 x3 x4 x5 x6 x7) :
    after ops0 V main_v1 = val_main_v1
      ∧ after ops0 V main_v35 = val_main_v35 x0 x1 x2 x4 x5
      ∧ after ops0 V main_v40 = val_main_v40 x2
      ∧ after ops0 V main_v49 = val_main_v49 x0 x1
      ∧ Args (after ops0 V) x0 x1 x2 x3 x4 x5 x6 x7 := by
  obtain ⟨rfl, rfl, rfl, rfl, rfl, rfl, rfl, rfl⟩ := a
  refine ⟨?_, ?_, ?_, ?_, ?_, ?_, ?_, ?_, ?_, ?_, ?_, ?_⟩ <;> after_results_simp <;> rfl

end Cert.ReferenceIdeal.RefRun

end
-- ==== Proof.Ref.Run1.lean ====
import proofs.«424244_j62423054680132_3_alg».proof.Proof.Ref.Run0

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops1 : List (HloOp τ sig (Elt F)) :=
  [ unary main_arg2 main_v50 (extractStridedSlice S1x800000 ![1, 0] · slices_S5x800000_S1x800000_1_0),
    reshape main_v50 main_v51 rfl shapeCasts_S1x800000_S800000,
    nullary main_cst_8 (constant S_ .f32 0x00000000#32),
    unary main_cst_8 main_v52 (broadcastInDim S100000x23 ![] bcast_S_S100000x23),
    unary main_v51 main_v53 (broadcastInDim S800000x1 ![0] bcast_S800000_S800000x1_0),
    ternary main_v52 main_v53 main_v49 main_v54 (Host.scatterAdd scatter_S100000x23_S800000x1_S800000x23_1_0_0_1),
    binary main_v54 main_arg0 main_v55 addf,
    nullary main_cst_9 (constant S_ .f32 0x3F800000#32),
    unary main_cst_9 main_v56 (broadcastInDim S100000 ![] bcast_S_S100000),
    binary main_v40 main_v56 main_v57 addf,
    unary main_v57 main_v58 (broadcastInDim S100000x1 ![0] bcast_S100000_S100000x1_0),
    unary main_v58 main_v59 (broadcastInDim S100000x23 ![0, 1] bcast_S100000x1_S100000x23_0_1),
    binary main_v55 main_v59 main_v60 Host.divf,
    unary main_arg4 main_v61 (extractStridedSlice S1x23x128 ![1, 0, 0] · slices_S5x23x128_S1x23x128_1_0_0),
    reshape main_v61 main_v62 rfl shapeCasts_S1x23x128_S23x128,
    binary main_v60 main_v62 main_v63 (Host.dotGeneral dot_S100000x23_S23x128_S100000x128_1_0_0_1_n_n none),
    binary main_v35 main_v63 main_v64 addf,
    unary main_arg5 main_v65 (extractStridedSlice S1x128 ![1, 0] · slices_S5x128_S1x128_1_0),
    reshape main_v65 main_v66 rfl shapeCasts_S1x128_S128,
    unary main_v66 main_v67 (broadcastInDim S1x128 ![1] bcast_S128_S1x128_1),
    unary main_v67 main_v68 (broadcastInDim S100000x128 ![0, 1] bcast_S1x128_S100000x128_0_1),
    binary main_v64 main_v68 main_v69 addf,
    unary main_arg2 main_v70 (extractStridedSlice S1x800000 ![2, 0] · slices_S5x800000_S1x800000_2_0),
    reshape main_v70 main_v71 rfl shapeCasts_S1x800000_S800000,
    nullary main_cst_10 (constant S_ .f32 0x00000000#32),
    unary main_cst_10 main_v72 (broadcastInDim S100000 ![] bcast_S_S100000),
    unary main_v71 main_v73 (broadcastInDim S800000x1 ![0] bcast_S800000_S800000x1_0),
    ternary main_v72 main_v73 main_v1 main_v74 (Host.scatterAdd scatter_S100000_S800000x1_S800000_n_0_0_1),
    unary main_arg1 main_v75 (extractStridedSlice S1x800000 ![2, 0] · slices_S5x800000_S1x800000_2_0),
    reshape main_v75 main_v76 rfl shapeCasts_S1x800000_S800000,
    nullary main_c_11 (constantI S_ 32 0#32),
    unary main_c_11 main_v77 (broadcastInDim S800000 ![] bcast_S_S800000),
    binary main_v76 main_v77 main_v78 (cmpi .slt),
    nullary main_c_12 (constantI S_ 32 100000#32),
    unary main_c_12 main_v79 (broadcastInDim S800000 ![] bcast_S_S800000),
    binary main_v76 main_v79 main_v80 addi,
    ternary main_v78 main_v80 main_v76 main_v81 select,
    unary main_v81 main_v82 (broadcastInDim S800000x1 ![0] bcast_S800000_S800000x1_0),
    binary main_arg0 main_v82 main_v83 (Host.gather gather_S100000x23_S800000x1_S800000x23_1_0_n_n_0_1_123),
    unary main_arg2 main_v84 (extractStridedSlice S1x800000 ![2, 0] · slices_S5x800000_S1x800000_2_0),
    reshape main_v84 main_v85 rfl shapeCasts_S1x800000_S800000,
    nullary main_cst_13 (constant S_ .f32 0x00000000#32),
    unary main_cst_13 main_v86 (broadcastInDim S100000x23 ![] bcast_S_S100000x23),
    unary main_v85 main_v87 (broadcastInDim S800000x1 ![0] bcast_S800000_S800000x1_0),
    ternary main_v86 main_v87 main_v83 main_v88 (Host.scatterAdd scatter_S100000x23_S800000x1_S800000x23_1_0_0_1),
    binary main_v88 main_arg0 main_v89 addf,
    nullary main_cst_14 (constant S_ .f32 0x3F800000#32),
    unary main_cst_14 main_v90 (broadcastInDim S100000 ![] bcast_S_S100000),
    binary main_v74 main_v90 main_v91 addf,
    unary main_v91 main_v92 (broadcastInDim S100000x1 ![0] bcast_S100000_S100000x1_0),
    unary main_v92 main_v93 (broadcastInDim S100000x23 ![0, 1] bcast_S100000x1_S100000x23_0_1),
    binary main_v89 main_v93 main_v94 Host.divf,
    unary main_arg4 main_v95 (extractStridedSlice S1x23x128 ![2, 0, 0] · slices_S5x23x128_S1x23x128_2_0_0),
    reshape main_v95 main_v96 rfl shapeCasts_S1x23x128_S23x128,
    binary main_v94 main_v96 main_v97 (Host.dotGeneral dot_S100000x23_S23x128_S100000x128_1_0_0_1_n_n none),
    binary main_v69 main_v97 main_v98 addf,
    unary main_arg5 main_v99 (extractStridedSlice S1x128 ![2, 0] · slices_S5x128_S1x128_2_0),
    reshape main_v99 main_v100 rfl shapeCasts_S1x128_S128,
    unary main_v100 main_v101 (broadcastInDim S1x128 ![1] bcast_S128_S1x128_1),
    unary main_v101 main_v102 (broadcastInDim S100000x128 ![0, 1] bcast_S1x128_S100000x128_0_1) ]

theorem part1_eq (c : Dev nD) : main_part1 (F := F) c = seq ops1 := rfl

set_option maxHeartbeats 4000000 in
theorem step1 {V : Valuation τ sig (Elt F)} {x0 x1 x2 x3 x4 x5 x6 x7} (a : Args V x0 x1 x2 x3 x4 x5 x6 x7)
    (h0 : V main_v1 = val_main_v1) (h1 : V main_v35 = val_main_v35 x0 x1 x2 x4 x5) (h2 : V main_v40 = val_main_v40 x2) (h3 : V main_v49 = val_main_v49 x0 x1) :
    after ops1 V main_v1 = val_main_v1
      ∧ after ops1 V main_v98 = val_main_v98 x0 x1 x2 x4 x5
      ∧ after ops1 V main_v102 = val_main_v102 x5
      ∧ Args (after ops1 V) x0 x1 x2 x3 x4 x5 x6 x7 := by
  obtain ⟨rfl, rfl, rfl, rfl, rfl, rfl, rfl, rfl⟩ := a
  refine ⟨?_, ?_, ?_, ?_, ?_, ?_, ?_, ?_, ?_, ?_, ?_⟩ <;> after_results_simp <;> (try simp only [h0, h1, h2, h3]) <;> rfl

end Cert.ReferenceIdeal.RefRun

end
-- ==== Proof.Ref.Run2.lean ====
import proofs.«424244_j62423054680132_3_alg».proof.Proof.Ref.Run0

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops2 : List (HloOp τ sig (Elt F)) :=
  [ binary main_v98 main_v102 main_v103 addf,
    unary main_arg2 main_v104 (extractStridedSlice S1x800000 ![3, 0] · slices_S5x800000_S1x800000_3_0),
    reshape main_v104 main_v105 rfl shapeCasts_S1x800000_S800000,
    nullary main_cst_15 (constant S_ .f32 0x00000000#32),
    unary main_cst_15 main_v106 (broadcastInDim S100000 ![] bcast_S_S100000),
    unary main_v105 main_v107 (broadcastInDim S800000x1 ![0] bcast_S800000_S800000x1_0),
    ternary main_v106 main_v107 main_v1 main_v108 (Host.scatterAdd scatter_S100000_S800000x1_S800000_n_0_0_1),
    unary main_arg1 main_v109 (extractStridedSlice S1x800000 ![3, 0] · slices_S5x800000_S1x800000_3_0),
    reshape main_v109 main_v110 rfl shapeCasts_S1x800000_S800000,
    nullary main_c_16 (constantI S_ 32 0#32),
    unary main_c_16 main_v111 (broadcastInDim S800000 ![] bcast_S_S800000),
    binary main_v110 main_v111 main_v112 (cmpi .slt),
    nullary main_c_17 (constantI S_ 32 100000#32),
    unary main_c_17 main_v113 (broadcastInDim S800000 ![] bcast_S_S800000),
    binary main_v110 main_v113 main_v114 addi,
    ternary main_v112 main_v114 main_v110 main_v115 select,
    unary main_v115 main_v116 (broadcastInDim S800000x1 ![0] bcast_S800000_S800000x1_0),
    binary main_arg0 main_v116 main_v117 (Host.gather gather_S100000x23_S800000x1_S800000x23_1_0_n_n_0_1_123),
    unary main_arg2 main_v118 (extractStridedSlice S1x800000 ![3, 0] · slices_S5x800000_S1x800000_3_0),
    reshape main_v118 main_v119 rfl shapeCasts_S1x800000_S800000,
    nullary main_cst_18 (constant S_ .f32 0x00000000#32),
    unary main_cst_18 main_v120 (broadcastInDim S100000x23 ![] bcast_S_S100000x23),
    unary main_v119 main_v121 (broadcastInDim S800000x1 ![0] bcast_S800000_S800000x1_0),
    ternary main_v120 main_v121 main_v117 main_v122 (Host.scatterAdd scatter_S100000x23_S800000x1_S800000x23_1_0_0_1),
    binary main_v122 main_arg0 main_v123 addf,
    nullary main_cst_19 (constant S_ .f32 0x3F800000#32),
    unary main_cst_19 main_v124 (broadcastInDim S100000 ![] bcast_S_S100000),
    binary main_v108 main_v124 main_v125 addf,
    unary main_v125 main_v126 (broadcastInDim S100000x1 ![0] bcast_S100000_S100000x1_0),
    unary main_v126 main_v127 (broadcastInDim S100000x23 ![0, 1] bcast_S100000x1_S100000x23_0_1),
    binary main_v123 main_v127 main_v128 Host.divf,
    unary main_arg4 main_v129 (extractStridedSlice S1x23x128 ![3, 0, 0] · slices_S5x23x128_S1x23x128_3_0_0),
    reshape main_v129 main_v130 rfl shapeCasts_S1x23x128_S23x128,
    binary main_v128 main_v130 main_v131 (Host.dotGeneral dot_S100000x23_S23x128_S100000x128_1_0_0_1_n_n none),
    binary main_v103 main_v131 main_v132 addf,
    unary main_arg5 main_v133 (extractStridedSlice S1x128 ![3, 0] · slices_S5x128_S1x128_3_0),
    reshape main_v133 main_v134 rfl shapeCasts_S1x128_S128,
    unary main_v134 main_v135 (broadcastInDim S1x128 ![1] bcast_S128_S1x128_1),
    unary main_v135 main_v136 (broadcastInDim S100000x128 ![0, 1] bcast_S1x128_S100000x128_0_1),
    binary main_v132 main_v136 main_v137 addf,
    unary main_arg2 main_v138 (extractStridedSlice S1x800000 ![4, 0] · slices_S5x800000_S1x800000_4_0),
    reshape main_v138 main_v139 rfl shapeCasts_S1x800000_S800000,
    nullary main_cst_20 (constant S_ .f32 0x00000000#32),
    unary main_cst_20 main_v140 (broadcastInDim S100000 ![] bcast_S_S100000),
    unary main_v139 main_v141 (broadcastInDim S800000x1 ![0] bcast_S800000_S800000x1_0),
    ternary main_v140 main_v141 main_v1 main_v142 (Host.scatterAdd scatter_S100000_S800000x1_S800000_n_0_0_1),
    unary main_arg1 main_v143 (extractStridedSlice S1x800000 ![4, 0] · slices_S5x800000_S1x800000_4_0),
    reshape main_v143 main_v144 rfl shapeCasts_S1x800000_S800000,
    nullary main_c_21 (constantI S_ 32 0#32),
    unary main_c_21 main_v145 (broadcastInDim S800000 ![] bcast_S_S800000),
    binary main_v144 main_v145 main_v146 (cmpi .slt),
    nullary main_c_22 (constantI S_ 32 100000#32),
    unary main_c_22 main_v147 (broadcastInDim S800000 ![] bcast_S_S800000),
    binary main_v144 main_v147 main_v148 addi,
    ternary main_v146 main_v148 main_v144 main_v149 select,
    unary main_v149 main_v150 (broadcastInDim S800000x1 ![0] bcast_S800000_S800000x1_0),
    binary main_arg0 main_v150 main_v151 (Host.gather gather_S100000x23_S800000x1_S800000x23_1_0_n_n_0_1_123),
    unary main_arg2 main_v152 (extractStridedSlice S1x800000 ![4, 0] · slices_S5x800000_S1x800000_4_0),
    reshape main_v152 main_v153 rfl shapeCasts_S1x800000_S800000,
    nullary main_cst_23 (constant S_ .f32 0x00000000#32) ]

theorem part2_eq (c : Dev nD) : main_part2 (F := F) c = seq ops2 := rfl

set_option maxHeartbeats 4000000 in
theorem step2 {V : Valuation τ sig (Elt F)} {x0 x1 x2 x3 x4 x5 x6 x7} (a : Args V x0 x1 x2 x3 x4 x5 x6 x7)
    (h0 : V main_v1 = val_main_v1) (h1 : V main_v98 = val_main_v98 x0 x1 x2 x4 x5) (h2 : V main_v102 = val_main_v102 x5) :
    after ops2 V main_v137 = val_main_v137 x0 x1 x2 x4 x5
      ∧ after ops2 V main_v142 = val_main_v142 x2
      ∧ after ops2 V main_v151 = val_main_v151 x0 x1
      ∧ after ops2 V main_v153 = val_main_v153 x2
      ∧ after ops2 V main_cst_23 = val_main_cst_23
      ∧ Args (after ops2 V) x0 x1 x2 x3 x4 x5 x6 x7 := by
  obtain ⟨rfl, rfl, rfl, rfl, rfl, rfl, rfl, rfl⟩ := a
  refine ⟨?_, ?_, ?_, ?_, ?_, ?_, ?_, ?_, ?_, ?_, ?_, ?_, ?_⟩ <;> after_results_simp <;> (try simp only [h0, h1, h2]) <;> rfl

end Cert.ReferenceIdeal.RefRun

end
-- ==== Proof.Ref.Run3.lean ====
import proofs.«424244_j62423054680132_3_alg».proof.Proof.Ref.Run0

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops3 : List (HloOp τ sig (Elt F)) :=
  [ unary main_cst_23 main_v154 (broadcastInDim S100000x23 ![] bcast_S_S100000x23),
    unary main_v153 main_v155 (broadcastInDim S800000x1 ![0] bcast_S800000_S800000x1_0),
    ternary main_v154 main_v155 main_v151 main_v156 (Host.scatterAdd scatter_S100000x23_S800000x1_S800000x23_1_0_0_1),
    binary main_v156 main_arg0 main_v157 addf,
    nullary main_cst_24 (constant S_ .f32 0x3F800000#32),
    unary main_cst_24 main_v158 (broadcastInDim S100000 ![] bcast_S_S100000),
    binary main_v142 main_v158 main_v159 addf,
    unary main_v159 main_v160 (broadcastInDim S100000x1 ![0] bcast_S100000_S100000x1_0),
    unary main_v160 main_v161 (broadcastInDim S100000x23 ![0, 1] bcast_S100000x1_S100000x23_0_1),
    binary main_v157 main_v161 main_v162 Host.divf,
    unary main_arg4 main_v163 (extractStridedSlice S1x23x128 ![4, 0, 0] · slices_S5x23x128_S1x23x128_4_0_0),
    reshape main_v163 main_v164 rfl shapeCasts_S1x23x128_S23x128,
    binary main_v162 main_v164 main_v165 (Host.dotGeneral dot_S100000x23_S23x128_S100000x128_1_0_0_1_n_n none),
    binary main_v137 main_v165 main_v166 addf,
    unary main_arg5 main_v167 (extractStridedSlice S1x128 ![4, 0] · slices_S5x128_S1x128_4_0),
    reshape main_v167 main_v168 rfl shapeCasts_S1x128_S128,
    unary main_v168 main_v169 (broadcastInDim S1x128 ![1] bcast_S128_S1x128_1),
    unary main_v169 main_v170 (broadcastInDim S100000x128 ![0, 1] bcast_S1x128_S100000x128_0_1),
    binary main_v166 main_v170 main_v171 addf,
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v171) (TRef.of (T := ⟨S100000x128, .f32⟩) main_call0_v0) (TRef.of (T := ⟨S100000x128, .f32⟩) main_v172) maximumf,
    nullary main_cst_25 (constant S_ .f32 0x00000000#32),
    unary main_cst_25 main_v173 (broadcastInDim S100000x64 ![] bcast_S_S100000x64),
    nullary main_cst_26 (constant S_ .f32 0x3F800000#32),
    unary main_cst_26 main_v174 (broadcastInDim S800000 ![] bcast_S_S800000),
    unary main_arg2 main_v175 (extractStridedSlice S1x800000 ![0, 0] · slices_S5x800000_S1x800000_0_0),
    reshape main_v175 main_v176 rfl shapeCasts_S1x800000_S800000,
    nullary main_cst_27 (constant S_ .f32 0x00000000#32),
    unary main_cst_27 main_v177 (broadcastInDim S100000 ![] bcast_S_S100000),
    unary main_v176 main_v178 (broadcastInDim S800000x1 ![0] bcast_S800000_S800000x1_0),
    ternary main_v177 main_v178 main_v174 main_v179 (Host.scatterAdd scatter_S100000_S800000x1_S800000_n_0_0_1),
    unary main_arg1 main_v180 (extractStridedSlice S1x800000 ![0, 0] · slices_S5x800000_S1x800000_0_0),
    reshape main_v180 main_v181 rfl shapeCasts_S1x800000_S800000,
    nullary main_c_28 (constantI S_ 32 0#32),
    unary main_c_28 main_v182 (broadcastInDim S800000 ![] bcast_S_S800000),
    binary main_v181 main_v182 main_v183 (cmpi .slt),
    nullary main_c_29 (constantI S_ 32 100000#32),
    unary main_c_29 main_v184 (broadcastInDim S800000 ![] bcast_S_S800000),
    binary main_v181 main_v184 main_v185 addi,
    ternary main_v183 main_v185 main_v181 main_v186 select,
    unary main_v186 main_v187 (broadcastInDim S800000x1 ![0] bcast_S800000_S800000x1_0),
    binary main_v172 main_v187 main_v188 (Host.gather gather_S100000x128_S800000x1_S800000x128_1_0_n_n_0_1_1128),
    unary main_arg2 main_v189 (extractStridedSlice S1x800000 ![0, 0] · slices_S5x800000_S1x800000_0_0),
    reshape main_v189 main_v190 rfl shapeCasts_S1x800000_S800000,
    nullary main_cst_30 (constant S_ .f32 0x00000000#32),
    unary main_cst_30 main_v191 (broadcastInDim S100000x128 ![] bcast_S_S100000x128),
    unary main_v190 main_v192 (broadcastInDim S800000x1 ![0] bcast_S800000_S800000x1_0),
    ternary main_v191 main_v192 main_v188 main_v193 (Host.scatterAdd scatter_S100000x128_S800000x1_S800000x128_1_0_0_1),
    binary main_v193 main_v172 main_v194 addf,
    nullary main_cst_31 (constant S_ .f32 0x3F800000#32),
    unary main_cst_31 main_v195 (broadcastInDim S100000 ![] bcast_S_S100000),
    binary main_v179 main_v195 main_v196 addf,
    unary main_v196 main_v197 (broadcastInDim S100000x1 ![0] bcast_S100000_S100000x1_0),
    unary main_v197 main_v198 (broadcastInDim S100000x128 ![0, 1] bcast_S100000x1_S100000x128_0_1),
    binary main_v194 main_v198 main_v199 Host.divf,
    unary main_arg6 main_v200 (extractStridedSlice S1x128x64 ![0, 0, 0] · slices_S5x128x64_S1x128x64_0_0_0),
    reshape main_v200 main_v201 rfl shapeCasts_S1x128x64_S128x64,
    binary main_v199 main_v201 main_v202 (Host.dotGeneral dot_S100000x128_S128x64_S100000x64_1_0_0_1_n_n none),
    binary main_v173 main_v202 main_v203 addf,
    unary main_arg7 main_v204 (extractStridedSlice S1x64 ![0, 0] · slices_S5x64_S1x64_0_0),
    reshape main_v204 main_v205 rfl shapeCasts_S1x64_S64 ]

theorem part3_eq (c : Dev nD) : main_part3 (F := F) c = seq ops3 := rfl

set_option maxHeartbeats 4000000 in
theorem step3 {V : Valuation τ sig (Elt F)} {x0 x1 x2 x3 x4 x5 x6 x7} (a : Args V x0 x1 x2 x3 x4 x5 x6 x7)
    (h0 : V main_v137 = val_main_v137 x0 x1 x2 x4 x5) (h1 : V main_v142 = val_main_v142 x2) (h2 : V main_v151 = val_main_v151 x0 x1) (h3 : V main_v153 = val_main_v153 x2) (h4 : V main_cst_23 = val_main_cst_23) :
    after ops3 V main_v172 = val_main_v172 x0 x1 x2 x4 x5
      ∧ after ops3 V main_v174 = val_main_v174
      ∧ after ops3 V main_v203 = val_main_v203 x0 x1 x2 x4 x5 x6
      ∧ after ops3 V main_v205 = val_main_v205 x7
      ∧ Args (after ops3 V) x0 x1 x2 x3 x4 x5 x6 x7 := by
  obtain ⟨rfl, rfl, rfl, rfl, rfl, rfl, rfl, rfl⟩ := a
  refine ⟨?_, ?_, ?_, ?_, ?_, ?_, ?_, ?_, ?_, ?_, ?_, ?_⟩ <;> after_results_simp <;> (try simp only [TRef.ofBuf, TRef.toBuf, cast_eq]) <;> (try simp only [h0, h1, h2, h3, h4]) <;> rfl

end Cert.ReferenceIdeal.RefRun

end
-- ==== Proof.Ref.Run4.lean ====
import proofs.«424244_j62423054680132_3_alg».proof.Proof.Ref.Run0

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops4 : List (HloOp τ sig (Elt F)) :=
  [ unary main_v205 main_v206 (broadcastInDim S1x64 ![1] bcast_S64_S1x64_1),
    unary main_v206 main_v207 (broadcastInDim S100000x64 ![0, 1] bcast_S1x64_S100000x64_0_1),
    binary main_v203 main_v207 main_v208 addf,
    unary main_arg2 main_v209 (extractStridedSlice S1x800000 ![1, 0] · slices_S5x800000_S1x800000_1_0),
    reshape main_v209 main_v210 rfl shapeCasts_S1x800000_S800000,
    nullary main_cst_32 (constant S_ .f32 0x00000000#32),
    unary main_cst_32 main_v211 (broadcastInDim S100000 ![] bcast_S_S100000),
    unary main_v210 main_v212 (broadcastInDim S800000x1 ![0] bcast_S800000_S800000x1_0),
    ternary main_v211 main_v212 main_v174 main_v213 (Host.scatterAdd scatter_S100000_S800000x1_S800000_n_0_0_1),
    unary main_arg1 main_v214 (extractStridedSlice S1x800000 ![1, 0] · slices_S5x800000_S1x800000_1_0),
    reshape main_v214 main_v215 rfl shapeCasts_S1x800000_S800000,
    nullary main_c_33 (constantI S_ 32 0#32),
    unary main_c_33 main_v216 (broadcastInDim S800000 ![] bcast_S_S800000),
    binary main_v215 main_v216 main_v217 (cmpi .slt),
    nullary main_c_34 (constantI S_ 32 100000#32),
    unary main_c_34 main_v218 (broadcastInDim S800000 ![] bcast_S_S800000),
    binary main_v215 main_v218 main_v219 addi,
    ternary main_v217 main_v219 main_v215 main_v220 select,
    unary main_v220 main_v221 (broadcastInDim S800000x1 ![0] bcast_S800000_S800000x1_0),
    binary main_v172 main_v221 main_v222 (Host.gather gather_S100000x128_S800000x1_S800000x128_1_0_n_n_0_1_1128),
    unary main_arg2 main_v223 (extractStridedSlice S1x800000 ![1, 0] · slices_S5x800000_S1x800000_1_0),
    reshape main_v223 main_v224 rfl shapeCasts_S1x800000_S800000,
    nullary main_cst_35 (constant S_ .f32 0x00000000#32),
    unary main_cst_35 main_v225 (broadcastInDim S100000x128 ![] bcast_S_S100000x128),
    unary main_v224 main_v226 (broadcastInDim S800000x1 ![0] bcast_S800000_S800000x1_0),
    ternary main_v225 main_v226 main_v222 main_v227 (Host.scatterAdd scatter_S100000x128_S800000x1_S800000x128_1_0_0_1),
    binary main_v227 main_v172 main_v228 addf,
    nullary main_cst_36 (constant S_ .f32 0x3F800000#32),
    unary main_cst_36 main_v229 (broadcastInDim S100000 ![] bcast_S_S100000),
    binary main_v213 main_v229 main_v230 addf,
    unary main_v230 main_v231 (broadcastInDim S100000x1 ![0] bcast_S100000_S100000x1_0),
    unary main_v231 main_v232 (broadcastInDim S100000x128 ![0, 1] bcast_S100000x1_S100000x128_0_1),
    binary main_v228 main_v232 main_v233 Host.divf,
    unary main_arg6 main_v234 (extractStridedSlice S1x128x64 ![1, 0, 0] · slices_S5x128x64_S1x128x64_1_0_0),
    reshape main_v234 main_v235 rfl shapeCasts_S1x128x64_S128x64,
    binary main_v233 main_v235 main_v236 (Host.dotGeneral dot_S100000x128_S128x64_S100000x64_1_0_0_1_n_n none),
    binary main_v208 main_v236 main_v237 addf,
    unary main_arg7 main_v238 (extractStridedSlice S1x64 ![1, 0] · slices_S5x64_S1x64_1_0),
    reshape main_v238 main_v239 rfl shapeCasts_S1x64_S64,
    unary main_v239 main_v240 (broadcastInDim S1x64 ![1] bcast_S64_S1x64_1),
    unary main_v240 main_v241 (broadcastInDim S100000x64 ![0, 1] bcast_S1x64_S100000x64_0_1),
    binary main_v237 main_v241 main_v242 addf,
    unary main_arg2 main_v243 (extractStridedSlice S1x800000 ![2, 0] · slices_S5x800000_S1x800000_2_0),
    reshape main_v243 main_v244 rfl shapeCasts_S1x800000_S800000,
    nullary main_cst_37 (constant S_ .f32 0x00000000#32),
    unary main_cst_37 main_v245 (broadcastInDim S100000 ![] bcast_S_S100000),
    unary main_v244 main_v246 (broadcastInDim S800000x1 ![0] bcast_S800000_S800000x1_0),
    ternary main_v245 main_v246 main_v174 main_v247 (Host.scatterAdd scatter_S100000_S800000x1_S800000_n_0_0_1),
    unary main_arg1 main_v248 (extractStridedSlice S1x800000 ![2, 0] · slices_S5x800000_S1x800000_2_0),
    reshape main_v248 main_v249 rfl shapeCasts_S1x800000_S800000,
    nullary main_c_38 (constantI S_ 32 0#32),
    unary main_c_38 main_v250 (broadcastInDim S800000 ![] bcast_S_S800000),
    binary main_v249 main_v250 main_v251 (cmpi .slt),
    nullary main_c_39 (constantI S_ 32 100000#32),
    unary main_c_39 main_v252 (broadcastInDim S800000 ![] bcast_S_S800000),
    binary main_v249 main_v252 main_v253 addi,
    ternary main_v251 main_v253 main_v249 main_v254 select,
    unary main_v254 main_v255 (broadcastInDim S800000x1 ![0] bcast_S800000_S800000x1_0),
    binary main_v172 main_v255 main_v256 (Host.gather gather_S100000x128_S800000x1_S800000x128_1_0_n_n_0_1_1128),
    unary main_arg2 main_v257 (extractStridedSlice S1x800000 ![2, 0] · slices_S5x800000_S1x800000_2_0) ]

theorem part4_eq (c : Dev nD) : main_part4 (F := F) c = seq ops4 := rfl

set_option maxHeartbeats 4000000 in
theorem step4 {V : Valuation τ sig (Elt F)} {x0 x1 x2 x3 x4 x5 x6 x7} (a : Args V x0 x1 x2 x3 x4 x5 x6 x7)
    (h0 : V main_v172 = val_main_v172 x0 x1 x2 x4 x5) (h1 : V main_v174 = val_main_v174) (h2 : V main_v203 = val_main_v203 x0 x1 x2 x4 x5 x6) (h3 : V main_v205 = val_main_v205 x7) :
    after ops4 V main_v172 = val_main_v172 x0 x1 x2 x4 x5
      ∧ after ops4 V main_v174 = val_main_v174
      ∧ after ops4 V main_v242 = val_main_v242 x0 x1 x2 x4 x5 x6 x7
      ∧ after ops4 V main_v247 = val_main_v247 x2
      ∧ after ops4 V main_v256 = val_main_v256 x0 x1 x2 x4 x5
      ∧ after ops4 V main_v257 = val_main_v257 x2
      ∧ Args (after ops4 V) x0 x1 x2 x3 x4 x5 x6 x7 := by
  obtain ⟨rfl, rfl, rfl, rfl, rfl, rfl, rfl, rfl⟩ := a
  refine ⟨?_, ?_, ?_, ?_, ?_, ?_, ?_, ?_, ?_, ?_, ?_, ?_, ?_, ?_⟩ <;> after_results_simp <;> (try simp only [h0, h1, h2, h3]) <;> rfl

end Cert.ReferenceIdeal.RefRun

end
-- ==== Proof.Ref.Run5.lean ====
import proofs.«424244_j62423054680132_3_alg».proof.Proof.Ref.Run0

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops5 : List (HloOp τ sig (Elt F)) :=
  [ reshape main_v257 main_v258 rfl shapeCasts_S1x800000_S800000,
    nullary main_cst_40 (constant S_ .f32 0x00000000#32),
    unary main_cst_40 main_v259 (broadcastInDim S100000x128 ![] bcast_S_S100000x128),
    unary main_v258 main_v260 (broadcastInDim S800000x1 ![0] bcast_S800000_S800000x1_0),
    ternary main_v259 main_v260 main_v256 main_v261 (Host.scatterAdd scatter_S100000x128_S800000x1_S800000x128_1_0_0_1),
    binary main_v261 main_v172 main_v262 addf,
    nullary main_cst_41 (constant S_ .f32 0x3F800000#32),
    unary main_cst_41 main_v263 (broadcastInDim S100000 ![] bcast_S_S100000),
    binary main_v247 main_v263 main_v264 addf,
    unary main_v264 main_v265 (broadcastInDim S100000x1 ![0] bcast_S100000_S100000x1_0),
    unary main_v265 main_v266 (broadcastInDim S100000x128 ![0, 1] bcast_S100000x1_S100000x128_0_1),
    binary main_v262 main_v266 main_v267 Host.divf,
    unary main_arg6 main_v268 (extractStridedSlice S1x128x64 ![2, 0, 0] · slices_S5x128x64_S1x128x64_2_0_0),
    reshape main_v268 main_v269 rfl shapeCasts_S1x128x64_S128x64,
    binary main_v267 main_v269 main_v270 (Host.dotGeneral dot_S100000x128_S128x64_S100000x64_1_0_0_1_n_n none),
    binary main_v242 main_v270 main_v271 addf,
    unary main_arg7 main_v272 (extractStridedSlice S1x64 ![2, 0] · slices_S5x64_S1x64_2_0),
    reshape main_v272 main_v273 rfl shapeCasts_S1x64_S64,
    unary main_v273 main_v274 (broadcastInDim S1x64 ![1] bcast_S64_S1x64_1),
    unary main_v274 main_v275 (broadcastInDim S100000x64 ![0, 1] bcast_S1x64_S100000x64_0_1),
    binary main_v271 main_v275 main_v276 addf,
    unary main_arg2 main_v277 (extractStridedSlice S1x800000 ![3, 0] · slices_S5x800000_S1x800000_3_0),
    reshape main_v277 main_v278 rfl shapeCasts_S1x800000_S800000,
    nullary main_cst_42 (constant S_ .f32 0x00000000#32),
    unary main_cst_42 main_v279 (broadcastInDim S100000 ![] bcast_S_S100000),
    unary main_v278 main_v280 (broadcastInDim S800000x1 ![0] bcast_S800000_S800000x1_0),
    ternary main_v279 main_v280 main_v174 main_v281 (Host.scatterAdd scatter_S100000_S800000x1_S800000_n_0_0_1),
    unary main_arg1 main_v282 (extractStridedSlice S1x800000 ![3, 0] · slices_S5x800000_S1x800000_3_0),
    reshape main_v282 main_v283 rfl shapeCasts_S1x800000_S800000,
    nullary main_c_43 (constantI S_ 32 0#32),
    unary main_c_43 main_v284 (broadcastInDim S800000 ![] bcast_S_S800000),
    binary main_v283 main_v284 main_v285 (cmpi .slt),
    nullary main_c_44 (constantI S_ 32 100000#32),
    unary main_c_44 main_v286 (broadcastInDim S800000 ![] bcast_S_S800000),
    binary main_v283 main_v286 main_v287 addi,
    ternary main_v285 main_v287 main_v283 main_v288 select,
    unary main_v288 main_v289 (broadcastInDim S800000x1 ![0] bcast_S800000_S800000x1_0),
    binary main_v172 main_v289 main_v290 (Host.gather gather_S100000x128_S800000x1_S800000x128_1_0_n_n_0_1_1128),
    unary main_arg2 main_v291 (extractStridedSlice S1x800000 ![3, 0] · slices_S5x800000_S1x800000_3_0),
    reshape main_v291 main_v292 rfl shapeCasts_S1x800000_S800000,
    nullary main_cst_45 (constant S_ .f32 0x00000000#32),
    unary main_cst_45 main_v293 (broadcastInDim S100000x128 ![] bcast_S_S100000x128),
    unary main_v292 main_v294 (broadcastInDim S800000x1 ![0] bcast_S800000_S800000x1_0),
    ternary main_v293 main_v294 main_v290 main_v295 (Host.scatterAdd scatter_S100000x128_S800000x1_S800000x128_1_0_0_1),
    binary main_v295 main_v172 main_v296 addf,
    nullary main_cst_46 (constant S_ .f32 0x3F800000#32),
    unary main_cst_46 main_v297 (broadcastInDim S100000 ![] bcast_S_S100000),
    binary main_v281 main_v297 main_v298 addf,
    unary main_v298 main_v299 (broadcastInDim S100000x1 ![0] bcast_S100000_S100000x1_0),
    unary main_v299 main_v300 (broadcastInDim S100000x128 ![0, 1] bcast_S100000x1_S100000x128_0_1),
    binary main_v296 main_v300 main_v301 Host.divf,
    unary main_arg6 main_v302 (extractStridedSlice S1x128x64 ![3, 0, 0] · slices_S5x128x64_S1x128x64_3_0_0),
    reshape main_v302 main_v303 rfl shapeCasts_S1x128x64_S128x64,
    binary main_v301 main_v303 main_v304 (Host.dotGeneral dot_S100000x128_S128x64_S100000x64_1_0_0_1_n_n none),
    binary main_v276 main_v304 main_v305 addf,
    unary main_arg7 main_v306 (extractStridedSlice S1x64 ![3, 0] · slices_S5x64_S1x64_3_0),
    reshape main_v306 main_v307 rfl shapeCasts_S1x64_S64,
    unary main_v307 main_v308 (broadcastInDim S1x64 ![1] bcast_S64_S1x64_1),
    unary main_v308 main_v309 (broadcastInDim S100000x64 ![0, 1] bcast_S1x64_S100000x64_0_1),
    binary main_v305 main_v309 main_v310 addf ]

theorem part5_eq (c : Dev nD) : main_part5 (F := F) c = seq ops5 := rfl

set_option maxHeartbeats 4000000 in
theorem step5 {V : Valuation τ sig (Elt F)} {x0 x1 x2 x3 x4 x5 x6 x7} (a : Args V x0 x1 x2 x3 x4 x5 x6 x7)
    (h0 : V main_v172 = val_main_v172 x0 x1 x2 x4 x5) (h1 : V main_v174 = val_main_v174) (h2 : V main_v242 = val_main_v242 x0 x1 x2 x4 x5 x6 x7) (h3 : V main_v247 = val_main_v247 x2) (h4 : V main_v256 = val_main_v256 x0 x1 x2 x4 x5) (h5 : V main_v257 = val_main_v257 x2) :
    after ops5 V main_v172 = val_main_v172 x0 x1 x2 x4 x5
      ∧ after ops5 V main_v174 = val_main_v174
      ∧ after ops5 V main_v310 = val_main_v310 x0 x1 x2 x4 x5 x6 x7
      ∧ Args (after ops5 V) x0 x1 x2 x3 x4 x5 x6 x7 := by
  obtain ⟨rfl, rfl, rfl, rfl, rfl, rfl, rfl, rfl⟩ := a
  refine ⟨?_, ?_, ?_, ?_, ?_, ?_, ?_, ?_, ?_, ?_, ?_⟩ <;> after_results_simp <;> (try simp only [h0, h1, h2, h3, h4, h5]) <;> rfl

end Cert.ReferenceIdeal.RefRun

end
-- ==== Proof.Ref.Run6.lean ====
import proofs.«424244_j62423054680132_3_alg».proof.Proof.Ref.Run0

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops6 : List (HloOp τ sig (Elt F)) :=
  [ unary main_arg2 main_v311 (extractStridedSlice S1x800000 ![4, 0] · slices_S5x800000_S1x800000_4_0),
    reshape main_v311 main_v312 rfl shapeCasts_S1x800000_S800000,
    nullary main_cst_47 (constant S_ .f32 0x00000000#32),
    unary main_cst_47 main_v313 (broadcastInDim S100000 ![] bcast_S_S100000),
    unary main_v312 main_v314 (broadcastInDim S800000x1 ![0] bcast_S800000_S800000x1_0),
    ternary main_v313 main_v314 main_v174 main_v315 (Host.scatterAdd scatter_S100000_S800000x1_S800000_n_0_0_1),
    unary main_arg1 main_v316 (extractStridedSlice S1x800000 ![4, 0] · slices_S5x800000_S1x800000_4_0),
    reshape main_v316 main_v317 rfl shapeCasts_S1x800000_S800000,
    nullary main_c_48 (constantI S_ 32 0#32),
    unary main_c_48 main_v318 (broadcastInDim S800000 ![] bcast_S_S800000),
    binary main_v317 main_v318 main_v319 (cmpi .slt),
    nullary main_c_49 (constantI S_ 32 100000#32),
    unary main_c_49 main_v320 (broadcastInDim S800000 ![] bcast_S_S800000),
    binary main_v317 main_v320 main_v321 addi,
    ternary main_v319 main_v321 main_v317 main_v322 select,
    unary main_v322 main_v323 (broadcastInDim S800000x1 ![0] bcast_S800000_S800000x1_0),
    binary main_v172 main_v323 main_v324 (Host.gather gather_S100000x128_S800000x1_S800000x128_1_0_n_n_0_1_1128),
    unary main_arg2 main_v325 (extractStridedSlice S1x800000 ![4, 0] · slices_S5x800000_S1x800000_4_0),
    reshape main_v325 main_v326 rfl shapeCasts_S1x800000_S800000,
    nullary main_cst_50 (constant S_ .f32 0x00000000#32),
    unary main_cst_50 main_v327 (broadcastInDim S100000x128 ![] bcast_S_S100000x128),
    unary main_v326 main_v328 (broadcastInDim S800000x1 ![0] bcast_S800000_S800000x1_0),
    ternary main_v327 main_v328 main_v324 main_v329 (Host.scatterAdd scatter_S100000x128_S800000x1_S800000x128_1_0_0_1),
    binary main_v329 main_v172 main_v330 addf,
    nullary main_cst_51 (constant S_ .f32 0x3F800000#32),
    unary main_cst_51 main_v331 (broadcastInDim S100000 ![] bcast_S_S100000),
    binary main_v315 main_v331 main_v332 addf,
    unary main_v332 main_v333 (broadcastInDim S100000x1 ![0] bcast_S100000_S100000x1_0),
    unary main_v333 main_v334 (broadcastInDim S100000x128 ![0, 1] bcast_S100000x1_S100000x128_0_1),
    binary main_v330 main_v334 main_v335 Host.divf,
    unary main_arg6 main_v336 (extractStridedSlice S1x128x64 ![4, 0, 0] · slices_S5x128x64_S1x128x64_4_0_0),
    reshape main_v336 main_v337 rfl shapeCasts_S1x128x64_S128x64,
    binary main_v335 main_v337 main_v338 (Host.dotGeneral dot_S100000x128_S128x64_S100000x64_1_0_0_1_n_n none),
    binary main_v310 main_v338 main_v339 addf,
    unary main_arg7 main_v340 (extractStridedSlice S1x64 ![4, 0] · slices_S5x64_S1x64_4_0),
    reshape main_v340 main_v341 rfl shapeCasts_S1x64_S64,
    unary main_v341 main_v342 (broadcastInDim S1x64 ![1] bcast_S64_S1x64_1),
    unary main_v342 main_v343 (broadcastInDim S100000x64 ![0, 1] bcast_S1x64_S100000x64_0_1),
    binary main_v339 main_v343 main_v344 addf,
    nullary main_cst_52 (constant S_ .f32 0x3F800000#32),
    unary main_cst_52 main_v345 (broadcastInDim S100000 ![] bcast_S_S100000),
    nullary main_cst_53 (constant S_ .f32 0x00000000#32),
    unary main_cst_53 main_v346 (broadcastInDim S64 ![] bcast_S_S64),
    unary main_arg3 main_v347 (broadcastInDim S100000x1 ![0] bcast_S100000_S100000x1_0),
    ternary main_v346 main_v347 main_v345 main_v348 (Host.scatterAdd scatter_S64_S100000x1_S100000_n_0_0_1),
    nullary main_cst_54 (constant S_ .f32 0x00000000#32),
    unary main_cst_54 main_v349 (broadcastInDim S64x64 ![] bcast_S_S64x64),
    unary main_arg3 main_v350 (broadcastInDim S100000x1 ![0] bcast_S100000_S100000x1_0),
    ternary main_v349 main_v350 main_v344 main_v351 (Host.scatterAdd scatter_S64x64_S100000x1_S100000x64_1_0_0_1),
    nullary main_cst_55 (constant S_ .f32 0x3F800000#32),
    unary main_cst_55 main_v352 (broadcastInDim S64 ![] bcast_S_S64),
    binary main_v348 main_v352 main_v353 maximumf,
    unary main_v353 main_v354 (broadcastInDim S64x1 ![0] bcast_S64_S64x1_0),
    unary main_v354 main_v355 (broadcastInDim S64x64 ![0, 1] bcast_S64x1_S64x64_0_1),
    binary main_v351 main_v355 main_v356 Host.divf ]

theorem part6_eq (c : Dev nD) : main_part6 (F := F) c = seq ops6 := rfl

set_option maxHeartbeats 4000000 in
theorem step6 {V : Valuation τ sig (Elt F)} {x0 x1 x2 x3 x4 x5 x6 x7} (a : Args V x0 x1 x2 x3 x4 x5 x6 x7)
    (h0 : V main_v172 = val_main_v172 x0 x1 x2 x4 x5) (h1 : V main_v174 = val_main_v174) (h2 : V main_v310 = val_main_v310 x0 x1 x2 x4 x5 x6 x7) :
    after ops6 V main_v356 = val_main_v356 x0 x1 x2 x3 x4 x5 x6 x7
      ∧ Args (after ops6 V) x0 x1 x2 x3 x4 x5 x6 x7 := by
  obtain ⟨rfl, rfl, rfl, rfl, rfl, rfl, rfl, rfl⟩ := a
  refine ⟨?_, ?_, ?_, ?_, ?_, ?_, ?_, ?_, ?_⟩ <;> after_results_simp <;> (try simp only [h0, h1, h2]) <;> rfl

end Cert.ReferenceIdeal.RefRun

end
-- ==== Proof.Ref.Run.lean ====
import proofs.«424244_j62423054680132_3_alg».proof.Proof.Ref.Run1
import proofs.«424244_j62423054680132_3_alg».proof.Proof.Ref.Run2
import proofs.«424244_j62423054680132_3_alg».proof.Proof.Ref.Run3
import proofs.«424244_j62423054680132_3_alg».proof.Proof.Ref.Run4
import proofs.«424244_j62423054680132_3_alg».proof.Proof.Ref.Run5
import proofs.«424244_j62423054680132_3_alg».proof.Proof.Ref.Run6

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops : List (HloOp τ sig (Elt F)) := ops0 ++ (ops1 ++ (ops2 ++ (ops3 ++ (ops4 ++ (ops5 ++ ops6)))))

theorem main_eq (c : Dev nD) : main (F := F) c = seq ops := by
  rw [ops, seq_append, seq_append, seq_append, seq_append, seq_append, seq_append, ← part0_eq c, ← part1_eq c, ← part2_eq c,
    ← part3_eq c, ← part4_eq c, ← part5_eq c, ← part6_eq c]
  rfl

theorem ops_ok : (ops : List (HloOp τ sig (Elt F))).Forall fun op => op.bufs ⊆ tcRefs τ sig ∧ op.fresh = ∅ := by
  simp only [ops, List.forall_append, List.Forall, nullary_bufs_sub, unary_bufs_sub, binary_bufs_sub, ternary_bufs_sub, reshape_bufs_sub, true_and]
  repeat' constructor

-- The seven lists in order: each one's hypotheses are the conclusions of the one before.
theorem after_ops {V : Valuation τ sig (Elt F)} {x0 x1 x2 x3 x4 x5 x6 x7} (a : Args V x0 x1 x2 x3 x4 x5 x6 x7) :
    after ops V main_v356 = val_main_v356 x0 x1 x2 x3 x4 x5 x6 x7 ∧ Args (after ops V) x0 x1 x2 x3 x4 x5 x6 x7 := by
  rw [ops, after_append, after_append, after_append, after_append, after_append, after_append]
  obtain ⟨v1, v35, v40, v49, a⟩ := step0 a
  obtain ⟨v1, v98, v102, a⟩ := step1 a v1 v35 v40 v49
  obtain ⟨v137, v142, v151, v153, c23, a⟩ := step2 a v1 v98 v102
  obtain ⟨v172, v174, v203, v205, a⟩ := step3 a v137 v142 v151 v153 c23
  obtain ⟨v172, v174, v242, v247, v256, v257, a⟩ := step4 a v172 v174 v203 v205
  obtain ⟨v172, v174, v310, a⟩ := step5 a v172 v174 v242 v247 v256 v257
  exact step6 a v172 v174 v310

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v356) = val_main_v356 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
      simp only [h c]
      exact after_ops (V := launchContents m c) ⟨rfl, rfl, rfl, rfl, rfl, rfl, rfl, rfl⟩)
    (run_seq (by decide) (by decide) defs main (fun _ => ops) main_eq (fun _ => ops_ok.imp fun _ h => h.1) m ρ
      fun _ op h => (List.forall_iff_forall_mem.1 ops_ok op h).2)

end Cert.ReferenceIdeal.RefRun

end
-- ==== Proof.Ref.Layer1Lib.lean ====
import Idealize.ShloMosaic.Lib.IdealHost
import Idealize.ShloMosaic.Lib.Pipeline.Value
import proofs.«424244_j62423054680132_3_alg».proof.Proof.Spec
import proofs.«424244_j62423054680132_3_alg».proof.Proof.Args
import proofs.«424244_j62423054680132_3_alg».proof.Proof.LibGatherScatter

noncomputable section

namespace Cert.ReferenceIdeal.RefValue

open Idealize.ShloMosaic Idealize.ShloMosaic.ValueIdx Cert Cert.LibGatherScatter

theorem ix2_ext {n0 n1 : ℕ} {m : (⟨2, ![n0, n1]⟩ : Shape).Idx} {a : Fin n0} {b : Fin n1}
    (h0 : (m 0).val = a.val) (h1 : (m 1).val = b.val) : m = ix2 a b :=
  funext fun d => Fin.ext (by match d with | ⟨0, _⟩ => exact h0 | ⟨1, _⟩ => exact h1)

theorem select_wrap (s : BitVec 32) :
    Scalar.select (IntOp.cmpi .slt s 0#32) (IntOp.addi s 100000#32) s = Args.wrapIdx s := by
  unfold Scalar.select IntOp.cmpi IntOp.addi Args.wrapIdx
  cases h : BitVec.slt s 0#32 <;> simp [h]

theorem splat_zero {t : Shape} (h : (⟨0, ![]⟩ : Shape).BroadcastsInDim t ![]) (i : t.Idx) :
    broadcastInDim t ![] h (constant (F := Ideal) ⟨0, ![]⟩ .f32 0x00000000#32) i = 0 :=
  (broadcastInDim_scalar_apply h _ i).trans Ideal.ofBits_zero_f32

theorem splat_one {t : Shape} (h : (⟨0, ![]⟩ : Shape).BroadcastsInDim t ![]) (i : t.Idx) :
    broadcastInDim t ![] h (constant (F := Ideal) ⟨0, ![]⟩ .f32 0x3F800000#32) i = 1 :=
  (broadcastInDim_scalar_apply h _ i).trans Ideal.ofBits_one_f32

theorem bc_coord {n : ℕ} (j : Fin n) : j.val = if n = 1 then 0 else j.val := by
  have := j.isLt; split <;> omega

section Layout
variable {α : Type} {m n : ℕ}

/-- Row e of an m × n array. -/
def rowOf (x : (⟨2, ![m, n]⟩ : Shape).Idx → α) (e : Fin m)
    (hs : (⟨2, ![m, n]⟩ : Shape).Slices ![e.val, 0] ⟨2, ![1, n]⟩) (hc : (⟨2, ![1, n]⟩ : Shape).ShapeCasts ⟨1, ![n]⟩) :
    (⟨1, ![n]⟩ : Shape).Idx → α :=
  shapeCast ⟨1, ![n]⟩ (extractStridedSlice ⟨2, ![1, n]⟩ ![e.val, 0] x hs) hc

theorem rowOf_apply (x : (⟨2, ![m, n]⟩ : Shape).Idx → α) (e : Fin m) hs hc (j : Fin n) :
    rowOf x e hs hc (ix1 j) = x (ix2 e j) := by
  unfold rowOf
  rw [shapeCast_apply _ hc (ix1 j) (ix2 0 j) (by
    rewrite [Shape.rowMajor_val_two, Shape.rowMajor_val_one]; show 0 * n + j.val = j.val; omega)]
  exact extractStridedSlice_apply _ x hs _ _ fun a => match a with
    | ⟨0, _⟩ => (Nat.add_zero _).symm
    | ⟨1, _⟩ => (Nat.zero_add _).symm

/-- A vector stood up as a column. -/
theorem col_read (v : (⟨1, ![n]⟩ : Shape).Idx → α)
    (hb : (⟨1, ![n]⟩ : Shape).BroadcastsInDim ⟨2, ![n, 1]⟩ (![0] : Fin 1 → Fin 2)) (j : Fin n) :
    broadcastInDim ⟨2, ![n, 1]⟩ ![0] hb v (ix2 j 0) = v (ix1 j) :=
  broadcastInDim_apply _ hb v _ _ fun a => match a with | ⟨0, _⟩ => bc_coord j

/-- A vector stood up as a column and spread along D columns. -/
theorem colbc_read {D : ℕ} (v : (⟨1, ![n]⟩ : Shape).Idx → α) hb
    (hq : (⟨2, ![n, 1]⟩ : Shape).BroadcastsInDim ⟨2, ![n, D]⟩ (![0, 1] : Fin 2 → Fin 2)) (i : Fin n) (k : Fin D) :
    broadcastInDim ⟨2, ![n, D]⟩ ![0, 1] hq (broadcastInDim ⟨2, ![n, 1]⟩ ![0] hb v) (ix2 i k) = v (ix1 i) :=
  (broadcastInDim_apply _ hq _ (ix2 i k) (ix2 i 0) fun a => match a with
    | ⟨0, _⟩ => bc_coord i
    | ⟨1, _⟩ => (if_pos rfl).symm).trans (col_read v hb i)

/-- Row e of an m × n array spread over N rows. -/
theorem rowbc_read {N : ℕ} (x : (⟨2, ![m, n]⟩ : Shape).Idx → α) (e : Fin m) hs hc
    (h1 : (⟨1, ![n]⟩ : Shape).BroadcastsInDim ⟨2, ![1, n]⟩ (![1] : Fin 1 → Fin 2))
    (h2 : (⟨2, ![1, n]⟩ : Shape).BroadcastsInDim ⟨2, ![N, n]⟩ (![0, 1] : Fin 2 → Fin 2)) (i : Fin N) (o : Fin n) :
    broadcastInDim ⟨2, ![N, n]⟩ ![0, 1] h2 (broadcastInDim ⟨2, ![1, n]⟩ ![1] h1 (rowOf x e hs hc)) (ix2 i o) = x (ix2 e o) :=
  (broadcastInDim_apply _ h2 _ (ix2 i o) (ix2 0 o) fun a => match a with
    | ⟨0, _⟩ => (if_pos rfl).symm
    | ⟨1, _⟩ => bc_coord o).trans
  ((broadcastInDim_apply _ h1 _ (ix2 0 o) (ix1 o) fun a => match a with | ⟨0, _⟩ => bc_coord o).trans (rowOf_apply x e hs hc o))

/-- Slab e of an m × D × O array as a D × O matrix. -/
theorem slab_read {D O : ℕ} (x : (⟨3, ![m, D, O]⟩ : Shape).Idx → α) (e : Fin m)
    (hs : (⟨3, ![m, D, O]⟩ : Shape).Slices ![e.val, 0, 0] ⟨3, ![1, D, O]⟩)
    (hc : (⟨3, ![1, D, O]⟩ : Shape).ShapeCasts ⟨2, ![D, O]⟩) (k : Fin D) (o : Fin O) :
    shapeCast ⟨2, ![D, O]⟩ (extractStridedSlice ⟨3, ![1, D, O]⟩ ![e.val, 0, 0] x hs) hc (ix2 k o) = x (ix3 e k o) := by
  rw [shapeCast_apply _ hc (ix2 k o) (ix3 0 k o) (by
    rewrite [Shape.rowMajor_val_three, Shape.rowMajor_val_two]; show (0 * D + k.val) * O + o.val = k.val * O + o.val
    rw [Nat.zero_mul, Nat.zero_add])]
  exact extractStridedSlice_apply _ x hs _ _ fun a => match a with
    | ⟨0, _⟩ => (Nat.add_zero _).symm
    | ⟨1, _⟩ => (Nat.zero_add _).symm
    | ⟨2, _⟩ => (Nat.zero_add _).symm

end Layout

/-- A column of indices, each wrapped once when negative. -/
theorem wrapcol_read {n : ℕ} (r : IVec ⟨1, ![n]⟩ 32) hb
    (h0 h1 : (⟨0, ![]⟩ : Shape).BroadcastsInDim ⟨1, ![n]⟩ ![]) (j : Fin n) :
    broadcastInDim ⟨2, ![n, 1]⟩ ![0] hb
        (select (cmpi .slt r (broadcastInDim ⟨1, ![n]⟩ ![] h0 (constantI ⟨0, ![]⟩ 32 0#32)))
          (addi r (broadcastInDim ⟨1, ![n]⟩ ![] h1 (constantI ⟨0, ![]⟩ 32 100000#32))) r) (ix2 j 0)
      = Args.wrapIdx (r (ix1 j)) := by
  rw [col_read _ hb j]
  show Scalar.select (IntOp.cmpi .slt (r (ix1 j)) (broadcastInDim _ _ h0 _ (ix1 j)))
    (IntOp.addi (r (ix1 j)) (broadcastInDim _ _ h1 _ (ix1 j))) (r (ix1 j)) = _
  rw [broadcastInDim_scalar_apply, broadcastInDim_scalar_apply]
  exact select_wrap _

/-- Edge type e's term of a reference layer: the averaged neighbourhood row of node i through the weights. -/
def term {D O : ℕ} (sR : Fin 5 → Fin 800000 → Fin 100000) (dI : Fin 5 → Fin 800000 → ℤ) (X : Fin 100000 → Fin D → EReal)
    (W : Fin 5 → Fin D → Fin O → EReal) (e : Fin 5) (i : Fin 100000) (o : Fin O) : EReal :=
  ∑ k : Fin D, Ideal.div (Spec.agg dI sR X e i k + X i k) (Spec.deg dI e i + 1) * W e k o

/-- Ones accumulated at an edge type's destinations count the edges into a node; rows gathered at its wrapped sources sum over them. -/
theorem edge_quot {D : ℕ} (x1 x2 : IVec ⟨2, ![5, 800000]⟩ 32) (e : Fin 5) (X : FVec Ideal ⟨2, ![100000, D]⟩ .f32)
    {d : ScatterDims ⟨1, ![100000]⟩ ⟨2, ![800000, 1]⟩ ⟨1, ![800000]⟩}
    {ds : ScatterDims ⟨2, ![100000, D]⟩ ⟨2, ![800000, 1]⟩ ⟨2, ![800000, D]⟩}
    {dg : GatherDims ⟨2, ![100000, D]⟩ ⟨2, ![800000, 1]⟩ ⟨2, ![800000, D]⟩}
    {hs hc hb} {he : (⟨0, ![]⟩ : Shape).BroadcastsInDim ⟨1, ![800000]⟩ ![]}
    {hn : (⟨0, ![]⟩ : Shape).BroadcastsInDim ⟨1, ![100000]⟩ ![]}
    {hz : (⟨0, ![]⟩ : Shape).BroadcastsInDim ⟨2, ![100000, D]⟩ ![]} {hq1 hq2} (i : Fin 100000) (k : Fin D)
    (huw : d.updateWindowDims = [] := by rfl) (hins : d.insertedWindowDims = [0] := by rfl)
    (hsd : d.scatterDimsToOperandDims = [0] := by rfl) (hivd : d.indexVectorDim = 1 := by rfl)
    (huw' : ds.updateWindowDims = [1] := by rfl) (hins' : ds.insertedWindowDims = [0] := by rfl)
    (hsd' : ds.scatterDimsToOperandDims = [0] := by rfl) (hivd' : ds.indexVectorDim = 1 := by rfl)
    (hoff : dg.offsetDims = [1] := by rfl) (hcoll : dg.collapsedSliceDims = [0] := by rfl)
    (hob : dg.operandBatchingDims = [] := by rfl) (hsim : dg.startIndexMap = [0] := by rfl)
    (hgiv : dg.indexVectorDim = 1 := by rfl) (hss : dg.sliceSizes = ![1, D] := by rfl) :
    Host.divf
        (addf (Host.scatterAdd ds (broadcastInDim _ ![] hz (constant ⟨0, ![]⟩ .f32 0x00000000#32))
          (broadcastInDim ⟨2, ![800000, 1]⟩ ![0] hb (rowOf x2 e hs hc))
          (Host.gather dg X (broadcastInDim ⟨2, ![800000, 1]⟩ ![0] hb
            (select (cmpi .slt (rowOf x1 e hs hc) (broadcastInDim _ ![] he (constantI ⟨0, ![]⟩ 32 0#32)))
              (addi (rowOf x1 e hs hc) (broadcastInDim _ ![] he (constantI ⟨0, ![]⟩ 32 100000#32))) (rowOf x1 e hs hc))))) X)
        (broadcastInDim ⟨2, ![100000, D]⟩ ![0, 1] hq2 (broadcastInDim ⟨2, ![100000, 1]⟩ ![0] hq1
          (addf (Host.scatterAdd d (broadcastInDim _ ![] hn (constant ⟨0, ![]⟩ .f32 0x00000000#32))
            (broadcastInDim ⟨2, ![800000, 1]⟩ ![0] hb (rowOf x2 e hs hc))
            (broadcastInDim _ ![] he (constant ⟨0, ![]⟩ .f32 0x3F800000#32)))
          (broadcastInDim _ ![] hn (constant ⟨0, ![]⟩ .f32 0x3F800000#32))))) (ix2 i k)
      = Ideal.div (Spec.agg (Args.dstIntOf x2) (Args.srcRowOf x1) (fun a b => X (ix2 a b)) e i k + X (ix2 i k))
          (Spec.deg (Args.dstIntOf x2) e i + 1) := by
  rw [hostDivf_apply, colbc_read, addf_apply, addf_apply, splat_one, scatterAdd_rows ds huw' hins' hsd' hivd', splat_zero,
    zero_add, scatterAdd_vec d huw hins hsd hivd, splat_zero, zero_add]
  unfold Spec.agg Spec.deg Spec.inEdges
  refine congrArg₂ (fun a b => Ideal.div (a + X (ix2 i k)) (b + 1))
    (Finset.sum_congr (Finset.filter_congr fun j _ => by rw [col_read, rowOf_apply]; exact Iff.rfl) fun j _ => ?_)
    (Finset.sum_congr (Finset.filter_congr fun j _ => by rw [col_read, rowOf_apply]; exact Iff.rfl) fun j _ => splat_one _ _)
  rw [gather_rows dg hoff hcoll hob hsim hgiv hss X _ j k (by decide)]
  exact congrArg (fun r => X (ix2 r k)) (Fin.ext (congrArg (fun s : BitVec 32 => min s.toInt.toNat 99999)
    ((wrapcol_read _ _ _ _ j).trans (congrArg Args.wrapIdx (rowOf_apply x1 e _ _ j)))))

/-- The running sum over the five edge types, from zero, taking a term and then a bias each time. -/
theorem fold_five (P B : Fin 5 → EReal) :
    (((((((((0 + P 0) + B 0) + P 1) + B 1) + P 2) + B 2) + P 3) + B 3) + P 4) + B 4 = ∑ e : Fin 5, (P e + B e) := by
  rw [Fin.sum_univ_five]
  simp only [zero_add, add_assoc]

end Cert.ReferenceIdeal.RefValue

end
-- ==== Proof.Ref.Layer1.lean ====
import proofs.«424244_j62423054680132_3_alg».proof.Proof.Ref.ReadP
import proofs.«424244_j62423054680132_3_alg».proof.Proof.Ref.Layer1Lib

noncomputable section

namespace Cert.ReferenceIdeal.RefValue

open Idealize.ShloMosaic Idealize.ShloMosaic.ValueIdx Cert Cert.ReferenceIdeal Cert.ReferenceIdeal.ReadP

variable (x0 : (⟨S100000x23, .f32⟩ : BufTy).Contents (Elt Ideal))
  (x1 x2 : (⟨S5x800000, .i32⟩ : BufTy).Contents (Elt Ideal))
  (x4 : (⟨S5x23x128, .f32⟩ : BufTy).Contents (Elt Ideal))
  (x5 : (⟨S5x128, .f32⟩ : BufTy).Contents (Elt Ideal))

/-- An edge type's term of the first layer. -/
abbrev t1 := term (Args.srcRowOf x1) (Args.dstIntOf x2) (Args.featOf x0) (Args.w1Of x4)

theorem prod_0 (i : Fin 100000) (o : Fin 128) :
    val_main_v29 (F := Ideal) x0 x1 x2 x4 (ix2 i o) = t1 x0 x1 x2 x4 0 i o := by
  rw [val_main_v29_apply]
  exact Finset.sum_congr rfl fun k _ => by
    rw [show lidx_main_v29 (ix2 i o) k = ix2 i k from ix2_ext rfl rfl, show ridx_main_v29 (ix2 i o) k = ix2 k o from ix2_ext rfl rfl]
    exact congrArg₂ (· * ·) (edge_quot x1 x2 0 x0 i k) (slab_read x4 0 _ _ k o)

theorem prod_1 (i : Fin 100000) (o : Fin 128) :
    val_main_v63 (F := Ideal) x0 x1 x2 x4 (ix2 i o) = t1 x0 x1 x2 x4 1 i o := by
  rw [val_main_v63_apply]
  exact Finset.sum_congr rfl fun k _ => by
    rw [show lidx_main_v63 (ix2 i o) k = ix2 i k from ix2_ext rfl rfl, show ridx_main_v63 (ix2 i o) k = ix2 k o from ix2_ext rfl rfl]
    exact congrArg₂ (· * ·) (edge_quot x1 x2 1 x0 i k) (slab_read x4 1 _ _ k o)

theorem prod_2 (i : Fin 100000) (o : Fin 128) :
    val_main_v97 (F := Ideal) x0 x1 x2 x4 (ix2 i o) = t1 x0 x1 x2 x4 2 i o := by
  rw [val_main_v97_apply]
  exact Finset.sum_congr rfl fun k _ => by
    rw [show lidx_main_v97 (ix2 i o) k = ix2 i k from ix2_ext rfl rfl, show ridx_main_v97 (ix2 i o) k = ix2 k o from ix2_ext rfl rfl]
    exact congrArg₂ (· * ·) (edge_quot x1 x2 2 x0 i k) (slab_read x4 2 _ _ k o)

theorem prod_3 (i : Fin 100000) (o : Fin 128) :
    val_main_v131 (F := Ideal) x0 x1 x2 x4 (ix2 i o) = t1 x0 x1 x2 x4 3 i o := by
  rw [val_main_v131_apply]
  exact Finset.sum_congr rfl fun k _ => by
    rw [show lidx_main_v131 (ix2 i o) k = ix2 i k from ix2_ext rfl rfl, show ridx_main_v131 (ix2 i o) k = ix2 k o from ix2_ext rfl rfl]
    exact congrArg₂ (· * ·) (edge_quot x1 x2 3 x0 i k) (slab_read x4 3 _ _ k o)

theorem prod_4 (i : Fin 100000) (o : Fin 128) :
    val_main_v165 (F := Ideal) x0 x1 x2 x4 (ix2 i o) = t1 x0 x1 x2 x4 4 i o := by
  rw [val_main_v165_apply]
  exact Finset.sum_congr rfl fun k _ => by
    rw [show lidx_main_v165 (ix2 i o) k = ix2 i k from ix2_ext rfl rfl, show ridx_main_v165 (ix2 i o) k = ix2 k o from ix2_ext rfl rfl]
    exact congrArg₂ (· * ·) (edge_quot x1 x2 4 x0 i k) (slab_read x4 4 _ _ k o)

/-- The running sum over the edge types is the layer; the clamp at zero is applied to the total. -/
theorem ref_h1 (i : Fin 100000) (o : Fin 128) :
    val_main_v172 (F := Ideal) x0 x1 x2 x4 x5 (ix2 i o)
      = Spec.h1R (Args.featOf x0) (Args.srcRowOf x1) (Args.dstIntOf x2) (Args.w1Of x4) (Args.b1Of x5) i o := by
  rw [val_main_v172_apply, val_main_call0_v0_apply, val_main_call0_cst_apply, val_main_v171_apply, val_main_v166_apply,
    val_main_v137_apply, val_main_v132_apply, val_main_v103_apply, val_main_v98_apply, val_main_v69_apply, val_main_v64_apply,
    val_main_v35_apply, val_main_v30_apply, val_main_v0_apply, val_main_cst_apply, prod_0, prod_1, prod_2, prod_3, prod_4,
    show val_main_v34 (F := Ideal) x5 (ix2 i o) = Args.b1Of x5 0 o from rowbc_read x5 0 _ _ _ _ i o,
    show val_main_v68 (F := Ideal) x5 (ix2 i o) = Args.b1Of x5 1 o from rowbc_read x5 1 _ _ _ _ i o,
    show val_main_v102 (F := Ideal) x5 (ix2 i o) = Args.b1Of x5 2 o from rowbc_read x5 2 _ _ _ _ i o,
    show val_main_v136 (F := Ideal) x5 (ix2 i o) = Args.b1Of x5 3 o from rowbc_read x5 3 _ _ _ _ i o,
    show val_main_v170 (F := Ideal) x5 (ix2 i o) = Args.b1Of x5 4 o from rowbc_read x5 4 _ _ _ _ i o]
  simp only [Ideal.maximumf_def, Ideal.addf_def, Ideal.ofBits_def, Ideal.ofBits_zero_f32]
  exact congrArg (fun t => max t (0 : EReal)) (fold_five (t1 x0 x1 x2 x4 · i o) (Args.b1Of x5 · o))

end Cert.ReferenceIdeal.RefValue

end
-- ==== Proof.Ref.Layer2Lib.lean ====
import proofs.«424244_j62423054680132_3_alg».proof.Proof.Ref.Layer1Lib

noncomputable section

namespace Cert.ReferenceIdeal.RefValue

open Idealize.ShloMosaic Idealize.ShloMosaic.ValueIdx Cert Cert.LibGatherScatter

/-- Rows accumulated at the nodes' graph numbers sum over a graph's nodes; ones accumulated there count them. -/
theorem mean_read {D : ℕ} (x3 : IVec ⟨1, ![100000]⟩ 32)
    (d : ScatterDims ⟨1, ![64]⟩ ⟨2, ![100000, 1]⟩ ⟨1, ![100000]⟩)
    (huw : d.updateWindowDims = []) (hins : d.insertedWindowDims = [0]) (hsd : d.scatterDimsToOperandDims = [0])
    (hivd : d.indexVectorDim = 1)
    (ds : ScatterDims ⟨2, ![64, D]⟩ ⟨2, ![100000, 1]⟩ ⟨2, ![100000, D]⟩)
    (huw' : ds.updateWindowDims = [1]) (hins' : ds.insertedWindowDims = [0]) (hsd' : ds.scatterDimsToOperandDims = [0])
    (hivd' : ds.indexVectorDim = 1)
    (z1 : FVec Ideal ⟨1, ![64]⟩ .f32) (u : FVec Ideal ⟨1, ![100000]⟩ .f32) (z2 : FVec Ideal ⟨2, ![64, D]⟩ .f32)
    (U : FVec Ideal ⟨2, ![100000, D]⟩ .f32) (gA gB : IVec ⟨2, ![100000, 1]⟩ 32)
    (hz1 : ∀ c, z1 (ix1 c) = 0) (hu : ∀ r, u (ix1 r) = 1) (hz2 : ∀ c q, z2 (ix2 c q) = 0)
    (hA : ∀ r, gA (ix2 r (0 : Fin 1)) = x3 (ix1 r)) (hB : ∀ r, gB (ix2 r (0 : Fin 1)) = x3 (ix1 r))
    (g : Fin 64) (q : Fin D) :
    Ideal.div (Host.scatterAdd ds z2 gB U (ix2 g q)) (max (Host.scatterAdd d z1 gA u (ix1 g)) 1)
      = Ideal.div (∑ r ∈ Spec.members (Args.gidIntOf x3) g, U (ix2 r q))
          (max (∑ _r ∈ Spec.members (Args.gidIntOf x3) g, (1 : EReal)) 1) := by
  rw [scatterAdd_rows ds huw' hins' hsd' hivd', hz2, zero_add, scatterAdd_vec d huw hins hsd hivd, hz1, zero_add]
  unfold Spec.members
  exact congrArg₂ (fun a b => Ideal.div a (max b 1))
    (Finset.sum_congr (Finset.filter_congr fun r _ => by rw [hB]; exact Iff.rfl) fun _ _ => rfl)
    (Finset.sum_congr (Finset.filter_congr fun r _ => by rw [hA]; exact Iff.rfl) fun r _ => hu r)

end Cert.ReferenceIdeal.RefValue

end
-- ==== Proof.Ref.Layer2.lean ====
import proofs.«424244_j62423054680132_3_alg».proof.Proof.Ref.ReadP
import proofs.«424244_j62423054680132_3_alg».proof.Proof.Ref.Layer2Lib

noncomputable section

namespace Cert.ReferenceIdeal.RefValue

open Idealize.ShloMosaic Idealize.ShloMosaic.ValueIdx Cert Cert.ReferenceIdeal Cert.ReferenceIdeal.ReadP

variable (x0 : (⟨S100000x23, .f32⟩ : BufTy).Contents (Elt Ideal)) (x1 x2 : (⟨S5x800000, .i32⟩ : BufTy).Contents (Elt Ideal))
  (x3 : (⟨S100000, .i32⟩ : BufTy).Contents (Elt Ideal)) (x4 : (⟨S5x23x128, .f32⟩ : BufTy).Contents (Elt Ideal))
  (x5 : (⟨S5x128, .f32⟩ : BufTy).Contents (Elt Ideal)) (x6 : (⟨S5x128x64, .f32⟩ : BufTy).Contents (Elt Ideal))
  (x7 : (⟨S5x64, .f32⟩ : BufTy).Contents (Elt Ideal))

/-- The first layer's output at plain coordinates: the rows the second layer aggregates. -/
abbrev l2_h : Fin 100000 → Fin 128 → EReal := fun a b => val_main_v172 (F := Ideal) x0 x1 x2 x4 x5 (ix2 a b)

/-- An edge type's term of the second layer. -/
abbrev t2 := term (Args.srcRowOf x1) (Args.dstIntOf x2) (l2_h x0 x1 x2 x4 x5) (Args.w2Of x6)

theorem prod2_0 (i : Fin 100000) (o : Fin 64) :
    val_main_v202 (F := Ideal) x0 x1 x2 x4 x5 x6 (ix2 i o) = t2 x0 x1 x2 x4 x5 x6 0 i o := by
  rw [val_main_v202_apply]
  exact Finset.sum_congr rfl fun k _ => by
    rw [show lidx_main_v202 (ix2 i o) k = ix2 i k from ix2_ext rfl rfl, show ridx_main_v202 (ix2 i o) k = ix2 k o from ix2_ext rfl rfl]
    exact congrArg₂ (· * ·) (edge_quot x1 x2 0 _ i k) (slab_read x6 0 _ _ k o)

theorem prod2_1 (i : Fin 100000) (o : Fin 64) :
    val_main_v236 (F := Ideal) x0 x1 x2 x4 x5 x6 (ix2 i o) = t2 x0 x1 x2 x4 x5 x6 1 i o := by
  rw [val_main_v236_apply]
  exact Finset.sum_congr rfl fun k _ => by
    rw [show lidx_main_v236 (ix2 i o) k = ix2 i k from ix2_ext rfl rfl, show ridx_main_v236 (ix2 i o) k = ix2 k o from ix2_ext rfl rfl]
    exact congrArg₂ (· * ·) (edge_quot x1 x2 1 _ i k) (slab_read x6 1 _ _ k o)

theorem prod2_2 (i : Fin 100000) (o : Fin 64) :
    val_main_v270 (F := Ideal) x0 x1 x2 x4 x5 x6 (ix2 i o) = t2 x0 x1 x2 x4 x5 x6 2 i o := by
  rw [val_main_v270_apply]
  exact Finset.sum_congr rfl fun k _ => by
    rw [show lidx_main_v270 (ix2 i o) k = ix2 i k from ix2_ext rfl rfl, show ridx_main_v270 (ix2 i o) k = ix2 k o from ix2_ext rfl rfl]
    exact congrArg₂ (· * ·) (edge_quot x1 x2 2 _ i k) (slab_read x6 2 _ _ k o)

theorem prod2_3 (i : Fin 100000) (o : Fin 64) :
    val_main_v304 (F := Ideal) x0 x1 x2 x4 x5 x6 (ix2 i o) = t2 x0 x1 x2 x4 x5 x6 3 i o := by
  rw [val_main_v304_apply]
  exact Finset.sum_congr rfl fun k _ => by
    rw [show lidx_main_v304 (ix2 i o) k = ix2 i k from ix2_ext rfl rfl, show ridx_main_v304 (ix2 i o) k = ix2 k o from ix2_ext rfl rfl]
    exact congrArg₂ (· * ·) (edge_quot x1 x2 3 _ i k) (slab_read x6 3 _ _ k o)

theorem prod2_4 (i : Fin 100000) (o : Fin 64) :
    val_main_v338 (F := Ideal) x0 x1 x2 x4 x5 x6 (ix2 i o) = t2 x0 x1 x2 x4 x5 x6 4 i o := by
  rw [val_main_v338_apply]
  exact Finset.sum_congr rfl fun k _ => by
    rw [show lidx_main_v338 (ix2 i o) k = ix2 i k from ix2_ext rfl rfl, show ridx_main_v338 (ix2 i o) k = ix2 k o from ix2_ext rfl rfl]
    exact congrArg₂ (· * ·) (edge_quot x1 x2 4 _ i k) (slab_read x6 4 _ _ k o)

/-- The running sum over the edge types is one reference layer over the first layer's output. -/
theorem l2_layer (i : Fin 100000) (o : Fin 64) :
    val_main_v344 (F := Ideal) x0 x1 x2 x4 x5 x6 x7 (ix2 i o)
      = Spec.layerR (Args.srcRowOf x1) (Args.dstIntOf x2) (l2_h x0 x1 x2 x4 x5) (Args.w2Of x6) (Args.b2Of x7) i o := by
  rw [val_main_v344_apply, val_main_v339_apply, val_main_v310_apply, val_main_v305_apply, val_main_v276_apply,
    val_main_v271_apply, val_main_v242_apply, val_main_v237_apply, val_main_v208_apply, val_main_v203_apply,
    show val_main_v173 (F := Ideal) (ix2 i o) = 0 from splat_zero _ _, prod2_0, prod2_1, prod2_2, prod2_3, prod2_4,
    show val_main_v207 (F := Ideal) x7 (ix2 i o) = Args.b2Of x7 0 o from rowbc_read x7 0 _ _ _ _ i o,
    show val_main_v241 (F := Ideal) x7 (ix2 i o) = Args.b2Of x7 1 o from rowbc_read x7 1 _ _ _ _ i o,
    show val_main_v275 (F := Ideal) x7 (ix2 i o) = Args.b2Of x7 2 o from rowbc_read x7 2 _ _ _ _ i o,
    show val_main_v309 (F := Ideal) x7 (ix2 i o) = Args.b2Of x7 3 o from rowbc_read x7 3 _ _ _ _ i o,
    show val_main_v343 (F := Ideal) x7 (ix2 i o) = Args.b2Of x7 4 o from rowbc_read x7 4 _ _ _ _ i o]
  simp only [Ideal.addf_def]
  exact fold_five (t2 x0 x1 x2 x4 x5 x6 · i o) (Args.b2Of x7 · o)

/-- The result divides each graph's sum of second-layer rows by its number of nodes clamped below at one. -/
theorem ref_net_over_h1 (g j : Fin 64) :
    val_main_v356 (F := Ideal) x0 x1 x2 x3 x4 x5 x6 x7 (ix2 g j)
      = Ideal.div
          (∑ r ∈ Spec.members (Args.gidIntOf x3) g,
            Spec.layerR (Args.srcRowOf x1) (Args.dstIntOf x2) (l2_h x0 x1 x2 x4 x5) (Args.w2Of x6) (Args.b2Of x7) r j)
          (max (∑ _r ∈ Spec.members (Args.gidIntOf x3) g, (1 : EReal)) 1) := by
  rw [val_main_v356_apply, show val_main_v355 (F := Ideal) x3 (ix2 g j) = val_main_v353 (F := Ideal) x3 (ix1 g) from
    colbc_read _ _ _ g j, val_main_v353_apply, show val_main_v352 (F := Ideal) (ix1 g) = 1 from splat_one _ _]
  simp only [Ideal.hostDivf_def, Ideal.maximumf_def]
  refine (mean_read x3 _ rfl rfl rfl rfl _ rfl rfl rfl rfl _ _ _ _ _ _ (fun _ => splat_zero _ _) (fun _ => splat_one _ _)
    (fun _ _ => splat_zero _ _) (col_read x3 _) (col_read x3 _) g j).trans ?_
  exact congrArg₂ Ideal.div (Finset.sum_congr rfl fun r _ => l2_layer x0 x1 x2 x4 x5 x6 x7 r j) rfl

end Cert.ReferenceIdeal.RefValue

end
-- ==== Proof.Ref.Value.lean ====
import proofs.«424244_j62423054680132_3_alg».proof.Proof.Ref.Layer1
import proofs.«424244_j62423054680132_3_alg».proof.Proof.Ref.Layer2

noncomputable section

namespace Cert.ReferenceIdeal.RefValue

open Cert.ReferenceIdeal Idealize.ShloMosaic Idealize.ShloMosaic.ValueIdx

theorem ref_value (x0 : (⟨S100000x23, .f32⟩ : BufTy).Contents (Elt Ideal)) (x1 x2 : (⟨S5x800000, .i32⟩ : BufTy).Contents (Elt Ideal))
    (x3 : (⟨S100000, .i32⟩ : BufTy).Contents (Elt Ideal)) (x4 : (⟨S5x23x128, .f32⟩ : BufTy).Contents (Elt Ideal))
    (x5 : (⟨S5x128, .f32⟩ : BufTy).Contents (Elt Ideal)) (x6 : (⟨S5x128x64, .f32⟩ : BufTy).Contents (Elt Ideal))
    (x7 : (⟨S5x64, .f32⟩ : BufTy).Contents (Elt Ideal)) (g j : Fin 64) :
    ReadP.val_main_v356 (F := Ideal) x0 x1 x2 x3 x4 x5 x6 x7 (ix2 g j)
      = Spec.netR (Args.featOf x0) (Args.srcRowOf x1) (Args.dstIntOf x2) (Args.gidIntOf x3) (Args.w1Of x4) (Args.b1Of x5)
          (Args.w2Of x6) (Args.b2Of x7) g j := by
  rw [ref_net_over_h1, show l2_h x0 x1 x2 x4 x5
      = Spec.h1R (Args.featOf x0) (Args.srcRowOf x1) (Args.dstIntOf x2) (Args.w1Of x4) (Args.b1Of x5) from
    funext fun i => funext fun k => ref_h1 x0 x1 x2 x4 x5 i k]
  rfl

end Cert.ReferenceIdeal.RefValue

end
-- ==== Proof.PreFinite.lean ====
import proofs.«424244_j62423054680132_3_alg».proof.Defs
import proofs.«424244_j62423054680132_3_alg».proof.Proof.Args
import Idealize.ShloMosaic.Lib.ReduceAll
import Idealize.ShloMosaic.Lib.ValueIdx

noncomputable section

namespace Cert.PreFinite

open Idealize.ShloMosaic Idealize.ShloMosaic.ValueIdx
open Cert.Pre_finite_inputs

theorem subsingleton_S_ : Subsingleton S_.Idx := ⟨fun a b => funext fun d => d.elim0⟩

theorem inf_word : Ideal.ofBits .f32 0x7F800000#32 = (⊤ : EReal) := by
  simp [Ideal.ofBits, Ideal.ieee]

-- |x| < +∞ excludes both infinities.
theorem real_of_abs_lt_top (x : EReal) (h : max x (-x) < ⊤) : ∃ r : ℝ, x = (r : EReal) := by
  induction x using EReal.rec with
  | bot => simp at h
  | coe r => exact ⟨r, rfl⟩
  | top => simp at h

theorem entry_real {s : Shape} (bc : S_.BroadcastsInDim s (![] : Fin 0 → Fin s.rank)) (a : FVec Ideal s .f32) (i : s.Idx)
    (h : cmpf .olt (Host.absf a) (broadcastInDim s ![] bc (constant (F := Ideal) S_ .f32 0x7F800000#32)) i = 1#1) :
    ∃ r : ℝ, a i = (r : EReal) := by
  have h' : Ideal.cmp .olt (max (a i) (-(a i))) (Ideal.ofBits .f32 0x7F800000#32) = 1#1 := h
  rw [inf_word] at h'
  refine real_of_abs_lt_top (a i) ?_
  by_contra hn
  simp [Ideal.cmp, hn] at h'

theorem all_real {s : Shape} {axes : List (Fin s.rank)} (bc : S_.BroadcastsInDim s (![] : Fin 0 → Fin s.rank))
    (rd : s.ReducesTo axes S_) (hS : 0 < S_.numel) (a : FVec Ideal s .f32)
    (h : Host.reduce IntOp.andi (cmpf .olt (Host.absf a) (broadcastInDim s ![] bc (constant (F := Ideal) S_ .f32 0x7F800000#32)))
      (constantI S_ 1 1#1) rd hS ix0 = 1#1) (i : s.Idx) : ∃ r : ℝ, a i = (r : EReal) :=
  haveI := subsingleton_S_
  entry_real bc a i (Host.reduce_andi_all _ _ rd hS ix0 h i)

variable [Cert.Pre_finite_inputs.Facts]
open Cert.Pre_finite_inputs.Facts

-- The precondition is a conjunction of five `all |a| < +∞`; each conjunct makes every entry of its array real.
theorem finite_of_fn (a0 : FVec Ideal S100000x23 .f32) (a1 a2 : IVec S5x800000 32) (a3 : IVec S100000 32)
    (a4 : FVec Ideal S5x23x128 .f32) (a5 : FVec Ideal S5x128 .f32) (a6 : FVec Ideal S5x128x64 .f32) (a7 : FVec Ideal S5x64 .f32)
    (h : Cert.Pre_finite_inputs.fn (F := Ideal) a0 a1 a2 a3 a4 a5 a6 a7 = (fun _ => 1#1)) :
    (∀ i k, ∃ x : ℝ, Cert.Args.featOf a0 i k = (x : EReal)) ∧ (∀ e k o, ∃ x : ℝ, Cert.Args.w1Of a4 e k o = (x : EReal))
      ∧ (∀ e o, ∃ x : ℝ, Cert.Args.b1Of a5 e o = (x : EReal)) ∧ (∀ e k o, ∃ x : ℝ, Cert.Args.w2Of a6 e k o = (x : EReal))
      ∧ (∀ e o, ∃ x : ℝ, Cert.Args.b2Of a7 e o = (x : EReal)) := by
  have h0 := congrFun h ix0
  dsimp only [fn, fn_part1] at h0
  obtain ⟨h0, h22⟩ := IntOp.andi_eq_one.1 h0
  obtain ⟨h0, h17⟩ := IntOp.andi_eq_one.1 h0
  obtain ⟨h0, h12⟩ := IntOp.andi_eq_one.1 h0
  obtain ⟨h3, h7⟩ := IntOp.andi_eq_one.1 h0
  exact ⟨fun i k => all_real _ _ _ a0 h3 (ix2 i k), fun e k o => all_real _ _ _ a4 h7 (ix3 e k o),
    fun e o => all_real _ _ _ a5 h12 (ix2 e o), fun e k o => all_real _ _ _ a6 h17 (ix3 e k o),
    fun e o => all_real _ _ _ a7 h22 (ix2 e o)⟩

end Cert.PreFinite

end
-- ==== Proof.Algebra.lean ====
import proofs.«424244_j62423054680132_3_alg».proof.Proof.Spec
import Mathlib.Data.EReal.Basic
import Mathlib.Data.EReal.Operations
import Mathlib.Data.EReal.Inv
import Mathlib.Algebra.BigOperators.Group.Finset.Basic
import Mathlib.Algebra.BigOperators.Ring.Finset
import Mathlib.Tactic.Ring
import Mathlib.Tactic.Positivity

noncomputable section

namespace Cert.Spec

open Idealize.ShloMosaic

def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  obtain ⟨a, rfl⟩ := hx
  obtain ⟨b, rfl⟩ := hy
  exact ⟨Max.max a b, (EReal.coe_strictMono.monotone.map_max).symm⟩

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem deg_add_one (dI : Fin 5 → Fin 800000 → ℤ) (e : Fin 5) (i : Fin 100000) :
    deg dI e i + 1 = ((((inEdges dI e i).card : ℝ) + 1 : ℝ) : EReal) := by
  rw [deg, Finset.sum_const, nsmul_one, EReal.coe_add, EReal.coe_one, EReal.coe_natCast]

def rcp (dI : Fin 5 → Fin 800000 → ℤ) (e : Fin 5) (i : Fin 100000) : ℝ := 1 / (((inEdges dI e i).card : ℝ) + 1)

-- in-degree + 1 is a positive real, so dividing by it is multiplying by its real reciprocal.
theorem div_deg (dI : Fin 5 → Fin 800000 → ℤ) (e : Fin 5) (i : Fin 100000) (x : EReal) :
    Ideal.div x (deg dI e i + 1) = x * (rcp dI e i : EReal) := by
  rw [deg_add_one, rcp]
  exact Ideal.div_coe (by positivity) x

theorem inv_eq (dI : Fin 5 → Fin 800000 → ℤ) (e : Fin 5) (i : Fin 100000) : inv dI e i = (rcp dI e i : EReal) := by
  rw [inv, div_deg, one_mul]

section Net
variable (feat : Fin 100000 → Fin 23 → EReal) (sR : Fin 5 → Fin 800000 → Fin 100000) (dI : Fin 5 → Fin 800000 → ℤ)
  (gI : Fin 100000 → ℤ) (W1 : Fin 5 → Fin 23 → Fin 128 → EReal) (b1 : Fin 5 → Fin 128 → EReal)
  (W2 : Fin 5 → Fin 128 → Fin 64 → EReal) (b2 : Fin 5 → Fin 64 → EReal)

theorem h1K_eq_h1R : h1K feat sR dI W1 b1 = h1R feat sR dI W1 b1 := by
  funext i o
  simp only [h1K, h1R, combine1, layerR, div_deg, inv_eq]

theorem h1R_real (hfeat : ∀ i k, IsReal (feat i k)) (hW1 : ∀ e k o, IsReal (W1 e k o)) (hb1 : ∀ e o, IsReal (b1 e o))
    (i : Fin 100000) (o : Fin 128) : IsReal (h1R feat sR dI W1 b1 i o) := by
  unfold h1R layerR
  refine IsReal.max (IsReal.sum _ _ fun e _ => IsReal.add (IsReal.sum _ _ fun k _ => IsReal.mul ?_ (hW1 e k o)) (hb1 e o))
    IsReal.zero
  rw [div_deg, agg]
  exact IsReal.mul (IsReal.add (IsReal.sum _ _ fun j _ => hfeat _ _) (hfeat _ _)) (IsReal.coe _)

end Net

-- Over the reals: weights applied before or after aggregation agree, by distributivity and an exchange of finite sums.
theorem layer2_real {ι : Type*} (S : Finset ι) {n : ℕ} (s : ι → Fin n → ℝ) (x w : Fin n → ℝ) (r : ℝ) :
    ((∑ j ∈ S, ∑ k : Fin n, (s j k : EReal) * (w k : EReal)) + ∑ k : Fin n, (x k : EReal) * (w k : EReal)) * (r : EReal)
      = ∑ k : Fin n, (((∑ j ∈ S, (s j k : EReal)) + (x k : EReal)) * (r : EReal)) * (w k : EReal) := by
  simp only [← EReal.coe_mul, ← coe_sum, ← EReal.coe_add]
  congr 1
  rw [Finset.sum_comm, ← Finset.sum_add_distrib, Finset.sum_mul]
  refine Finset.sum_congr rfl fun k _ => ?_
  rw [← Finset.sum_mul]
  ring

section Net
variable (feat : Fin 100000 → Fin 23 → EReal) (sR : Fin 5 → Fin 800000 → Fin 100000) (dI : Fin 5 → Fin 800000 → ℤ)
  (gI : Fin 100000 → ℤ) (W1 : Fin 5 → Fin 23 → Fin 128 → EReal) (b1 : Fin 5 → Fin 128 → EReal)
  (W2 : Fin 5 → Fin 128 → Fin 64 → EReal) (b2 : Fin 5 → Fin 64 → EReal)

theorem h2K_eq_h2R (hfeat : ∀ i k, IsReal (feat i k)) (hW1 : ∀ e k o, IsReal (W1 e k o)) (hb1 : ∀ e o, IsReal (b1 e o))
    (hW2 : ∀ e k o, IsReal (W2 e k o)) :
    h2K feat sR dI W1 b1 W2 b2 = h2R feat sR dI W1 b1 W2 b2 := by
  funext i o
  choose h hh using h1R_real feat sR dI W1 b1 hfeat hW1 hb1
  choose w hw using hW2
  simp only [h2K, h2R, combine2, layerR, gK, pre, agg, h1K_eq_h1R, div_deg, inv_eq, hh, hw]
  refine Finset.sum_congr rfl fun e _ => ?_
  exact congrArg (· + b2 e o)
    (layer2_real (inEdges dI e i) (fun j k => h (sR e j) k) (h i) (fun k => w e k o) (rcp dI e i))

end Net

-- A one-hot weighted sum over all nodes is the sum over the graph's members.
theorem hot_sum (gI : Fin 100000 → ℤ) (g : Fin 64) (H : Fin 100000 → EReal) :
    ∑ r : Fin 100000, hot gI r g * H r = ∑ r ∈ members gI g, H r := by
  rw [members, Finset.sum_filter]
  refine Finset.sum_congr rfl fun r _ => ?_
  rw [hot]
  split_ifs
  · rw [one_mul]
  · rw [zero_mul]

theorem netK_eq_netR (feat : Fin 100000 → Fin 23 → EReal) (sR : Fin 5 → Fin 800000 → Fin 100000) (dI : Fin 5 → Fin 800000 → ℤ) (gI : Fin 100000 → ℤ)
    (W1 : Fin 5 → Fin 23 → Fin 128 → EReal) (b1 : Fin 5 → Fin 128 → EReal) (W2 : Fin 5 → Fin 128 → Fin 64 → EReal) (b2 : Fin 5 → Fin 64 → EReal)
    (hfeat : ∀ i k, ∃ x : ℝ, feat i k = (x : EReal)) (hW1 : ∀ e k o, ∃ x : ℝ, W1 e k o = (x : EReal)) (hb1 : ∀ e o, ∃ x : ℝ, b1 e o = (x : EReal))
    (hW2 : ∀ e k o, ∃ x : ℝ, W2 e k o = (x : EReal)) (hb2 : ∀ e o, ∃ x : ℝ, b2 e o = (x : EReal)) :
    netK feat sR dI gI W1 b1 W2 b2 = netR feat sR dI gI W1 b1 W2 b2 := by
  funext g j
  have _ := hb2
  rw [netK, poolK, netR, h2K_eq_h2R feat sR dI W1 b1 W2 b2 hfeat hW1 hb1 hW2,
    hot_sum gI g (fun r => h2R feat sR dI W1 b1 W2 b2 r j), hot_sum gI g (fun _ => 1)]

end Cert.Spec

end
-- ==== Proof.lean ====
import proofs.«424244_j62423054680132_3_alg».proof.Defs
import proofs.«424244_j62423054680132_3_alg».proof.Proof.Gen.Kernel
import proofs.«424244_j62423054680132_3_alg».proof.Proof.Gen.KernelIdeal
import proofs.«424244_j62423054680132_3_alg».proof.Proof.Gen.ReferenceIdeal
import proofs.«424244_j62423054680132_3_alg».proof.Proof.Gen.Pre_finite_inputs
import proofs.«424244_j62423054680132_3_alg».proof.Proof.K.Run
import proofs.«424244_j62423054680132_3_alg».proof.Proof.KI.Run
import proofs.«424244_j62423054680132_3_alg».proof.Proof.KI.Value
import proofs.«424244_j62423054680132_3_alg».proof.Proof.Ref.Run
import proofs.«424244_j62423054680132_3_alg».proof.Proof.Ref.Value
import proofs.«424244_j62423054680132_3_alg».proof.Proof.PreFinite
import proofs.«424244_j62423054680132_3_alg».proof.Proof.Algebra
import Idealize.ShloMosaic.Adequacy
import Idealize.ShloMosaic.Init

noncomputable section

namespace Cert.Proof

open Idealize.ShloMosaic Idealize.ShloMosaic.TcCoe Idealize.SL.Sem Idealize.ShloMosaic.ValueIdx

section Claims
variable [hK : Cert.Kernel.Facts] [hKI : Cert.KernelIdeal.Facts] [hR : Cert.ReferenceIdeal.Facts] [hP : Cert.Pre_finite_inputs.Facts]

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_r : Cert.frame_ReferenceIdeal := fun m ρ _ =>
  (θ_run Cert.ReferenceIdeal.defs _ _).mono (fun _ h c => (h c).2) (Cert.ReferenceIdeal.RefRun.run (F := Ideal) m ρ)

theorem results_eq (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.ReferenceIdeal.ReadP.val_main_v356 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.Hand.W7 m ρ c (Proc.devRef .tc Cert.KernelIdeal.main_v209) := by
  funext idx
  obtain ⟨g, j, rfl⟩ : ∃ (g : Fin 64) (j : Fin 64), idx = ix2 g j := ⟨idx 0, idx 1, eq_ix2 idx⟩
  obtain ⟨hf, hw1, hb1, hw2, hb2⟩ := Cert.PreFinite.finite_of_fn _ _ _ _ _ _ _ _ (hpre c)
  refine (Cert.ReferenceIdeal.RefValue.ref_value _ _ _ _ _ _ _ _ g j).trans ?_
  refine Eq.trans ?_ (Cert.KernelIdeal.Val.kernel_value m ρ c g j).symm
  exact (congrFun (congrFun (Cert.Spec.netK_eq_netR _ _ _ _ _ _ _ _ hf hw1 hb1 hw2 hb2) g) j).symm

theorem algebraic : Cert.algebraic_KernelIdeal_ReferenceIdeal := by
  intro m ρ m' ρ' hpre hagree
  refine ⟨fun c => Cert.KernelIdeal.Hand.W7 m ρ c (Proc.devRef .tc Cert.KernelIdeal.main_v209), ?_, ?_⟩
  · refine (θ_run Cert.KernelIdeal.defs _ _).mono (fun s h c => ?_) (Cert.KernelIdeal.Hand.run_final (F := Ideal) m ρ)
    have key (b : Ref Cert.KernelIdeal.sig .tc) (hs : ¬(Proc.devRef .tc b : DevRef Cert.KernelIdeal.τ Cert.KernelIdeal.sig).isScoped)
        (hb : Cert.KernelIdeal.Hand.IsArg b) :=
      (h c _ (Cert.KernelIdeal.Hand.mem_uc b hs)).trans (Cert.KernelIdeal.Hand.W7_arg m ρ c b hb)
    exact ⟨h c _ (Cert.KernelIdeal.Hand.mem_uc Cert.KernelIdeal.main_v209 (by decide)),
      key Cert.KernelIdeal.main_arg0 (by decide) (by decide), key Cert.KernelIdeal.main_arg1 (by decide) (by decide),
      key Cert.KernelIdeal.main_arg2 (by decide) (by decide), key Cert.KernelIdeal.main_arg3 (by decide) (by decide),
      key Cert.KernelIdeal.main_arg4 (by decide) (by decide), key Cert.KernelIdeal.main_arg5 (by decide) (by decide),
      key Cert.KernelIdeal.main_arg6 (by decide) (by decide), key Cert.KernelIdeal.main_arg7 (by decide) (by decide)⟩
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7⟩ := hagree c
    rw [e0, e1, e2, e3, e4, e5, e6, e7]
    exact results_eq m ρ hpre c

end Claims

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
